-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v36_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v36_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg1 : IVec S2x640000 32) (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S2x640000 32 := broadcastInDim S2x640000 ![] bcast_S_S2x640000 main_c_30
  let main_v80 : IVec S2x640000 1 := cmpi .sge main_arg1 main_v79
  let main_c_31 : IVec S_ 32 := constantI S_ 32 50000#32
  let main_v81 : IVec S2x640000 32 := broadcastInDim S2x640000 ![] bcast_S_S2x640000 main_c_31
  let main_v82 : IVec S2x640000 1 := cmpi .slt main_arg1 main_v81
  let main_v83 : IVec S2x640000 1 := andi main_v80 main_v82
  let main_c_32 : IVec S_ 1 := constantI S_ 1 1#1
  let main_v84 : IVec S_ 1 := (fun x v => Host.reduce IntOp.andi x v reducesTo_S2x640000_S_d0_1 h_S_) main_v83 main_c_32
  fn_part5 (F := F) main_v78 main_v84

def fn_part3 {F : FTy → Type} [FloatOps F] (main_arg1 : IVec S2x640000 32) (main_arg12 : FVec F S128 .f32) (main_arg13 : FVec F S128 .f32) (main_arg14 : FVec F S128 .f32) (main_arg15 : FVec F S128 .f32) (main_arg16 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_v63 main_v67

def fn_part2 {F : FTy → Type} [FloatOps F] (main_arg1 : IVec S2x640000 32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_arg15 main_arg16 main_v48 main_v49 main_v50

def fn_part1 {F : FTy → Type} [FloatOps F] (main_arg1 : IVec S2x640000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x128 .f32) (main_arg1 : IVec S2x640000 32) (main_arg2 : FVec F S640000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S128x512 : Shape := ⟨2, ![128, 512]⟩
abbrev S512 : Shape := ⟨1, ![512]⟩
abbrev S1x512 : Shape := ⟨2, ![1, 512]⟩
abbrev S50000x256 : Shape := ⟨2, ![50000, 256]⟩
abbrev S2000x128 : Shape := ⟨2, ![2000, 128]⟩
abbrev S2000x256 : Shape := ⟨2, ![2000, 256]⟩
abbrev S2000x512 : Shape := ⟨2, ![2000, 512]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x256 : Shape := ⟨2, ![640000, 256]⟩
abbrev S1x128 : Shape := ⟨2, ![1, 128]⟩
abbrev S1280x128 : Shape := ⟨2, ![1280, 128]⟩
abbrev S4000x128 : Shape := ⟨2, ![4000, 128]⟩
abbrev S8x128 : Shape := ⟨2, ![8, 128]⟩
abbrev S6x128 : Shape := ⟨2, ![6, 128]⟩
abbrev S160x8x128 : Shape := ⟨3, ![160, 8, 128]⟩
abbrev S160x1x128 : Shape := ⟨3, ![160, 1, 128]⟩
abbrev S160x128 : Shape := ⟨2, ![160, 128]⟩
abbrev S200x128 : Shape := ⟨2, ![200, 128]⟩
abbrev S25x8x128 : Shape := ⟨3, ![25, 8, 128]⟩
abbrev S25x1x128 : Shape := ⟨3, ![25, 1, 128]⟩
abbrev S25x128 : Shape := ⟨2, ![25, 128]⟩

abbrev nBuf : Space → Nat
  | .hbm => 138
  | .vmem => 54
  | .smem => 0
  | _ => 0

abbrev hbmTy0_0 (i : Nat) : BufTy := match i % 128 with
  | 0 => ⟨S50000x128, .f32⟩
  | 1 => ⟨S2x640000, .i32⟩
  | 2 => ⟨S640000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S1x640000, .i32⟩
  | 18 => ⟨S640000, .i32⟩
  | 19 => ⟨S1x640000, .i32⟩
  | 20 => ⟨S640000, .i32⟩
  | 21 => ⟨S128x128, .f32⟩
  | 22 => ⟨S128x128, .f32⟩
  | 23 => ⟨S128x128, .f32⟩
  | 24 => ⟨S128x128, .f32⟩
  | 25 => ⟨S128x512, .f32⟩
  | 26 => ⟨S512, .f32⟩
  | 27 => ⟨S1x512, .f32⟩
  | 28 => ⟨S50000x128, .f32⟩
  | 29 => ⟨S50000x256, .f32⟩
  | 30 => ⟨S50000x128, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S1, .i32⟩
  | 40 => ⟨S_, .i32⟩
  | 41 => ⟨S640000x1, .i32⟩
  | 42 => ⟨S640000x1, .i1⟩
  | 43 => ⟨S1x1, .i32⟩
  | 44 => ⟨S640000x1, .i32⟩
  | 45 => ⟨S640000x1, .i1⟩
  | 46 => ⟨S640000x1, .i1⟩
  | 47 => ⟨S_, .i1⟩
  | 48 => ⟨S640000, .i1⟩
  | 49 => ⟨S640000x128, .f32⟩
  | 50 => ⟨S640000x128, .i1⟩
  | 51 => ⟨S_, .f32⟩
  | 52 => ⟨S640000x128, .f32⟩
  | 53 => ⟨S640000x128, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S1, .i32⟩
  | 63 => ⟨S_, .i32⟩
  | 64 => ⟨S640000x1, .i32⟩
  | 65 => ⟨S640000x1, .i1⟩
  | 66 => ⟨S1x1, .i32⟩
  | 67 => ⟨S640000x1, .i32⟩
  | 68 => ⟨S640000x1, .i1⟩
  | 69 => ⟨S640000x1, .i1⟩
  | 70 => ⟨S_, .i1⟩
  | 71 => ⟨S640000, .i1⟩
  | 72 => ⟨S640000x256, .f32⟩
  | 73 => ⟨S640000x256, .i1⟩
  | 74 => ⟨S_, .f32⟩
  | 75 => ⟨S640000x256, .f32⟩
  | 76 => ⟨S640000x256, .f32⟩
  | 77 => ⟨S128x128, .f32⟩
  | 78 => ⟨S1x128, .f32⟩
  | 79 => ⟨S640000x128, .f32⟩
  | 80 => ⟨S1280x128, .f32⟩
  | 81 => ⟨S160x8x128, .f32⟩
  | 82 => ⟨S160x1x128, .f32⟩
  | 83 => ⟨S160x128, .f32⟩
  | 84 => ⟨S_, .f32⟩
  | 85 => ⟨S128, .f32⟩
  | 86 => ⟨S1x128, .f32⟩
  | 87 => ⟨S160x1x128, .f32⟩
  | 88 => ⟨S160x128, .f32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S640000x128, .f32⟩
  | 106 => ⟨S640000x128, .f32⟩
  | 107 => ⟨S_, .f32⟩
  | 108 => ⟨S50000x128, .f32⟩
  | 109 => ⟨S640000x1, .i32⟩
  | 110 => ⟨S50000x128, .f32⟩
  | 111 => ⟨S50000x128, .f32⟩
  | 112 => ⟨S200x128, .f32⟩
  | 113 => ⟨S25x8x128, .f32⟩
  | 114 => ⟨S25x1x128, .f32⟩
  | 115 => ⟨S25x128, .f32⟩
  | 116 => ⟨S_, .f32⟩
  | 117 => ⟨S128, .f32⟩
  | 118 => ⟨S1x128, .f32⟩
  | 119 => ⟨S25x1x128, .f32⟩
  | 120 => ⟨S25x128, .f32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S1x128, .f32⟩
  | 9 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x128, .f32⟩
  | .local _ .vmem, ⟨5, _⟩ => ⟨S2000x128, .f32⟩
  | .local _ .vmem, ⟨6, _⟩ => ⟨S2000x256, .f32⟩
  | .local _ .vmem, ⟨7, _⟩ => ⟨S2000x256, .f32⟩
  | .local _ .vmem, ⟨8, _⟩ => ⟨S2000x128, .f32⟩
  | .local _ .vmem, ⟨9, _⟩ => ⟨S2000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S8x128, .f32⟩
  | .local _ .vmem, ⟨21, _⟩ => ⟨S8x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S8x128, .f32⟩
  | .local _ .vmem, ⟨43, _⟩ => ⟨S8x128, .f32⟩
  | .local _ .vmem, ⟨44, _⟩ => ⟨S2000x128, .f32⟩
  | .local _ .vmem, ⟨45, _⟩ => ⟨S2000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v12 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16_0 : Ref sig .tc := ⟨.hbm, 79, rfl⟩
abbrev main_v16_1 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_cst : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_cst_0 : Ref sig .tc := ⟨.hbm, 89, rfl⟩
abbrev main_v24 : Ref sig .tc := ⟨.hbm, 90, rfl⟩
abbrev main_v25 : Ref sig .tc := ⟨.hbm, 91, rfl⟩
abbrev main_cst_1 : Ref sig .tc := ⟨.hbm, 92, rfl⟩
abbrev main_v26 : Ref sig .tc := ⟨.hbm, 93, rfl⟩
abbrev main_v27 : Ref sig .tc := ⟨.hbm, 94, rfl⟩
abbrev main_cst_2 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_cst_3 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36_0 : Ref sig .tc := ⟨.hbm, 105, rfl⟩
abbrev main_v36_1 : Ref sig .tc := ⟨.hbm, 106, rfl⟩
abbrev main_cst_4 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40_0 : Ref sig .tc := ⟨.hbm, 111, rfl⟩
abbrev main_v40_1 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_cst_5 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_cst_6 : Ref sig .tc := ⟨.hbm, 121, rfl⟩
abbrev main_v48 : Ref sig .tc := ⟨.hbm, 122, rfl⟩
abbrev main_v49 : Ref sig .tc := ⟨.hbm, 123, rfl⟩
abbrev main_cst_7 : Ref sig .tc := ⟨.hbm, 124, rfl⟩
abbrev main_v50 : Ref sig .tc := ⟨.hbm, 125, rfl⟩
abbrev main_v51 : Ref sig .tc := ⟨.hbm, 126, rfl⟩
abbrev main_cst_8 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_cst_9 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc4_stg6_0 : Ref sig .tc := ⟨.vmem, 52, rfl⟩
abbrev cc4_stg6_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51
abbrev cc4_sem6_0 : DmaSem sig := 52
abbrev cc4_sem6_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x128 : S2000x512.Slices ![0, 0] S2000x128
  slices_S2000x512_o0_128_S2000x256 : S2000x512.Slices ![0, 128] S2000x256
  inb_S2000x256_S2000x256_0_0 : ∀ a, (![0, 0] : Fin 2 → Nat) a + S2000x256.size a ≤ S2000x256.size a
  h_S2000x256 : 0 < S2000x256.numel
  slices_S2000x512_o0_384_S2000x128 : S2000x512.Slices ![0, 384] S2000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000_S640000x256_0 : S640000.BroadcastsInDim S640000x256 (![0] : Fin 1 → Fin S640000x256.rank)
  bcast_S_S640000x256 : S_.BroadcastsInDim S640000x256 (![] : Fin 0 → Fin S640000x256.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  inb_S8x128_S1x128_0_0 : ∀ a, (![0, 0] : Fin 2 → Nat) a + S1x128.size a ≤ S8x128.size a
  inb_S8x128_S1x128_1_0 : ∀ a, (![1, 0] : Fin 2 → Nat) a + S1x128.size a ≤ S8x128.size a
  inb_S8x128_S6x128_2_0 : ∀ a, (![2, 0] : Fin 2 → Nat) a + S6x128.size a ≤ S8x128.size a
  h_S6x128 : 0 < S6x128.numel
  shapeCasts_S1280x128_S160x8x128 : S1280x128.ShapeCasts S160x8x128
  slices_S160x8x128_S160x1x128_0_0_0 : S160x8x128.Slices ![0, 0, 0] S160x1x128
  shapeCasts_S160x1x128_S160x128 : S160x1x128.ShapeCasts S160x128
  reducesTo_S160x128_S128_d0 : S160x128.ReducesTo [0] S128
  bcast_S128_S1x128_1 : S128.BroadcastsInDim S1x128 (![1] : Fin 1 → Fin S1x128.rank)
  slices_S160x8x128_S160x1x128_0_1_0 : S160x8x128.Slices ![0, 1, 0] S160x1x128
  bcast_S_S1x128 : S_.BroadcastsInDim S1x128 (![] : Fin 0 → Fin S1x128.rank)
  bcast_S_S50000x128 : S_.BroadcastsInDim S50000x128 (![] : Fin 0 → Fin S50000x128.rank)
  shapeCasts_S2000x128_S2000x128 : S2000x128.ShapeCasts S2000x128
  reduces_S2000x128_S128 : S2000x128.Reduces [0] S128
  shapeCasts_S200x128_S25x8x128 : S200x128.ShapeCasts S25x8x128
  slices_S25x8x128_S25x1x128_0_0_0 : S25x8x128.Slices ![0, 0, 0] S25x1x128
  shapeCasts_S25x1x128_S25x128 : S25x1x128.ShapeCasts S25x128
  reducesTo_S25x128_S128_d0 : S25x128.ReducesTo [0] S128
  slices_S25x8x128_S25x1x128_0_1_0 : S25x8x128.Slices ![0, 1, 0] S25x1x128
  broadcasts_S1x128_S2000x128 : S1x128.Broadcasts S2000x128
  dot_S2000x128_S128x512_S2000x512_1_0_0_1_n_n_wf : DotDims.WF S2000x128 S128x512 S2000x512 [1] [0] [0] [1] [] []
  gather_S50000x128_S640000x1_S640000x128_1_0_n_n_0_1_1128_wf : GatherDims.WF S50000x128 S640000x1 S640000x128 [1] [0] [] [0] [] 1 ![1, 128]
  gather_S50000x256_S640000x1_S640000x256_1_0_n_n_0_1_1256_wf : GatherDims.WF S50000x256 S640000x1 S640000x256 [1] [0] [] [0] [] 1 ![1, 256]
  dot_S4000x128_S128x128_S4000x128_1_0_0_1_n_n_wf : DotDims.WF S4000x128 S128x128 S4000x128 [1] [0] [0] [1] [] []
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S640000x128.size a
  hwx1_3 : ∀ i : grid1.Coords, EltTy.bits .f32 = 32 ∨ (Rect.block (s := S640000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S640000x256.size a
  hwx1_4 : ∀ i : grid1.Coords, EltTy.bits .f32 = 32 ∨ (Rect.block (s := S640000x256) S4000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S640000x128.size a
  hwx1_5 : ∀ i : grid1.Coords, EltTy.bits .f32 = 32 ∨ (Rect.block (s := S640000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S1280x128.size a
  hwx1_6 : ∀ i : grid1.Coords, EltTy.bits .f32 = 32 ∨ (Rect.block (s := S1280x128) S8x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S640000x128.size a
  hwx2_0 : ∀ i : grid2.Coords, EltTy.bits .f32 = 32 ∨ (Rect.block (s := S640000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S640000x128.size a
  hwx2_1 : ∀ i : grid2.Coords, EltTy.bits .f32 = 32 ∨ (Rect.block (s := S640000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S640000x256.size a
  hwx2_6 : ∀ i : grid2.Coords, EltTy.bits .f32 = 32 ∨ (Rect.block (s := S640000x256) S4000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S640000x128.size a
  hwx2_7 : ∀ i : grid2.Coords, EltTy.bits .f32 = 32 ∨ (Rect.block (s := S640000x128) S4000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S640000x128.size a
  hwx2_8 : ∀ i : grid2.Coords, EltTy.bits .f32 = 32 ∨ (Rect.block (s := S640000x128) S4000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x128.size a ≤ S200x128.size a
  hwx3_3 : ∀ i : grid3.Coords, EltTy.bits .f32 = 32 ∨ (Rect.block (s := S200x128) S8x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S4000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16_1) S8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16_0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S4000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v36_0) S4000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v36_1) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v11_2) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40_0) S2000x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v40_1) S8x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg0) S2000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v60) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩

abbrev nBuf : Space → Nat
  | .hbm => 185
  | .vmem => 0
  | .smem => 0
  | _ => 0

abbrev hbmTy0_0 (i : Nat) : BufTy := match i % 128 with
  | 0 => ⟨S50000x128, .f32⟩
  | 1 => ⟨S2x640000, .i32⟩
  | 2 => ⟨S640000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S1x640000, .i32⟩
  | 18 => ⟨S640000, .i32⟩
  | 19 => ⟨S1x640000, .i32⟩
  | 20 => ⟨S640000, .i32⟩
  | 21 => ⟨S128x128, .f32⟩
  | 22 => ⟨S50000x128, .f32⟩
  | 23 => ⟨S1x128, .f32⟩
  | 24 => ⟨S50000x128, .f32⟩
  | 25 => ⟨S50000x128, .f32⟩
  | 26 => ⟨S128x128, .f32⟩
  | 27 => ⟨S50000x128, .f32⟩
  | 28 => ⟨S1x128, .f32⟩
  | 29 => ⟨S50000x128, .f32⟩
  | 30 => ⟨S50000x128, .f32⟩
  | 31 => ⟨S128x128, .f32⟩
  | 32 => ⟨S640000x128, .f32⟩
  | 33 => ⟨S1x128, .f32⟩
  | 34 => ⟨S640000x128, .f32⟩
  | 35 => ⟨S640000x128, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x128, .f32⟩
  | 45 => ⟨S640000x128, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x128, .f32⟩
  | 55 => ⟨S640000x128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S640000x128, .f32⟩
  | 69 => ⟨S640000x128, .f32⟩
  | 70 => ⟨S640000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S640000x128, .f32⟩
  | 86 => ⟨S640000x128, .f32⟩
  | 87 => ⟨S1x128, .f32⟩
  | 88 => ⟨S640000x128, .f32⟩
  | 89 => ⟨S640000x128, .f32⟩
  | 90 => ⟨S_, .f32⟩
  | 91 => ⟨S128, .f32⟩
  | 92 => ⟨S128, .f32⟩
  | 93 => ⟨S128, .f32⟩
  | 94 => ⟨S1x128, .f32⟩
  | 95 => ⟨S640000x128, .f32⟩
  | 96 => ⟨S640000x128, .f32⟩
  | 97 => ⟨S1x128, .f32⟩
  | 98 => ⟨S640000x128, .f32⟩
  | 99 => ⟨S640000x128, .f32⟩
  | 100 => ⟨S_, .f32⟩
  | 101 => ⟨S640000x128, .f32⟩
  | 102 => ⟨S640000x128, .f32⟩
  | 103 => ⟨S640000x128, .f32⟩
  | 104 => ⟨S640000x128, .f32⟩
  | 105 => ⟨S640000x128, .f32⟩
  | 106 => ⟨S_, .f32⟩
  | 107 => ⟨S640000x128, .f32⟩
  | 108 => ⟨S640000x128, .f32⟩
  | 109 => ⟨S_, .f32⟩
  | 110 => ⟨S640000x128, .f32⟩
  | 111 => ⟨S640000x128, .f32⟩
  | 112 => ⟨S128x128, .f32⟩
  | 113 => ⟨S50000x128, .f32⟩
  | 114 => ⟨S1x128, .f32⟩
  | 115 => ⟨S50000x128, .f32⟩
  | 116 => ⟨S50000x128, .f32⟩
  | 117 => ⟨S_, .i32⟩
  | 118 => ⟨S640000, .i32⟩
  | 119 => ⟨S640000, .i1⟩
  | 120 => ⟨S_, .i32⟩
  | 121 => ⟨S640000, .i32⟩
  | 122 => ⟨S640000, .i32⟩
  | 123 => ⟨S640000, .i32⟩
  | 124 => ⟨S640000x1, .i32⟩
  | 125 => ⟨S640000x128, .f32⟩
  | 126 => ⟨S640000x128, .f32⟩
  | 127 => ⟨S_, .f32⟩
  | _ => ⟨S50000x128, .f32⟩

abbrev hbmTy0_1 (i : Nat) : BufTy := match i % 128 with
  | 0 => ⟨S50000x128, .f32⟩
  | 1 => ⟨S640000x1, .i32⟩
  | 2 => ⟨S50000x128, .f32⟩
  | 3 => ⟨S128x128, .f32⟩
  | 4 => ⟨S50000x128, .f32⟩
  | 5 => ⟨S1x128, .f32⟩
  | 6 => ⟨S50000x128, .f32⟩
  | 7 => ⟨S50000x128, .f32⟩
  | 8 => ⟨S50000x128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S50000x128, .f32⟩
  | 22 => ⟨S50000x128, .f32⟩
  | 23 => ⟨S50000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_1 : Ref sig .tc := ⟨.hbm, 46, rfl⟩
abbrev main_v27 : Ref sig .tc := ⟨.hbm, 47, rfl⟩
abbrev main_v28 : Ref sig .tc := ⟨.hbm, 48, rfl⟩
abbrev main_c_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_c_4 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_cst_1 : Ref sig .tc := ⟨.hbm, 72, rfl⟩
abbrev main_call0_v8 : Ref sig .tc := ⟨.hbm, 73, rfl⟩
abbrev main_call0_cst_2 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_cst_3 : Ref sig .tc := ⟨.hbm, 78, rfl⟩
abbrev main_call0_v12 : Ref sig .tc := ⟨.hbm, 79, rfl⟩
abbrev main_call0_cst_4 : Ref sig .tc := ⟨.hbm, 80, rfl⟩
abbrev main_call0_call0_v0 : Ref sig .tc := ⟨.hbm, 81, rfl⟩
abbrev main_call0_call0_v1 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_5 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_call1_cst : Ref sig .tc := ⟨.hbm, 100, rfl⟩
abbrev main_call1_v0 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_6 : Ref sig .tc := ⟨.hbm, 106, rfl⟩
abbrev main_v58 : Ref sig .tc := ⟨.hbm, 107, rfl⟩
abbrev main_v59 : Ref sig .tc := ⟨.hbm, 108, rfl⟩
abbrev main_cst_7 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_8 : Ref sig .tc := ⟨.hbm, 117, rfl⟩
abbrev main_v67 : Ref sig .tc := ⟨.hbm, 118, rfl⟩
abbrev main_v68 : Ref sig .tc := ⟨.hbm, 119, rfl⟩
abbrev main_c_9 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_10 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_11 : Ref sig .tc := ⟨.hbm, 137, rfl⟩
abbrev main_v84 : Ref sig .tc := ⟨.hbm, 138, rfl⟩
abbrev main_cst_12 : Ref sig .tc := ⟨.hbm, 139, rfl⟩
abbrev main_v85 : Ref sig .tc := ⟨.hbm, 140, rfl⟩
abbrev main_v86 : Ref sig .tc := ⟨.hbm, 141, rfl⟩
abbrev main_c_13 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_cst_0 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_call2_v5 : Ref sig .tc := ⟨.hbm, 150, rfl⟩
abbrev main_call2_v6 : Ref sig .tc := ⟨.hbm, 151, rfl⟩
abbrev main_call2_v7 : Ref sig .tc := ⟨.hbm, 152, rfl⟩
abbrev main_call2_cst_1 : Ref sig .tc := ⟨.hbm, 153, rfl⟩
abbrev main_call2_v8 : Ref sig .tc := ⟨.hbm, 154, rfl⟩
abbrev main_call2_cst_2 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_call2_cst_3 : Ref sig .tc := ⟨.hbm, 159, rfl⟩
abbrev main_call2_v12 : Ref sig .tc := ⟨.hbm, 160, rfl⟩
abbrev main_call2_cst_4 : Ref sig .tc := ⟨.hbm, 161, rfl⟩
abbrev main_call2_call0_v0 : Ref sig .tc := ⟨.hbm, 162, rfl⟩
abbrev main_call2_call0_v1 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_cst_14 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_call3_cst : Ref sig .tc := ⟨.hbm, 181, rfl⟩
abbrev main_call3_v0 : Ref sig .tc := ⟨.hbm, 182, rfl⟩
abbrev main_v103 : Ref sig .tc := ⟨.hbm, 183, rfl⟩
abbrev main_v104 : Ref sig .tc := ⟨.hbm, 184, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  reducesTo_S640000x128_S128_d0 : S640000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S640000x128 : S_.BroadcastsInDim S640000x128 (![] : Fin 0 → Fin S640000x128.rank)
  bcast_S_S50000x128 : S_.BroadcastsInDim S50000x128 (![] : Fin 0 → Fin S50000x128.rank)
  reducesTo_S50000x128_S128_d0 : S50000x128.ReducesTo [0] S128
  dot_S50000x128_S128x128_S50000x128_1_0_0_1_n_n_wf : DotDims.WF S50000x128 S128x128 S50000x128 [1] [0] [0] [1] [] []
  dot_S640000x128_S128x128_S640000x128_1_0_0_1_n_n_wf : DotDims.WF S640000x128 S128x128 S640000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.K.Region0.lean ====
/- Region 0 of @main at any float instance and any entry contents `V`. -/
import proofs.«408522_j36180804502137_3_alg».proof.Proof.Gen.Kernel.Launch
import proofs.«408522_j36180804502137_3_alg».proof.Proof.Gen.Kernel.Skeleton
import proofs.«408522_j36180804502137_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0
abbrev r0_3 : Rect S2000x256 := Rect.unit (s := S2000x256) ![0, 0] S2000x256.size inb_S2000x256_S2000x256_0_0

noncomputable def out0_3 (x0 : Vec F S2000x128 .f32) (x1 : Vec F S128x512 .f32) (x2 : Vec F S1x512 .f32) : Vec F S2000x128 .f32 :=
  View.canon [⟨r0_0, k0_pay2 (View.ld x0 r0_0) (View.ld x1 r0_1) (View.ld x2 r0_2)⟩]

noncomputable def out0_4 (x0 : Vec F S2000x128 .f32) (x1 : Vec F S128x512 .f32) (x2 : Vec F S1x512 .f32) : Vec F S2000x256 .f32 :=
  View.canon [⟨r0_3, k0_pay3 (View.ld x0 r0_0) (View.ld x1 r0_1) (View.ld x2 r0_2)⟩]

noncomputable def out0_5 (x0 : Vec F S2000x128 .f32) (x1 : Vec F S128x512 .f32) (x2 : Vec F S1x512 .f32) : Vec F S2000x128 .f32 :=
  View.canon [⟨r0_0, k0_pay4 (View.ld x0 r0_0) (View.ld x1 r0_1) (View.ld x2 r0_2)⟩]

set_option maxHeartbeats 1000000 in
/-- The body's triple: the inputs unchanged, each output at `out0_W` of the inputs. -/
theorem sound_kernel0 (c : Dev nD) (E : Set ℕ) (i : grid0.Coords) {arg1 arg4 arg6 : Memref sig .tc .vmem S2000x128 .f32} {arg2 : Memref sig .tc .vmem S128x512 .f32} {arg3 : Memref sig .tc .vmem S1x512 .f32} {arg5 : Memref sig .tc .vmem S2000x256 .f32}
    {harg1 : arg1.IsWhole} {harg2 : arg2.IsWhole} {harg3 : arg3.IsWhole} {harg4 : arg4.IsWhole} {harg5 : arg5.IsWhole} {harg6 : arg6.IsWhole}
    (x0 : Vec F S2000x128 .f32) (x1 : Vec F S128x512 .f32) (x2 : Vec F S1x512 .f32) (K : PUnit → sProp 𝕄) :
    iprop(owns c arg1 fullShare x0 ∗ owns c arg2 fullShare x1 ∗ owns c arg3 fullShare x2 ∗ (∃ d, owns c arg4 fullShare d) ∗ (∃ d, owns c arg5 fullShare d) ∗ (∃ d, owns c arg6 fullShare d)
        ∗ (iprop(owns c arg1 fullShare x0 ∗ owns c arg2 fullShare x1 ∗ owns c arg3 fullShare x2 ∗ owns c arg4 fullShare (out0_3 x0 x1 x2) ∗ owns c arg5 fullShare (out0_4 x0 x1 x2) ∗ owns c arg6 fullShare (out0_5 x0 x1 x2)) -∗ K ⟨⟩))
      ⊢ wp frame (wpE (defs₀ (F := F)) Variants.none c none) E (cc0_node_lin_kernel i arg1 harg1 arg2 harg2 arg3 harg3 arg4 harg4 arg5 harg5 arg6 harg6) K := by
  simp only [cc0_node_lin_kernel_eq_skeleton]; unfold cc0_node_lin_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists _; iframe H3; ipureintro; exact View.read_writes_eq_canon _ _ _ (View.cover_of_tiled _ S2000x128.size (by rfl))
  isplitl [H4]; · iexists _; iframe H4; ipureintro; exact View.read_writes_eq_canon _ _ _ (View.cover_of_tiled _ S2000x256.size (by rfl))
  iexists _; iframe H5; ipureintro; exact View.read_writes_eq_canon _ _ _ (View.cover_of_tiled _ S2000x128.size (by rfl))

/-- The region's data: each output block is `out0_W` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨?_, ?_, ?_⟩ <;> exact fun d => ((dat0 V c).before_in_eq_fetched _ rfl (fun _ => rfl) (fun _ _ _ => rfl) (fun _ => rfl) t d).trans
    (by unfold Dat.fetched Dat.blockOf iblk0; rfl)

theorem after0 (c : Dev nD) (t : Fin cfg0.N) :
    (dat0 V c).after 0 t = iblk0 V c 0 t ∧ (dat0 V c).after 1 t = iblk0 V c 1 t ∧ (dat0 V c).after 2 t = iblk0 V c 2 t := ⟨rfl, rfl, rfl⟩

/-- At every point the body, handed the input blocks, returns them with the outputs at `out0_W` of them. -/
theorem body_obligation0 (c : Dev nD) : BodyObligation (dat0 (F := F) V c) (defs₀ (F := F)) Variants.none () Set.univ := fun t => by
  obtain ⟨h0, h1, h2⟩ := before0 V c t
  obtain ⟨a0, a1, a2⟩ := after0 V c t
  have hi : ∀ w i, cfg0.idle w i = false := fun _ _ => rfl
  rw [bigSep_W0, bigSep_W0]
  sl_whnfR [defs₀, Defs.onTc]
  simp only [h0, h1, h2, hi, a0, a1, a2, after0_3, after0_4, after0_5]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) (iblk0 V c 0 t) (iblk0 V c 1 t) (iblk0 V c 2 t))
  iframe H0 H1 H2
  isplitl [H3]; · iexists _; iexact H3
  isplitl [H4]; · iexists _; iexact H4
  isplitl [H5]; · iexists _; iexact H5
  iintro HQ
  iframe HΦ Ho HQ

end Cert.Kernel.Hand
end
-- ==== Proof.K.Region1.lean ====
/- Region 1 of @main at any float instance and any entry contents `V`. -/
import proofs.«408522_j36180804502137_3_alg».proof.Proof.Gen.Kernel.Launch
import proofs.«408522_j36180804502137_3_alg».proof.Proof.Gen.Kernel.Skeleton
import proofs.«408522_j36180804502137_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S8x128 := Rect.unit (s := S8x128) ![0, 0] S1x128.size inb_S8x128_S1x128_0_0
abbrev r1_4 : Rect S8x128 := Rect.unit (s := S8x128) ![1, 0] S1x128.size inb_S8x128_S1x128_1_0
abbrev r1_5 : Rect S8x128 := Rect.unit (s := S8x128) ![2, 0] S6x128.size inb_S8x128_S6x128_2_0

noncomputable def out1_5 (x0 : Vec F S4000x128 .f32) (x1 : Vec F S128x128 .f32) (x2 : Vec F S1x128 .f32) (x3 x4 : Vec F S4000x128 .f32) : Vec F S4000x128 .f32 :=
  View.canon [⟨r1_0, k1_pay1 (View.ld x0 r1_0) (View.ld x1 r1_1) (View.ld x4 r1_0) (View.ld x2 r1_2) (View.ld x3 r1_0)⟩]

noncomputable def out1_6 (x0 : Vec F S4000x128 .f32) (x1 : Vec F S128x128 .f32) (x2 : Vec F S1x128 .f32) (x3 x4 : Vec F S4000x128 .f32) : Vec F S8x128 .f32 :=
  View.canon [⟨r1_5, k1_pay4 (F := F)⟩,
    ⟨r1_4, k1_pay3 (View.ld x0 r1_0) (View.ld x1 r1_1) (View.ld x4 r1_0) (View.ld x2 r1_2) (View.ld x3 r1_0)⟩,
    ⟨r1_3, k1_pay2 (View.ld x0 r1_0) (View.ld x1 r1_1) (View.ld x4 r1_0) (View.ld x2 r1_2) (View.ld x3 r1_0)⟩]

theorem cover1_6 (p0 : Vec F S6x128 .f32) (p1 : Vec F S1x128 .f32) (p2 : Vec F S1x128 .f32) (y : S8x128.Idx) :
    ∃ pc ∈ ([⟨r1_5, p0⟩, ⟨r1_4, p1⟩, ⟨r1_3, p2⟩] : List (View.Piece (Elt F) S8x128 .f32)), y ∈ pc.1.set :=
  View.cover_of_tiledBy [⟨r1_5, p0⟩, ⟨r1_4, p1⟩, ⟨r1_3, p2⟩] ![1, 128] (by sl_kernel_rfl) y

set_option maxHeartbeats 1000000 in
/-- The body's triple: the inputs unchanged, each output at `out1_W` of the inputs. -/
theorem sound_kernel1 (c : Dev nD) (E : Set ℕ) (i : grid1.Coords) {arg1 arg4 arg5 arg6 : Memref sig .tc .vmem S4000x128 .f32} {arg2 : Memref sig .tc .vmem S128x128 .f32} {arg3 : Memref sig .tc .vmem S1x128 .f32} {arg7 : Memref sig .tc .vmem S8x128 .f32}
    {harg1 : arg1.IsWhole} {harg2 : arg2.IsWhole} {harg3 : arg3.IsWhole} {harg4 : arg4.IsWhole} {harg5 : arg5.IsWhole} {harg6 : arg6.IsWhole} {harg7 : arg7.IsWhole}
    (x0 : Vec F S4000x128 .f32) (x1 : Vec F S128x128 .f32) (x2 : Vec F S1x128 .f32) (x3 x4 : Vec F S4000x128 .f32) (K : PUnit → sProp 𝕄) :
    iprop(owns c arg1 fullShare x0 ∗ owns c arg2 fullShare x1 ∗ owns c arg3 fullShare x2 ∗ owns c arg4 fullShare x3 ∗ owns c arg5 fullShare x4 ∗ (∃ d, owns c arg6 fullShare d) ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare (out1_5 x0 x1 x2 x3 x4) ∗ owns c arg7 fullShare (out1_6 x0 x1 x2 x3 x4)) -∗ K ⟨⟩))
      ⊢ wp frame (wpE (defs₀ (F := F)) Variants.none c none) E (cc1_edge_stage1_kernel i arg1 harg1 arg2 harg2 arg3 harg3 arg4 harg4 arg5 harg5 arg6 harg6 arg7 harg7) K := by
  simp only [cc1_edge_stage1_kernel_eq_skeleton]; unfold cc1_edge_stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists _; iframe H5; ipureintro; exact View.read_writes_eq_canon _ _ _ (View.cover_of_tiled _ S4000x128.size (by rfl))
  iexists _; iframe H6; ipureintro; exact View.read_writes_eq_canon _ _ _ (cover1_6 _ _ _)

/-- The region's data: each output block is `out1_W` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) := by
  refine ⟨?_, ?_, ?_, ?_, ?_⟩ <;> exact fun d => ((dat1 V c).before_in_eq_fetched _ rfl (fun _ => rfl) (fun _ _ _ => rfl) (fun _ => rfl) t d).trans
    (by unfold Dat.fetched Dat.blockOf iblk1; rfl)

theorem after1 (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t := ⟨rfl, rfl, rfl, rfl, rfl⟩

/-- At every point the body, handed the input blocks, returns them with the outputs at `out1_W` of them. -/
theorem body_obligation1 (c : Dev nD) : BodyObligation (dat1 (F := F) V c) (defs₀ (F := F)) Variants.none () Set.univ := fun t => by
  obtain ⟨h0, h1, h2, h3, h4⟩ := before1 V c t
  obtain ⟨a0, a1, a2, a3, a4⟩ := after1 V c t
  have hi : ∀ w i, cfg1.idle w i = false := fun _ _ => rfl
  rw [bigSep_W1, bigSep_W1]
  sl_whnfR [defs₀, Defs.onTc]
  simp only [h0, h1, h2, h3, h4, hi, a0, a1, a2, a3, a4, after1_5, after1_6]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) (iblk1 V c 0 t) (iblk1 V c 1 t) (iblk1 V c 2 t) (iblk1 V c 3 t) (iblk1 V c 4 t))
  iframe H0 H1 H2 H3 H4
  isplitl [H5]; · iexists _; iexact H5
  isplitl [H6]; · iexists _; iexact H6
  iintro HQ
  iframe HΦ Ho HQ

end Cert.Kernel.Hand
end
-- ==== Proof.K.Region2.lean ====
/- Region 2 of @main at any float instance and any entry contents `V`. -/
import proofs.«408522_j36180804502137_3_alg».proof.Proof.Gen.Kernel.Launch
import proofs.«408522_j36180804502137_3_alg».proof.Proof.Gen.Kernel.Skeleton
import proofs.«408522_j36180804502137_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x128 := Rect.unit (s := S4000x128) ![0, 0] S4000x128.size inb_S4000x128_S4000x128_0_0
abbrev r2_1 : Rect S1x128 := Rect.unit (s := S1x128) ![0, 0] S1x128.size inb_S1x128_S1x128_0_0

noncomputable def out2_7 (x0 x1 : Vec F S4000x128 .f32) (x2 x3 x4 x5 : Vec F S1x128 .f32) (x6 : Vec F S4000x128 .f32) : Vec F S4000x128 .f32 :=
  View.canon [⟨r2_0, k2_pay1 (View.ld x1 r2_0) (View.ld x3 r2_1) (View.ld x4 r2_1) (View.ld x2 r2_1) (View.ld x5 r2_1) (View.ld x0 r2_0)⟩]

noncomputable def out2_8 (x0 x1 : Vec F S4000x128 .f32) (x2 x3 x4 x5 : Vec F S1x128 .f32) (x6 : Vec F S4000x128 .f32) : Vec F S4000x128 .f32 :=
  View.canon [⟨r2_0, k2_pay2 (View.ld x1 r2_0) (View.ld x3 r2_1) (View.ld x4 r2_1) (View.ld x2 r2_1) (View.ld x5 r2_1) (View.ld x0 r2_0) (View.ld x6 r2_0)⟩]

set_option maxHeartbeats 1000000 in
/-- The body's triple: the inputs unchanged, each output at `out2_W` of the inputs. -/
theorem sound_kernel2 (c : Dev nD) (E : Set ℕ) (i : grid2.Coords) {arg1 arg2 arg7 arg8 arg9 : Memref sig .tc .vmem S4000x128 .f32} {arg3 arg4 arg5 arg6 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (x0 x1 : Vec F S4000x128 .f32) (x2 x3 x4 x5 : Vec F S1x128 .f32) (x6 : Vec F S4000x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ (∃ d, owns c arg8 fullShare d) ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare (out2_7 x0 x1 x2 x3 x4 x5 x6) ∗ owns c arg9 fullShare (out2_8 x0 x1 x2 x3 x4 x5 x6)) -∗ K ⟨⟩))
      ⊢ wp frame (wpE (defs₀ (F := F)) Variants.none c none) E (cc2_edge_stage2_kernel i arg1 harg1 arg2 harg2 arg3 harg3 arg4 harg4 arg5 harg5 arg6 harg6 arg7 harg7 arg8 harg8 arg9 harg9) K := by
  simp only [cc2_edge_stage2_kernel_eq_skeleton]; unfold cc2_edge_stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists _; iframe H7; ipureintro; exact View.read_writes_eq_canon _ _ _ (View.cover_of_tiled _ S4000x128.size (by rfl))
  iexists _; iframe H8; ipureintro; exact View.read_writes_eq_canon _ _ _ (View.cover_of_tiled _ S4000x128.size (by rfl))

/-- The region's data: each output block is `out2_W` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) := by
  refine ⟨?_, ?_, ?_, ?_, ?_, ?_, ?_⟩ <;> exact fun d => ((dat2 V c).before_in_eq_fetched _ rfl (fun _ => rfl) (fun _ _ _ => rfl) (fun _ => rfl) t d).trans
    (by unfold Dat.fetched Dat.blockOf iblk2; rfl)

theorem after2 (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t := ⟨rfl, rfl, rfl, rfl, rfl, rfl, rfl⟩

/-- At every point the body, handed the input blocks, returns them with the outputs at `out2_W` of them. -/
theorem body_obligation2 (c : Dev nD) : BodyObligation (dat2 (F := F) V c) (defs₀ (F := F)) Variants.none () Set.univ := fun t => by
  obtain ⟨h0, h1, h2, h3, h4, h5, h6⟩ := before2 V c t
  obtain ⟨a0, a1, a2, a3, a4, a5, a6⟩ := after2 V c t
  have hi : ∀ w i, cfg2.idle w i = false := fun _ _ => rfl
  rw [bigSep_W2, bigSep_W2]
  sl_whnfR [defs₀, Defs.onTc]
  simp only [h0, h1, h2, h3, h4, h5, h6, hi, a0, a1, a2, a3, a4, a5, a6, after2_7, after2_8]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) (iblk2 V c 0 t) (iblk2 V c 1 t) (iblk2 V c 2 t) (iblk2 V c 3 t) (iblk2 V c 4 t) (iblk2 V c 5 t) (iblk2 V c 6 t))
  iframe H0 H1 H2 H3 H4 H5 H6
  isplitl [H7]; · iexists _; iexact H7
  isplitl [H8]; · iexists _; iexact H8
  iintro HQ
  iframe HΦ Ho HQ

end Cert.Kernel.Hand
end
-- ==== Proof.K.Region3.lean ====
/- Region 3 of @main at any float instance and any entry contents `V`. -/
import proofs.«408522_j36180804502137_3_alg».proof.Proof.Gen.Kernel.Launch
import proofs.«408522_j36180804502137_3_alg».proof.Proof.Gen.Kernel.Skeleton
import proofs.«408522_j36180804502137_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S8x128 := Rect.unit (s := S8x128) ![0, 0] S1x128.size inb_S8x128_S1x128_0_0
abbrev r3_2 : Rect S8x128 := Rect.unit (s := S8x128) ![1, 0] S1x128.size inb_S8x128_S1x128_1_0
abbrev r3_3 : Rect S8x128 := Rect.unit (s := S8x128) ![2, 0] S6x128.size inb_S8x128_S6x128_2_0

noncomputable def out3_2 (x0 x1 : Vec F S2000x128 .f32) : Vec F S2000x128 .f32 :=
  View.canon [⟨r3_0, k3_pay1 (View.ld x0 r3_0) (View.ld x1 r3_0)⟩]

noncomputable def out3_3 (x0 x1 : Vec F S2000x128 .f32) : Vec F S8x128 .f32 :=
  View.canon [⟨r3_3, k3_pay4 (F := F)⟩,
    ⟨r3_2, k3_pay3 (View.ld x0 r3_0) (View.ld x1 r3_0)⟩,
    ⟨r3_1, k3_pay2 (View.ld x0 r3_0) (View.ld x1 r3_0)⟩]

theorem cover3_3 (p0 : Vec F S6x128 .f32) (p1 : Vec F S1x128 .f32) (p2 : Vec F S1x128 .f32) (y : S8x128.Idx) :
    ∃ pc ∈ ([⟨r3_3, p0⟩, ⟨r3_2, p1⟩, ⟨r3_1, p2⟩] : List (View.Piece (Elt F) S8x128 .f32)), y ∈ pc.1.set :=
  View.cover_of_tiledBy [⟨r3_3, p0⟩, ⟨r3_2, p1⟩, ⟨r3_1, p2⟩] S1x128.size (by sl_kernel_rfl) y

set_option maxHeartbeats 1000000 in
/-- The body's triple: the inputs unchanged, each output at `out3_W` of the inputs. -/
theorem sound_kernel3 (c : Dev nD) (E : Set ℕ) (i : grid3.Coords) {arg1 arg2 arg3 : Memref sig .tc .vmem S2000x128 .f32} {arg4 : Memref sig .tc .vmem S8x128 .f32}
    {harg1 : arg1.IsWhole} {harg2 : arg2.IsWhole} {harg3 : arg3.IsWhole} {harg4 : arg4.IsWhole}
    (x0 x1 : Vec F S2000x128 .f32) (K : PUnit → sProp 𝕄) :
    iprop(owns c arg1 fullShare x0 ∗ owns c arg2 fullShare x1 ∗ (∃ d, owns c arg3 fullShare d) ∗ (∃ d, owns c arg4 fullShare d)
        ∗ (iprop(owns c arg1 fullShare x0 ∗ owns c arg2 fullShare x1 ∗ owns c arg3 fullShare (out3_2 x0 x1) ∗ owns c arg4 fullShare (out3_3 x0 x1)) -∗ K ⟨⟩))
      ⊢ wp frame (wpE (defs₀ (F := F)) Variants.none c none) E (cc3_node_stage1_kernel i arg1 harg1 arg2 harg2 arg3 harg3 arg4 harg4) K := by
  simp only [cc3_node_stage1_kernel_eq_skeleton]; unfold cc3_node_stage1_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]; · iexists f0; iframe H0; ipureintro; rfl
  isplitl [H1]; · iexists f1; iframe H1; ipureintro; rfl
  isplitl [H2]; · iexists _; iframe H2; ipureintro; exact View.read_writes_eq_canon _ _ _ (View.cover_of_tiled _ S2000x128.size (by rfl))
  iexists _; iframe H3; ipureintro; exact View.read_writes_eq_canon _ _ _ (cover3_3 _ _ _)

/-- The region's data: each output block is `out3_W` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3 (c : Dev nD) (t : Fin cfg3.N) :
    (∀ d, (dat3 V c).before 0 t d = iblk3 V c 0 t) ∧ (∀ d, (dat3 V c).before 1 t d = iblk3 V c 1 t) := by
  refine ⟨?_, ?_⟩ <;> exact fun d => ((dat3 V c).before_in_eq_fetched _ rfl (fun _ => rfl) (fun _ _ _ => rfl) (fun _ => rfl) t d).trans
    (by unfold Dat.fetched Dat.blockOf iblk3; rfl)

theorem after3 (c : Dev nD) (t : Fin cfg3.N) :
    (dat3 V c).after 0 t = iblk3 V c 0 t ∧ (dat3 V c).after 1 t = iblk3 V c 1 t := ⟨rfl, rfl⟩

/-- At every point the body, handed the input blocks, returns them with the outputs at `out3_W` of them. -/
theorem body_obligation3 (c : Dev nD) : BodyObligation (dat3 (F := F) V c) (defs₀ (F := F)) Variants.none () Set.univ := fun t => by
  obtain ⟨h0, h1⟩ := before3 V c t
  obtain ⟨a0, a1⟩ := after3 V c t
  have hi : ∀ w i, cfg3.idle w i = false := fun _ _ => rfl
  rw [bigSep_W3, bigSep_W3]
  sl_whnfR [defs₀, Defs.onTc]
  simp only [h0, h1, hi, a0, a1, after3_2, after3_3]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  iapply (sound_kernel3 c Set.univ (grid3.coords t) (iblk3 V c 0 t) (iblk3 V c 1 t))
  iframe H0 H1
  isplitl [H2]; · iexists _; iexact H2
  isplitl [H3]; · iexists _; iexact H3
  iintro HQ
  iframe HΦ Ho HQ

end Cert.Kernel.Hand
end
-- ==== Proof.K.Region4.lean ====
/- Region 4 of @main at any float instance and any entry contents `V`. -/
import proofs.«408522_j36180804502137_3_alg».proof.Proof.Gen.Kernel.Launch
import proofs.«408522_j36180804502137_3_alg».proof.Proof.Gen.Kernel.Skeleton
import proofs.«408522_j36180804502137_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0

noncomputable def out4_6 (x0 : Vec F S2000x128 .f32) (x1 x2 x3 x4 : Vec F S1x128 .f32) (x5 : Vec F S2000x128 .f32) : Vec F S2000x128 .f32 :=
  View.canon [⟨r4_0, k4_pay1 (View.ld x0 r4_0) (View.ld x2 r4_1) (View.ld x3 r4_1) (View.ld x1 r4_1) (View.ld x4 r4_1) (View.ld x5 r4_0)⟩]

set_option maxHeartbeats 1000000 in
/-- The body's triple: the inputs unchanged, each output at `out4_W` of the inputs. -/
theorem sound_kernel4 (c : Dev nD) (E : Set ℕ) (i : grid4.Coords) {arg1 arg6 arg7 : Memref sig .tc .vmem S2000x128 .f32} {arg2 arg3 arg4 arg5 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole}
    (x0 : Vec F S2000x128 .f32) (x1 x2 x3 x4 : Vec F S1x128 .f32) (x5 : Vec F S2000x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out4_6 x0 x1 x2 x3 x4 x5)) -∗ K ⟨⟩))
      ⊢ wp frame (wpE (defs₀ (F := F)) Variants.none c none) E (cc4_node_stage2_kernel i arg1 harg1 arg2 harg2 arg3 harg3 arg4 harg4 arg5 harg5 arg6 harg6 arg7 harg7) K := by
  simp only [cc4_node_stage2_kernel_eq_skeleton]; unfold cc4_node_stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro; exact View.read_writes_eq_canon _ _ _ (View.cover_of_tiled _ S2000x128.size (by rfl))

/-- The region's data: each output block is `out4_W` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) ∧ (∀ d, (dat4 V c).before 4 t d = iblk4 V c 4 t) ∧ (∀ d, (dat4 V c).before 5 t d = iblk4 V c 5 t) := by
  refine ⟨?_, ?_, ?_, ?_, ?_, ?_⟩ <;> exact fun d => ((dat4 V c).before_in_eq_fetched _ rfl (fun _ => rfl) (fun _ _ _ => rfl) (fun _ => rfl) t d).trans
    (by unfold Dat.fetched Dat.blockOf iblk4; rfl)

theorem after4 (c : Dev nD) (t : Fin cfg4.N) :
    (dat4 V c).after 0 t = iblk4 V c 0 t ∧ (dat4 V c).after 1 t = iblk4 V c 1 t ∧ (dat4 V c).after 2 t = iblk4 V c 2 t ∧ (dat4 V c).after 3 t = iblk4 V c 3 t ∧ (dat4 V c).after 4 t = iblk4 V c 4 t ∧ (dat4 V c).after 5 t = iblk4 V c 5 t := ⟨rfl, rfl, rfl, rfl, rfl, rfl⟩

/-- At every point the body, handed the input blocks, returns them with the outputs at `out4_W` of them. -/
theorem body_obligation4 (c : Dev nD) : BodyObligation (dat4 (F := F) V c) (defs₀ (F := F)) Variants.none () Set.univ := fun t => by
  obtain ⟨h0, h1, h2, h3, h4, h5⟩ := before4 V c t
  obtain ⟨a0, a1, a2, a3, a4, a5⟩ := after4 V c t
  have hi : ∀ w i, cfg4.idle w i = false := fun _ _ => rfl
  rw [bigSep_W4, bigSep_W4]
  sl_whnfR [defs₀, Defs.onTc]
  simp only [h0, h1, h2, h3, h4, h5, hi, a0, a1, a2, a3, a4, a5, after4_6]
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) (iblk4 V c 0 t) (iblk4 V c 1 t) (iblk4 V c 2 t) (iblk4 V c 3 t) (iblk4 V c 4 t) (iblk4 V c 5 t))
  iframe H0 H1 H2 H3 H4 H5
  isplitl [H6]; · iexists _; iexact H6
  iintro HQ
  iframe HΦ Ho HQ

end Cert.Kernel.Hand
end
-- ==== Proof.K.Run.lean ====
/- The program's run, segment by segment, with every unscoped buffer of a core known at each boundary (W0 … W12). -/
import proofs.«408522_j36180804502137_3_alg».proof.Proof.Gen.Kernel.Regions
import proofs.«408522_j36180804502137_3_alg».proof.Proof.K.Region0
import proofs.«408522_j36180804502137_3_alg».proof.Proof.K.Region1
import proofs.«408522_j36180804502137_3_alg».proof.Proof.K.Region2
import proofs.«408522_j36180804502137_3_alg».proof.Proof.K.Region3
import proofs.«408522_j36180804502137_3_alg».proof.Proof.K.Region4
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section Boundaries

variable (c : Dev nD) (r : Ref sig .tc)

/-- A region's exit keeps a buffer that is none of its output arrays: only those change. -/
theorem keep_region {cfg : Pipeline.Cfg sig Λ₀} (dat : Dat τ (Elt F) Unit ℕ (UR sig nD τ) ℕ cfg c)
    (hinj : Function.Injective (Pipeline.arrRef cfg.spec)) (V : Valuation τ sig (Elt F))
    (hA : ∀ w, dat.A w = V (Pipeline.arrRef cfg.spec w)) (outs : List (Ref sig .tc))
    (ho : ∀ w, (cfg.win w).isOut = true → Pipeline.arrRef cfg.spec w ∈ outs) (h : r ∉ outs) :
    Pipeline.withArrays cfg.spec c V (dat.arrAt · cfg.N) r = V r := by
  by_cases hw : ∃ w, Pipeline.arrRef cfg.spec w = r
  · obtain ⟨w, rfl⟩ := hw
    rw [Pipeline.withArrays_arr cfg.spec hinj]
    cases hio : (cfg.win w).isOut
    · exact (dat.arrAt_in w hio _).trans (hA w)
    · exact absurd (ho w hio) h
  · exact Pipeline.withArrays_of_ne cfg.spec c V _ r fun w e => hw ⟨w, e⟩

abbrev W0 : Dev nD → Valuation τ sig (Elt F) := fun c b => m (c, b)
abbrev W1 : Valuation τ sig (Elt F) := StableHlo.after hostOps0 (W0 m c)
theorem W1_keep (h : r ∉ hostOps0_W) : W1 m c r = W0 m c r := StableHlo.after_of_writes_sub hostOps0 _ hostOps0_writes h
abbrev V1 : (c : Dev nD) → (b : Ref sig .tc) → Buf (Elt F) ((c : Thread nD τ).loc b) := fun c b => W1 m c b
def W2 : Valuation τ sig (Elt F) := Pipeline.withArrays spec0 c (W1 m c) fun w => (dat0 (V1 m) c).arrAt w cfg0.N
theorem W2_arr (w : Fin cfg0.W) : W2 m c (Pipeline.arrRef spec0 w) = (dat0 (V1 m) c).arrAt w cfg0.N :=
  Pipeline.withArrays_arr spec0 launch0.win.arr_inj c _ _ w
theorem W2_keep (h : r ∉ ([main_v11_0, main_v11_1, main_v11_2] : List (Ref sig .tc))) : W2 m c r = W1 m c r :=
  keep_region c r (dat0 (V1 m) c) launch0.win.arr_inj _ (A_eq0 (V1 m) c) _ (by decide) h
abbrev W3 : Valuation τ sig (Elt F) := StableHlo.after hostOps1 (W2 m c)
theorem W3_keep (h : r ∉ hostOps1_W) : W3 m c r = W2 m c r := StableHlo.after_of_writes_sub hostOps1 _ hostOps1_writes h
abbrev W4 : Valuation τ sig (Elt F) := StableHlo.after hostOps1_1 (W3 m c)
theorem W4_keep (h : r ∉ hostOps1_1_W) : W4 m c r = W3 m c r := StableHlo.after_of_writes_sub hostOps1_1 _ hostOps1_1_writes h
abbrev W5 : Valuation τ sig (Elt F) := StableHlo.after hostOps1_2 (W4 m c)
theorem W5_keep (h : r ∉ hostOps1_2_W) : W5 m c r = W4 m c r := StableHlo.after_of_writes_sub hostOps1_2 _ hostOps1_2_writes h
abbrev V5 : (c : Dev nD) → (b : Ref sig .tc) → Buf (Elt F) ((c : Thread nD τ).loc b) := fun c b => W5 m c b
def W6 : Valuation τ sig (Elt F) := Pipeline.withArrays spec1 c (W5 m c) fun w => (dat1 (V5 m) c).arrAt w cfg1.N
theorem W6_arr (w : Fin cfg1.W) : W6 m c (Pipeline.arrRef spec1 w) = (dat1 (V5 m) c).arrAt w cfg1.N :=
  Pipeline.withArrays_arr spec1 launch1.win.arr_inj c _ _ w
theorem W6_keep (h : r ∉ ([main_v16_0, main_v16_1] : List (Ref sig .tc))) : W6 m c r = W5 m c r :=
  keep_region c r (dat1 (V5 m) c) launch1.win.arr_inj _ (A_eq1 (V5 m) c) _ (by decide) h
abbrev W7 : Valuation τ sig (Elt F) := StableHlo.after hostOps2 (W6 m c)
theorem W7_keep (h : r ∉ hostOps2_W) : W7 m c r = W6 m c r := StableHlo.after_of_writes_sub hostOps2 _ hostOps2_writes h
abbrev V7 : (c : Dev nD) → (b : Ref sig .tc) → Buf (Elt F) ((c : Thread nD τ).loc b) := fun c b => W7 m c b
def W8 : Valuation τ sig (Elt F) := Pipeline.withArrays spec2 c (W7 m c) fun w => (dat2 (V7 m) c).arrAt w cfg2.N
theorem W8_arr (w : Fin cfg2.W) : W8 m c (Pipeline.arrRef spec2 w) = (dat2 (V7 m) c).arrAt w cfg2.N :=
  Pipeline.withArrays_arr spec2 launch2.win.arr_inj c _ _ w
theorem W8_keep (h : r ∉ ([main_v36_0, main_v36_1] : List (Ref sig .tc))) : W8 m c r = W7 m c r :=
  keep_region c r (dat2 (V7 m) c) launch2.win.arr_inj _ (A_eq2 (V7 m) c) _ (by decide) h
abbrev W9 : Valuation τ sig (Elt F) := StableHlo.after hostOps3 (W8 m c)
theorem W9_keep (h : r ∉ hostOps3_W) : W9 m c r = W8 m c r := StableHlo.after_of_writes_sub hostOps3 _ hostOps3_writes h
abbrev V9 : (c : Dev nD) → (b : Ref sig .tc) → Buf (Elt F) ((c : Thread nD τ).loc b) := fun c b => W9 m c b
def W10 : Valuation τ sig (Elt F) := Pipeline.withArrays spec3 c (W9 m c) fun w => (dat3 (V9 m) c).arrAt w cfg3.N
theorem W10_arr (w : Fin cfg3.W) : W10 m c (Pipeline.arrRef spec3 w) = (dat3 (V9 m) c).arrAt w cfg3.N :=
  Pipeline.withArrays_arr spec3 launch3.win.arr_inj c _ _ w
theorem W10_keep (h : r ∉ ([main_v40_0, main_v40_1] : List (Ref sig .tc))) : W10 m c r = W9 m c r :=
  keep_region c r (dat3 (V9 m) c) launch3.win.arr_inj _ (A_eq3 (V9 m) c) _ (by decide) h
abbrev W11 : Valuation τ sig (Elt F) := StableHlo.after hostOps4 (W10 m c)
theorem W11_keep (h : r ∉ hostOps4_W) : W11 m c r = W10 m c r := StableHlo.after_of_writes_sub hostOps4 _ hostOps4_writes h
abbrev V11 : (c : Dev nD) → (b : Ref sig .tc) → Buf (Elt F) ((c : Thread nD τ).loc b) := fun c b => W11 m c b
def W12 : Valuation τ sig (Elt F) := Pipeline.withArrays spec4 c (W11 m c) fun w => (dat4 (V11 m) c).arrAt w cfg4.N
theorem W12_arr (w : Fin cfg4.W) : W12 m c (Pipeline.arrRef spec4 w) = (dat4 (V11 m) c).arrAt w cfg4.N :=
  Pipeline.withArrays_arr spec4 launch4.win.arr_inj c _ _ w
theorem W12_keep (h : r ∉ ([main_v60] : List (Ref sig .tc))) : W12 m c r = W11 m c r :=
  keep_region c r (dat4 (V11 m) c) launch4.win.arr_inj _ (A_eq4 (V11 m) c) _ (by decide) h

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16]

/-- No segment writes an argument: it ends as launched. -/
theorem W12_arg {r : Ref sig .tc} (hr : r ∈ mainArgs := by decide) : W12 m c r = m ((c : Thread nD τ).loc r) :=
  have k (l : List (Ref sig .tc)) (h : ∀ a ∈ mainArgs, a ∉ l := by decide) : r ∉ l := h r hr
  (W12_keep m c r (k _)).trans <| (W11_keep m c r (k _)).trans <| (W10_keep m c r (k _)).trans <| (W9_keep m c r (k _)).trans <|
  (W8_keep m c r (k _)).trans <| (W7_keep m c r (k _)).trans <| (W6_keep m c r (k _)).trans <| (W5_keep m c r (k _)).trans <|
  (W4_keep m c r (k _)).trans <| (W3_keep m c r (k _)).trans <| (W2_keep m c r (k _)).trans <| W1_keep m c r (k _)

/-- The second result is region 2's first output array, not written after region 2. -/
theorem W12_main_v36_0 : W12 m c main_v36_0 = (dat2 (V7 m) c).arrAt 7 cfg2.N :=
  (W12_keep m c _ (by decide)).trans <| (W11_keep m c _ (by decide)).trans <| (W10_keep m c _ (by decide)).trans <|
  (W9_keep m c _ (by decide)).trans (W8_arr m c 7)
theorem W12_main_v60 : W12 m c main_v60 = (dat4 (V11 m) c).arrAt 6 cfg4.N := W12_arr m c 6

end Boundaries

/-- Every region's data, at its region's entry contents. -/
def pdats : (p : Fin 5) → (c : Dev nD) → Dat τ (Elt F) Unit ℕ (UR sig nD τ) ℕ (Pipeline.pin (pcfgs (F := F)) adm p) c
  | ⟨0, _⟩ => dat0 (V1 m)
  | ⟨1, _⟩ => dat1 (V5 m)
  | ⟨2, _⟩ => dat2 (V7 m)
  | ⟨3, _⟩ => dat3 (V9 m)
  | ⟨4, _⟩ => dat4 (V11 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m c) ∗ ∃ r, prngReg c r)

variable (p : Fin 5) (la : Pipeline.LaunchFacts (nD := nD) (τ := τ) cfgs p) (Wi : Dev nD → Valuation τ sig (Elt F))

/-- What region p leaves from the contents Wi: its arrays at their exit contents, every other buffer as entered. -/
abbrev Wx (c : Dev nD) : Valuation τ sig (Elt F) :=
  Pipeline.withArrays (cfgs p).spec c (Wi c) ((pdats m p c).arrAt · (cfgs p).N)

set_option backward.isDefEq.respectTransparency.types false in
/-- Region p as a segment from the contents Wi to the contents Wx. -/
def mkReg (hb : ∀ c, BodyObligation (pdats m p c) (defs₀ (F := F)) 𝒱₀ () Set.univ)
    (hA : ∀ c w, (pdats m p c).A w = Wi c (Pipeline.arrRef (cfgs p).spec w) := by intros; rfl)
    (hq : ∀ c w, (pdats m p c).q w = fullShare := by intros; rfl)
    (hΦ : ∀ c t, (pdats m p c).Φ t = Pipeline.ΦA (cfgs p).spec c := by intros; rfl)
    (hz : ∀ c t, (pdats m p c).owed t = 0 := by intros; rfl)
    (hr : ∀ c t, (pdats m p c).recorded t = Set.univ := by intros; rfl) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wx m p Wi c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m) la.win la.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [hz c, hr c]
      icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c)) (fun b => Wi c b) (fun b => Wx m p Wi c b)
      ((pdats m p c).arrAt · (cfgs p).N) (fun w => (Pipeline.withArrays_arr (cfgs p).spec la.win.arr_inj c (Wi c) ((pdats m p c).arrAt · (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hz c]
    icases HO with ⟨%W, -, HO⟩; iexists W; iexact HO

/-- @main as twelve segments: a host segment per stretch from its boundary's contents, a segment per kernel region. -/
abbrev segs : List (Pipeline.Seg (pcfgs (F := F)) adm (pdats m) () defs₀ 𝒱₀ L lv) :=
  [ .host (hseg hostOps0 hostOps0_sub hostOps0_fresh (W0 m)),
    .region (mkReg m 0 launch0 (W1 m) (body_obligation0 (V1 m))),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (mkReg m 1 launch1 (W5 m) (body_obligation1 (V5 m))),
    .host (hseg hostOps2 hostOps2_sub hostOps2_fresh (W6 m)),
    .region (mkReg m 2 launch2 (W7 m) (body_obligation2 (V7 m))),
    .host (hseg hostOps3 hostOps3_sub hostOps3_fresh (W8 m)),
    .region (mkReg m 3 launch3 (W9 m) (body_obligation3 (V9 m))),
    .host (hseg hostOps4 hostOps4_sub hostOps4_fresh (W10 m)),
    .region (mkReg m 4 launch4 (W11 m) (body_obligation4 (V11 m))) ]
theorem main_run (c : Dev nD) : main (F := F) c = Pipeline.Seg.run (segs m) := (main_chain c).trans (by chain_rfl)

set_option backward.isDefEq.respectTransparency.types false in
/-- From zero counters every weakly fair execution of @main terminates without fault, the final memory holding W12. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- Every argument array ends as launched. -/
theorem frame (ρ : Dev nD → PrngReg) : θ_run defs (onTc (τ := τ) (main (F := F))) ⟨m, fun _ => 0, ρ⟩ (fun r => ∀ c : Dev nD,
      ∀ a ∈ mainArgs, r.2.mem ((c.tc : Thread nD τ).loc a) = m ((c.tc : Thread nD τ).loc a)) :=
  (θ_run defs _ _).mono (fun r h c a ha => (h c _ (mem_uc a
    ((by decide : ∀ a ∈ mainArgs, ¬ (Proc.devRef .tc a : DevRef τ sig).isScoped) a ha))).trans (W12_arg m c ha)) (run m ρ)

end Cert.Kernel.Hand

end
-- ==== Proof.KI.Region0.lean ====
/- Region 0 of @main at any float instance and any entry contents `V`. -/
import proofs.«408522_j36180804502137_3_alg».proof.Proof.Gen.KernelIdeal.Launch
import proofs.«408522_j36180804502137_3_alg».proof.Proof.Gen.KernelIdeal.Skeleton
import proofs.«408522_j36180804502137_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0
abbrev r0_3 : Rect S2000x256 := Rect.unit (s := S2000x256) ![0, 0] S2000x256.size inb_S2000x256_S2000x256_0_0

noncomputable def out0_3 (x0 : Vec F S2000x128 .f32) (x1 : Vec F S128x512 .f32) (x2 : Vec F S1x512 .f32) : Vec F S2000x128 .f32 :=
  View.canon [⟨r0_0, k0_pay2 (View.ld x0 r0_0) (View.ld x1 r0_1) (View.ld x2 r0_2)⟩]

noncomputable def out0_4 (x0 : Vec F S2000x128 .f32) (x1 : Vec F S128x512 .f32) (x2 : Vec F S1x512 .f32) : Vec F S2000x256 .f32 :=
  View.canon [⟨r0_3, k0_pay3 (View.ld x0 r0_0) (View.ld x1 r0_1) (View.ld x2 r0_2)⟩]

noncomputable def out0_5 (x0 : Vec F S2000x128 .f32) (x1 : Vec F S128x512 .f32) (x2 : Vec F S1x512 .f32) : Vec F S2000x128 .f32 :=
  View.canon [⟨r0_0, k0_pay4 (View.ld x0 r0_0) (View.ld x1 r0_1) (View.ld x2 r0_2)⟩]

set_option maxHeartbeats 1000000 in
/-- The body's triple: the inputs unchanged, each output at `out0_W` of the inputs. -/
theorem sound_kernel0 (c : Dev nD) (E : Set ℕ) (i : grid0.Coords) {arg1 arg4 arg6 : Memref sig .tc .vmem S2000x128 .f32} {arg2 : Memref sig .tc .vmem S128x512 .f32} {arg3 : Memref sig .tc .vmem S1x512 .f32} {arg5 : Memref sig .tc .vmem S2000x256 .f32}
    {harg1 : arg1.IsWhole} {harg2 : arg2.IsWhole} {harg3 : arg3.IsWhole} {harg4 : arg4.IsWhole} {harg5 : arg5.IsWhole} {harg6 : arg6.IsWhole}
    (x0 : Vec F S2000x128 .f32) (x1 : Vec F S128x512 .f32) (x2 : Vec F S1x512 .f32) (K : PUnit → sProp 𝕄) :
    iprop(owns c arg1 fullShare x0 ∗ owns c arg2 fullShare x1 ∗ owns c arg3 fullShare x2 ∗ (∃ d, owns c arg4 fullShare d) ∗ (∃ d, owns c arg5 fullShare d) ∗ (∃ d, owns c arg6 fullShare d)
        ∗ (iprop(owns c arg1 fullShare x0 ∗ owns c arg2 fullShare x1 ∗ owns c arg3 fullShare x2 ∗ owns c arg4 fullShare (out0_3 x0 x1 x2) ∗ owns c arg5 fullShare (out0_4 x0 x1 x2) ∗ owns c arg6 fullShare (out0_5 x0 x1 x2)) -∗ K ⟨⟩))
      ⊢ wp frame (wpE (defs₀ (F := F)) Variants.none c none) E (cc0_node_lin_kernel i arg1 harg1 arg2 harg2 arg3 harg3 arg4 harg4 arg5 harg5 arg6 harg6) K := by
  simp only [cc0_node_lin_kernel_eq_skeleton]; unfold cc0_node_lin_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists _; iframe H3; ipureintro; exact View.read_writes_eq_canon _ _ _ (View.cover_of_tiled _ S2000x128.size (by rfl))
  isplitl [H4]; · iexists _; iframe H4; ipureintro; exact View.read_writes_eq_canon _ _ _ (View.cover_of_tiled _ S2000x256.size (by rfl))
  iexists _; iframe H5; ipureintro; exact View.read_writes_eq_canon _ _ _ (View.cover_of_tiled _ S2000x128.size (by rfl))

/-- The region's data: each output block is `out0_W` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨?_, ?_, ?_⟩ <;> exact fun d => ((dat0 V c).before_in_eq_fetched _ rfl (fun _ => rfl) (fun _ _ _ => rfl) (fun _ => rfl) t d).trans
    (by unfold Dat.fetched Dat.blockOf iblk0; rfl)

theorem after0 (c : Dev nD) (t : Fin cfg0.N) :
    (dat0 V c).after 0 t = iblk0 V c 0 t ∧ (dat0 V c).after 1 t = iblk0 V c 1 t ∧ (dat0 V c).after 2 t = iblk0 V c 2 t := ⟨rfl, rfl, rfl⟩

/-- At every point the body, handed the input blocks, returns them with the outputs at `out0_W` of them. -/
theorem body_obligation0 (c : Dev nD) : BodyObligation (dat0 (F := F) V c) (defs₀ (F := F)) Variants.none () Set.univ := fun t => by
  obtain ⟨h0, h1, h2⟩ := before0 V c t
  obtain ⟨a0, a1, a2⟩ := after0 V c t
  have hi : ∀ w i, cfg0.idle w i = false := fun _ _ => rfl
  rw [bigSep_W0, bigSep_W0]
  sl_whnfR [defs₀, Defs.onTc]
  simp only [h0, h1, h2, hi, a0, a1, a2, after0_3, after0_4, after0_5]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) (iblk0 V c 0 t) (iblk0 V c 1 t) (iblk0 V c 2 t))
  iframe H0 H1 H2
  isplitl [H3]; · iexists _; iexact H3
  isplitl [H4]; · iexists _; iexact H4
  isplitl [H5]; · iexists _; iexact H5
  iintro HQ
  iframe HΦ Ho HQ

end Cert.KernelIdeal.Hand
end
-- ==== Proof.KI.Region1.lean ====
/- Region 1 of @main at any float instance and any entry contents `V`. -/
import proofs.«408522_j36180804502137_3_alg».proof.Proof.Gen.KernelIdeal.Launch
import proofs.«408522_j36180804502137_3_alg».proof.Proof.Gen.KernelIdeal.Skeleton
import proofs.«408522_j36180804502137_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S8x128 := Rect.unit (s := S8x128) ![0, 0] S1x128.size inb_S8x128_S1x128_0_0
abbrev r1_4 : Rect S8x128 := Rect.unit (s := S8x128) ![1, 0] S1x128.size inb_S8x128_S1x128_1_0
abbrev r1_5 : Rect S8x128 := Rect.unit (s := S8x128) ![2, 0] S6x128.size inb_S8x128_S6x128_2_0

noncomputable def out1_5 (x0 : Vec F S4000x128 .f32) (x1 : Vec F S128x128 .f32) (x2 : Vec F S1x128 .f32) (x3 x4 : Vec F S4000x128 .f32) : Vec F S4000x128 .f32 :=
  View.canon [⟨r1_0, k1_pay1 (View.ld x0 r1_0) (View.ld x1 r1_1) (View.ld x4 r1_0) (View.ld x2 r1_2) (View.ld x3 r1_0)⟩]

noncomputable def out1_6 (x0 : Vec F S4000x128 .f32) (x1 : Vec F S128x128 .f32) (x2 : Vec F S1x128 .f32) (x3 x4 : Vec F S4000x128 .f32) : Vec F S8x128 .f32 :=
  View.canon [⟨r1_5, k1_pay4 (F := F)⟩,
    ⟨r1_4, k1_pay3 (View.ld x0 r1_0) (View.ld x1 r1_1) (View.ld x4 r1_0) (View.ld x2 r1_2) (View.ld x3 r1_0)⟩,
    ⟨r1_3, k1_pay2 (View.ld x0 r1_0) (View.ld x1 r1_1) (View.ld x4 r1_0) (View.ld x2 r1_2) (View.ld x3 r1_0)⟩]

theorem cover1_6 (p0 : Vec F S6x128 .f32) (p1 : Vec F S1x128 .f32) (p2 : Vec F S1x128 .f32) (y : S8x128.Idx) :
    ∃ pc ∈ ([⟨r1_5, p0⟩, ⟨r1_4, p1⟩, ⟨r1_3, p2⟩] : List (View.Piece (Elt F) S8x128 .f32)), y ∈ pc.1.set :=
  View.cover_of_tiledBy [⟨r1_5, p0⟩, ⟨r1_4, p1⟩, ⟨r1_3, p2⟩] ![1, 128] (by sl_kernel_rfl) y

set_option maxHeartbeats 1000000 in
/-- The body's triple: the inputs unchanged, each output at `out1_W` of the inputs. -/
theorem sound_kernel1 (c : Dev nD) (E : Set ℕ) (i : grid1.Coords) {arg1 arg4 arg5 arg6 : Memref sig .tc .vmem S4000x128 .f32} {arg2 : Memref sig .tc .vmem S128x128 .f32} {arg3 : Memref sig .tc .vmem S1x128 .f32} {arg7 : Memref sig .tc .vmem S8x128 .f32}
    {harg1 : arg1.IsWhole} {harg2 : arg2.IsWhole} {harg3 : arg3.IsWhole} {harg4 : arg4.IsWhole} {harg5 : arg5.IsWhole} {harg6 : arg6.IsWhole} {harg7 : arg7.IsWhole}
    (x0 : Vec F S4000x128 .f32) (x1 : Vec F S128x128 .f32) (x2 : Vec F S1x128 .f32) (x3 x4 : Vec F S4000x128 .f32) (K : PUnit → sProp 𝕄) :
    iprop(owns c arg1 fullShare x0 ∗ owns c arg2 fullShare x1 ∗ owns c arg3 fullShare x2 ∗ owns c arg4 fullShare x3 ∗ owns c arg5 fullShare x4 ∗ (∃ d, owns c arg6 fullShare d) ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare (out1_5 x0 x1 x2 x3 x4) ∗ owns c arg7 fullShare (out1_6 x0 x1 x2 x3 x4)) -∗ K ⟨⟩))
      ⊢ wp frame (wpE (defs₀ (F := F)) Variants.none c none) E (cc1_edge_stage1_kernel i arg1 harg1 arg2 harg2 arg3 harg3 arg4 harg4 arg5 harg5 arg6 harg6 arg7 harg7) K := by
  simp only [cc1_edge_stage1_kernel_eq_skeleton]; unfold cc1_edge_stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists _; iframe H5; ipureintro; exact View.read_writes_eq_canon _ _ _ (View.cover_of_tiled _ S4000x128.size (by rfl))
  iexists _; iframe H6; ipureintro; exact View.read_writes_eq_canon _ _ _ (cover1_6 _ _ _)

/-- The region's data: each output block is `out1_W` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) := by
  refine ⟨?_, ?_, ?_, ?_, ?_⟩ <;> exact fun d => ((dat1 V c).before_in_eq_fetched _ rfl (fun _ => rfl) (fun _ _ _ => rfl) (fun _ => rfl) t d).trans
    (by unfold Dat.fetched Dat.blockOf iblk1; rfl)

theorem after1 (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t := ⟨rfl, rfl, rfl, rfl, rfl⟩

/-- At every point the body, handed the input blocks, returns them with the outputs at `out1_W` of them. -/
theorem body_obligation1 (c : Dev nD) : BodyObligation (dat1 (F := F) V c) (defs₀ (F := F)) Variants.none () Set.univ := fun t => by
  obtain ⟨h0, h1, h2, h3, h4⟩ := before1 V c t
  obtain ⟨a0, a1, a2, a3, a4⟩ := after1 V c t
  have hi : ∀ w i, cfg1.idle w i = false := fun _ _ => rfl
  rw [bigSep_W1, bigSep_W1]
  sl_whnfR [defs₀, Defs.onTc]
  simp only [h0, h1, h2, h3, h4, hi, a0, a1, a2, a3, a4, after1_5, after1_6]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) (iblk1 V c 0 t) (iblk1 V c 1 t) (iblk1 V c 2 t) (iblk1 V c 3 t) (iblk1 V c 4 t))
  iframe H0 H1 H2 H3 H4
  isplitl [H5]; · iexists _; iexact H5
  isplitl [H6]; · iexists _; iexact H6
  iintro HQ
  iframe HΦ Ho HQ

end Cert.KernelIdeal.Hand
end
-- ==== Proof.KI.Region2.lean ====
/- Region 2 of @main at any float instance and any entry contents `V`. -/
import proofs.«408522_j36180804502137_3_alg».proof.Proof.Gen.KernelIdeal.Launch
import proofs.«408522_j36180804502137_3_alg».proof.Proof.Gen.KernelIdeal.Skeleton
import proofs.«408522_j36180804502137_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x128 := Rect.unit (s := S4000x128) ![0, 0] S4000x128.size inb_S4000x128_S4000x128_0_0
abbrev r2_1 : Rect S1x128 := Rect.unit (s := S1x128) ![0, 0] S1x128.size inb_S1x128_S1x128_0_0

noncomputable def out2_7 (x0 x1 : Vec F S4000x128 .f32) (x2 x3 x4 x5 : Vec F S1x128 .f32) (x6 : Vec F S4000x128 .f32) : Vec F S4000x128 .f32 :=
  View.canon [⟨r2_0, k2_pay1 (View.ld x1 r2_0) (View.ld x3 r2_1) (View.ld x4 r2_1) (View.ld x2 r2_1) (View.ld x5 r2_1) (View.ld x0 r2_0)⟩]

noncomputable def out2_8 (x0 x1 : Vec F S4000x128 .f32) (x2 x3 x4 x5 : Vec F S1x128 .f32) (x6 : Vec F S4000x128 .f32) : Vec F S4000x128 .f32 :=
  View.canon [⟨r2_0, k2_pay2 (View.ld x1 r2_0) (View.ld x3 r2_1) (View.ld x4 r2_1) (View.ld x2 r2_1) (View.ld x5 r2_1) (View.ld x0 r2_0) (View.ld x6 r2_0)⟩]

set_option maxHeartbeats 1000000 in
/-- The body's triple: the inputs unchanged, each output at `out2_W` of the inputs. -/
theorem sound_kernel2 (c : Dev nD) (E : Set ℕ) (i : grid2.Coords) {arg1 arg2 arg7 arg8 arg9 : Memref sig .tc .vmem S4000x128 .f32} {arg3 arg4 arg5 arg6 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (x0 x1 : Vec F S4000x128 .f32) (x2 x3 x4 x5 : Vec F S1x128 .f32) (x6 : Vec F S4000x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ (∃ d, owns c arg8 fullShare d) ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare (out2_7 x0 x1 x2 x3 x4 x5 x6) ∗ owns c arg9 fullShare (out2_8 x0 x1 x2 x3 x4 x5 x6)) -∗ K ⟨⟩))
      ⊢ wp frame (wpE (defs₀ (F := F)) Variants.none c none) E (cc2_edge_stage2_kernel i arg1 harg1 arg2 harg2 arg3 harg3 arg4 harg4 arg5 harg5 arg6 harg6 arg7 harg7 arg8 harg8 arg9 harg9) K := by
  simp only [cc2_edge_stage2_kernel_eq_skeleton]; unfold cc2_edge_stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists _; iframe H7; ipureintro; exact View.read_writes_eq_canon _ _ _ (View.cover_of_tiled _ S4000x128.size (by rfl))
  iexists _; iframe H8; ipureintro; exact View.read_writes_eq_canon _ _ _ (View.cover_of_tiled _ S4000x128.size (by rfl))

/-- The region's data: each output block is `out2_W` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) := by
  refine ⟨?_, ?_, ?_, ?_, ?_, ?_, ?_⟩ <;> exact fun d => ((dat2 V c).before_in_eq_fetched _ rfl (fun _ => rfl) (fun _ _ _ => rfl) (fun _ => rfl) t d).trans
    (by unfold Dat.fetched Dat.blockOf iblk2; rfl)

theorem after2 (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t := ⟨rfl, rfl, rfl, rfl, rfl, rfl, rfl⟩

/-- At every point the body, handed the input blocks, returns them with the outputs at `out2_W` of them. -/
theorem body_obligation2 (c : Dev nD) : BodyObligation (dat2 (F := F) V c) (defs₀ (F := F)) Variants.none () Set.univ := fun t => by
  obtain ⟨h0, h1, h2, h3, h4, h5, h6⟩ := before2 V c t
  obtain ⟨a0, a1, a2, a3, a4, a5, a6⟩ := after2 V c t
  have hi : ∀ w i, cfg2.idle w i = false := fun _ _ => rfl
  rw [bigSep_W2, bigSep_W2]
  sl_whnfR [defs₀, Defs.onTc]
  simp only [h0, h1, h2, h3, h4, h5, h6, hi, a0, a1, a2, a3, a4, a5, a6, after2_7, after2_8]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) (iblk2 V c 0 t) (iblk2 V c 1 t) (iblk2 V c 2 t) (iblk2 V c 3 t) (iblk2 V c 4 t) (iblk2 V c 5 t) (iblk2 V c 6 t))
  iframe H0 H1 H2 H3 H4 H5 H6
  isplitl [H7]; · iexists _; iexact H7
  isplitl [H8]; · iexists _; iexact H8
  iintro HQ
  iframe HΦ Ho HQ

end Cert.KernelIdeal.Hand
end
-- ==== Proof.KI.Region3.lean ====
/- Region 3 of @main at any float instance and any entry contents `V`. -/
import proofs.«408522_j36180804502137_3_alg».proof.Proof.Gen.KernelIdeal.Launch
import proofs.«408522_j36180804502137_3_alg».proof.Proof.Gen.KernelIdeal.Skeleton
import proofs.«408522_j36180804502137_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S8x128 := Rect.unit (s := S8x128) ![0, 0] S1x128.size inb_S8x128_S1x128_0_0
abbrev r3_2 : Rect S8x128 := Rect.unit (s := S8x128) ![1, 0] S1x128.size inb_S8x128_S1x128_1_0
abbrev r3_3 : Rect S8x128 := Rect.unit (s := S8x128) ![2, 0] S6x128.size inb_S8x128_S6x128_2_0

noncomputable def out3_2 (x0 x1 : Vec F S2000x128 .f32) : Vec F S2000x128 .f32 :=
  View.canon [⟨r3_0, k3_pay1 (View.ld x0 r3_0) (View.ld x1 r3_0)⟩]

noncomputable def out3_3 (x0 x1 : Vec F S2000x128 .f32) : Vec F S8x128 .f32 :=
  View.canon [⟨r3_3, k3_pay4 (F := F)⟩,
    ⟨r3_2, k3_pay3 (View.ld x0 r3_0) (View.ld x1 r3_0)⟩,
    ⟨r3_1, k3_pay2 (View.ld x0 r3_0) (View.ld x1 r3_0)⟩]

theorem cover3_3 (p0 : Vec F S6x128 .f32) (p1 : Vec F S1x128 .f32) (p2 : Vec F S1x128 .f32) (y : S8x128.Idx) :
    ∃ pc ∈ ([⟨r3_3, p0⟩, ⟨r3_2, p1⟩, ⟨r3_1, p2⟩] : List (View.Piece (Elt F) S8x128 .f32)), y ∈ pc.1.set :=
  View.cover_of_tiledBy [⟨r3_3, p0⟩, ⟨r3_2, p1⟩, ⟨r3_1, p2⟩] S1x128.size (by sl_kernel_rfl) y

set_option maxHeartbeats 1000000 in
/-- The body's triple: the inputs unchanged, each output at `out3_W` of the inputs. -/
theorem sound_kernel3 (c : Dev nD) (E : Set ℕ) (i : grid3.Coords) {arg1 arg2 arg3 : Memref sig .tc .vmem S2000x128 .f32} {arg4 : Memref sig .tc .vmem S8x128 .f32}
    {harg1 : arg1.IsWhole} {harg2 : arg2.IsWhole} {harg3 : arg3.IsWhole} {harg4 : arg4.IsWhole}
    (x0 x1 : Vec F S2000x128 .f32) (K : PUnit → sProp 𝕄) :
    iprop(owns c arg1 fullShare x0 ∗ owns c arg2 fullShare x1 ∗ (∃ d, owns c arg3 fullShare d) ∗ (∃ d, owns c arg4 fullShare d)
        ∗ (iprop(owns c arg1 fullShare x0 ∗ owns c arg2 fullShare x1 ∗ owns c arg3 fullShare (out3_2 x0 x1) ∗ owns c arg4 fullShare (out3_3 x0 x1)) -∗ K ⟨⟩))
      ⊢ wp frame (wpE (defs₀ (F := F)) Variants.none c none) E (cc3_node_stage1_kernel i arg1 harg1 arg2 harg2 arg3 harg3 arg4 harg4) K := by
  simp only [cc3_node_stage1_kernel_eq_skeleton]; unfold cc3_node_stage1_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]; · iexists f0; iframe H0; ipureintro; rfl
  isplitl [H1]; · iexists f1; iframe H1; ipureintro; rfl
  isplitl [H2]; · iexists _; iframe H2; ipureintro; exact View.read_writes_eq_canon _ _ _ (View.cover_of_tiled _ S2000x128.size (by rfl))
  iexists _; iframe H3; ipureintro; exact View.read_writes_eq_canon _ _ _ (cover3_3 _ _ _)

/-- The region's data: each output block is `out3_W` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3 (c : Dev nD) (t : Fin cfg3.N) :
    (∀ d, (dat3 V c).before 0 t d = iblk3 V c 0 t) ∧ (∀ d, (dat3 V c).before 1 t d = iblk3 V c 1 t) := by
  refine ⟨?_, ?_⟩ <;> exact fun d => ((dat3 V c).before_in_eq_fetched _ rfl (fun _ => rfl) (fun _ _ _ => rfl) (fun _ => rfl) t d).trans
    (by unfold Dat.fetched Dat.blockOf iblk3; rfl)

theorem after3 (c : Dev nD) (t : Fin cfg3.N) :
    (dat3 V c).after 0 t = iblk3 V c 0 t ∧ (dat3 V c).after 1 t = iblk3 V c 1 t := ⟨rfl, rfl⟩

/-- At every point the body, handed the input blocks, returns them with the outputs at `out3_W` of them. -/
theorem body_obligation3 (c : Dev nD) : BodyObligation (dat3 (F := F) V c) (defs₀ (F := F)) Variants.none () Set.univ := fun t => by
  obtain ⟨h0, h1⟩ := before3 V c t
  obtain ⟨a0, a1⟩ := after3 V c t
  have hi : ∀ w i, cfg3.idle w i = false := fun _ _ => rfl
  rw [bigSep_W3, bigSep_W3]
  sl_whnfR [defs₀, Defs.onTc]
  simp only [h0, h1, hi, a0, a1, after3_2, after3_3]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  iapply (sound_kernel3 c Set.univ (grid3.coords t) (iblk3 V c 0 t) (iblk3 V c 1 t))
  iframe H0 H1
  isplitl [H2]; · iexists _; iexact H2
  isplitl [H3]; · iexists _; iexact H3
  iintro HQ
  iframe HΦ Ho HQ

end Cert.KernelIdeal.Hand
end
-- ==== Proof.KI.Region4.lean ====
/- Region 4 of @main at any float instance and any entry contents `V`. -/
import proofs.«408522_j36180804502137_3_alg».proof.Proof.Gen.KernelIdeal.Launch
import proofs.«408522_j36180804502137_3_alg».proof.Proof.Gen.KernelIdeal.Skeleton
import proofs.«408522_j36180804502137_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0

noncomputable def out4_6 (x0 : Vec F S2000x128 .f32) (x1 x2 x3 x4 : Vec F S1x128 .f32) (x5 : Vec F S2000x128 .f32) : Vec F S2000x128 .f32 :=
  View.canon [⟨r4_0, k4_pay1 (View.ld x0 r4_0) (View.ld x2 r4_1) (View.ld x3 r4_1) (View.ld x1 r4_1) (View.ld x4 r4_1) (View.ld x5 r4_0)⟩]

set_option maxHeartbeats 1000000 in
/-- The body's triple: the inputs unchanged, each output at `out4_W` of the inputs. -/
theorem sound_kernel4 (c : Dev nD) (E : Set ℕ) (i : grid4.Coords) {arg1 arg6 arg7 : Memref sig .tc .vmem S2000x128 .f32} {arg2 arg3 arg4 arg5 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole}
    (x0 : Vec F S2000x128 .f32) (x1 x2 x3 x4 : Vec F S1x128 .f32) (x5 : Vec F S2000x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out4_6 x0 x1 x2 x3 x4 x5)) -∗ K ⟨⟩))
      ⊢ wp frame (wpE (defs₀ (F := F)) Variants.none c none) E (cc4_node_stage2_kernel i arg1 harg1 arg2 harg2 arg3 harg3 arg4 harg4 arg5 harg5 arg6 harg6 arg7 harg7) K := by
  simp only [cc4_node_stage2_kernel_eq_skeleton]; unfold cc4_node_stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro; exact View.read_writes_eq_canon _ _ _ (View.cover_of_tiled _ S2000x128.size (by rfl))

/-- The region's data: each output block is `out4_W` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) ∧ (∀ d, (dat4 V c).before 4 t d = iblk4 V c 4 t) ∧ (∀ d, (dat4 V c).before 5 t d = iblk4 V c 5 t) := by
  refine ⟨?_, ?_, ?_, ?_, ?_, ?_⟩ <;> exact fun d => ((dat4 V c).before_in_eq_fetched _ rfl (fun _ => rfl) (fun _ _ _ => rfl) (fun _ => rfl) t d).trans
    (by unfold Dat.fetched Dat.blockOf iblk4; rfl)

theorem after4 (c : Dev nD) (t : Fin cfg4.N) :
    (dat4 V c).after 0 t = iblk4 V c 0 t ∧ (dat4 V c).after 1 t = iblk4 V c 1 t ∧ (dat4 V c).after 2 t = iblk4 V c 2 t ∧ (dat4 V c).after 3 t = iblk4 V c 3 t ∧ (dat4 V c).after 4 t = iblk4 V c 4 t ∧ (dat4 V c).after 5 t = iblk4 V c 5 t := ⟨rfl, rfl, rfl, rfl, rfl, rfl⟩

/-- At every point the body, handed the input blocks, returns them with the outputs at `out4_W` of them. -/
theorem body_obligation4 (c : Dev nD) : BodyObligation (dat4 (F := F) V c) (defs₀ (F := F)) Variants.none () Set.univ := fun t => by
  obtain ⟨h0, h1, h2, h3, h4, h5⟩ := before4 V c t
  obtain ⟨a0, a1, a2, a3, a4, a5⟩ := after4 V c t
  have hi : ∀ w i, cfg4.idle w i = false := fun _ _ => rfl
  rw [bigSep_W4, bigSep_W4]
  sl_whnfR [defs₀, Defs.onTc]
  simp only [h0, h1, h2, h3, h4, h5, hi, a0, a1, a2, a3, a4, a5, after4_6]
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) (iblk4 V c 0 t) (iblk4 V c 1 t) (iblk4 V c 2 t) (iblk4 V c 3 t) (iblk4 V c 4 t) (iblk4 V c 5 t))
  iframe H0 H1 H2 H3 H4 H5
  isplitl [H6]; · iexists _; iexact H6
  iintro HQ
  iframe HΦ Ho HQ

end Cert.KernelIdeal.Hand
end
-- ==== Proof.KI.Run.lean ====
/- The program's run, segment by segment, with every unscoped buffer of a core known at each boundary (W0 … W12). -/
import proofs.«408522_j36180804502137_3_alg».proof.Proof.Gen.KernelIdeal.Regions
import proofs.«408522_j36180804502137_3_alg».proof.Proof.KI.Region0
import proofs.«408522_j36180804502137_3_alg».proof.Proof.KI.Region1
import proofs.«408522_j36180804502137_3_alg».proof.Proof.KI.Region2
import proofs.«408522_j36180804502137_3_alg».proof.Proof.KI.Region3
import proofs.«408522_j36180804502137_3_alg».proof.Proof.KI.Region4
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section Boundaries

variable (c : Dev nD) (r : Ref sig .tc)

/-- A region's exit keeps a buffer that is none of its output arrays: only those change. -/
theorem keep_region {cfg : Pipeline.Cfg sig Λ₀} (dat : Dat τ (Elt F) Unit ℕ (UR sig nD τ) ℕ cfg c)
    (hinj : Function.Injective (Pipeline.arrRef cfg.spec)) (V : Valuation τ sig (Elt F))
    (hA : ∀ w, dat.A w = V (Pipeline.arrRef cfg.spec w)) (outs : List (Ref sig .tc))
    (ho : ∀ w, (cfg.win w).isOut = true → Pipeline.arrRef cfg.spec w ∈ outs) (h : r ∉ outs) :
    Pipeline.withArrays cfg.spec c V (dat.arrAt · cfg.N) r = V r := by
  by_cases hw : ∃ w, Pipeline.arrRef cfg.spec w = r
  · obtain ⟨w, rfl⟩ := hw
    rw [Pipeline.withArrays_arr cfg.spec hinj]
    cases hio : (cfg.win w).isOut
    · exact (dat.arrAt_in w hio _).trans (hA w)
    · exact absurd (ho w hio) h
  · exact Pipeline.withArrays_of_ne cfg.spec c V _ r fun w e => hw ⟨w, e⟩

abbrev W0 : Dev nD → Valuation τ sig (Elt F) := fun c b => m (c, b)
abbrev W1 : Valuation τ sig (Elt F) := StableHlo.after hostOps0 (W0 m c)
theorem W1_keep (h : r ∉ hostOps0_W) : W1 m c r = W0 m c r := StableHlo.after_of_writes_sub hostOps0 _ hostOps0_writes h
abbrev V1 : (c : Dev nD) → (b : Ref sig .tc) → Buf (Elt F) ((c : Thread nD τ).loc b) := fun c b => W1 m c b
def W2 : Valuation τ sig (Elt F) := Pipeline.withArrays spec0 c (W1 m c) fun w => (dat0 (V1 m) c).arrAt w cfg0.N
theorem W2_arr (w : Fin cfg0.W) : W2 m c (Pipeline.arrRef spec0 w) = (dat0 (V1 m) c).arrAt w cfg0.N :=
  Pipeline.withArrays_arr spec0 launch0.win.arr_inj c _ _ w
theorem W2_keep (h : r ∉ ([main_v11_0, main_v11_1, main_v11_2] : List (Ref sig .tc))) : W2 m c r = W1 m c r :=
  keep_region c r (dat0 (V1 m) c) launch0.win.arr_inj _ (A_eq0 (V1 m) c) _ (by decide) h
abbrev W3 : Valuation τ sig (Elt F) := StableHlo.after hostOps1 (W2 m c)
theorem W3_keep (h : r ∉ hostOps1_W) : W3 m c r = W2 m c r := StableHlo.after_of_writes_sub hostOps1 _ hostOps1_writes h
abbrev W4 : Valuation τ sig (Elt F) := StableHlo.after hostOps1_1 (W3 m c)
theorem W4_keep (h : r ∉ hostOps1_1_W) : W4 m c r = W3 m c r := StableHlo.after_of_writes_sub hostOps1_1 _ hostOps1_1_writes h
abbrev W5 : Valuation τ sig (Elt F) := StableHlo.after hostOps1_2 (W4 m c)
theorem W5_keep (h : r ∉ hostOps1_2_W) : W5 m c r = W4 m c r := StableHlo.after_of_writes_sub hostOps1_2 _ hostOps1_2_writes h
abbrev V5 : (c : Dev nD) → (b : Ref sig .tc) → Buf (Elt F) ((c : Thread nD τ).loc b) := fun c b => W5 m c b
def W6 : Valuation τ sig (Elt F) := Pipeline.withArrays spec1 c (W5 m c) fun w => (dat1 (V5 m) c).arrAt w cfg1.N
theorem W6_arr (w : Fin cfg1.W) : W6 m c (Pipeline.arrRef spec1 w) = (dat1 (V5 m) c).arrAt w cfg1.N :=
  Pipeline.withArrays_arr spec1 launch1.win.arr_inj c _ _ w
theorem W6_keep (h : r ∉ ([main_v16_0, main_v16_1] : List (Ref sig .tc))) : W6 m c r = W5 m c r :=
  keep_region c r (dat1 (V5 m) c) launch1.win.arr_inj _ (A_eq1 (V5 m) c) _ (by decide) h
abbrev W7 : Valuation τ sig (Elt F) := StableHlo.after hostOps2 (W6 m c)
theorem W7_keep (h : r ∉ hostOps2_W) : W7 m c r = W6 m c r := StableHlo.after_of_writes_sub hostOps2 _ hostOps2_writes h
abbrev V7 : (c : Dev nD) → (b : Ref sig .tc) → Buf (Elt F) ((c : Thread nD τ).loc b) := fun c b => W7 m c b
def W8 : Valuation τ sig (Elt F) := Pipeline.withArrays spec2 c (W7 m c) fun w => (dat2 (V7 m) c).arrAt w cfg2.N
theorem W8_arr (w : Fin cfg2.W) : W8 m c (Pipeline.arrRef spec2 w) = (dat2 (V7 m) c).arrAt w cfg2.N :=
  Pipeline.withArrays_arr spec2 launch2.win.arr_inj c _ _ w
theorem W8_keep (h : r ∉ ([main_v36_0, main_v36_1] : List (Ref sig .tc))) : W8 m c r = W7 m c r :=
  keep_region c r (dat2 (V7 m) c) launch2.win.arr_inj _ (A_eq2 (V7 m) c) _ (by decide) h
abbrev W9 : Valuation τ sig (Elt F) := StableHlo.after hostOps3 (W8 m c)
theorem W9_keep (h : r ∉ hostOps3_W) : W9 m c r = W8 m c r := StableHlo.after_of_writes_sub hostOps3 _ hostOps3_writes h
abbrev V9 : (c : Dev nD) → (b : Ref sig .tc) → Buf (Elt F) ((c : Thread nD τ).loc b) := fun c b => W9 m c b
def W10 : Valuation τ sig (Elt F) := Pipeline.withArrays spec3 c (W9 m c) fun w => (dat3 (V9 m) c).arrAt w cfg3.N
theorem W10_arr (w : Fin cfg3.W) : W10 m c (Pipeline.arrRef spec3 w) = (dat3 (V9 m) c).arrAt w cfg3.N :=
  Pipeline.withArrays_arr spec3 launch3.win.arr_inj c _ _ w
theorem W10_keep (h : r ∉ ([main_v40_0, main_v40_1] : List (Ref sig .tc))) : W10 m c r = W9 m c r :=
  keep_region c r (dat3 (V9 m) c) launch3.win.arr_inj _ (A_eq3 (V9 m) c) _ (by decide) h
abbrev W11 : Valuation τ sig (Elt F) := StableHlo.after hostOps4 (W10 m c)
theorem W11_keep (h : r ∉ hostOps4_W) : W11 m c r = W10 m c r := StableHlo.after_of_writes_sub hostOps4 _ hostOps4_writes h
abbrev V11 : (c : Dev nD) → (b : Ref sig .tc) → Buf (Elt F) ((c : Thread nD τ).loc b) := fun c b => W11 m c b
def W12 : Valuation τ sig (Elt F) := Pipeline.withArrays spec4 c (W11 m c) fun w => (dat4 (V11 m) c).arrAt w cfg4.N
theorem W12_arr (w : Fin cfg4.W) : W12 m c (Pipeline.arrRef spec4 w) = (dat4 (V11 m) c).arrAt w cfg4.N :=
  Pipeline.withArrays_arr spec4 launch4.win.arr_inj c _ _ w
theorem W12_keep (h : r ∉ ([main_v60] : List (Ref sig .tc))) : W12 m c r = W11 m c r :=
  keep_region c r (dat4 (V11 m) c) launch4.win.arr_inj _ (A_eq4 (V11 m) c) _ (by decide) h

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16]

/-- No segment writes an argument: it ends as launched. -/
theorem W12_arg {r : Ref sig .tc} (hr : r ∈ mainArgs := by decide) : W12 m c r = m ((c : Thread nD τ).loc r) :=
  have k (l : List (Ref sig .tc)) (h : ∀ a ∈ mainArgs, a ∉ l := by decide) : r ∉ l := h r hr
  (W12_keep m c r (k _)).trans <| (W11_keep m c r (k _)).trans <| (W10_keep m c r (k _)).trans <| (W9_keep m c r (k _)).trans <|
  (W8_keep m c r (k _)).trans <| (W7_keep m c r (k _)).trans <| (W6_keep m c r (k _)).trans <| (W5_keep m c r (k _)).trans <|
  (W4_keep m c r (k _)).trans <| (W3_keep m c r (k _)).trans <| (W2_keep m c r (k _)).trans <| W1_keep m c r (k _)

/-- The second result is region 2's first output array, not written after region 2. -/
theorem W12_main_v36_0 : W12 m c main_v36_0 = (dat2 (V7 m) c).arrAt 7 cfg2.N :=
  (W12_keep m c _ (by decide)).trans <| (W11_keep m c _ (by decide)).trans <| (W10_keep m c _ (by decide)).trans <|
  (W9_keep m c _ (by decide)).trans (W8_arr m c 7)
theorem W12_main_v60 : W12 m c main_v60 = (dat4 (V11 m) c).arrAt 6 cfg4.N := W12_arr m c 6

end Boundaries

/-- Every region's data, at its region's entry contents. -/
def pdats : (p : Fin 5) → (c : Dev nD) → Dat τ (Elt F) Unit ℕ (UR sig nD τ) ℕ (Pipeline.pin (pcfgs (F := F)) adm p) c
  | ⟨0, _⟩ => dat0 (V1 m)
  | ⟨1, _⟩ => dat1 (V5 m)
  | ⟨2, _⟩ => dat2 (V7 m)
  | ⟨3, _⟩ => dat3 (V9 m)
  | ⟨4, _⟩ => dat4 (V11 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m c) ∗ ∃ r, prngReg c r)

variable (p : Fin 5) (la : Pipeline.LaunchFacts (nD := nD) (τ := τ) cfgs p) (Wi : Dev nD → Valuation τ sig (Elt F))

/-- What region p leaves from the contents Wi: its arrays at their exit contents, every other buffer as entered. -/
abbrev Wx (c : Dev nD) : Valuation τ sig (Elt F) :=
  Pipeline.withArrays (cfgs p).spec c (Wi c) ((pdats m p c).arrAt · (cfgs p).N)

set_option backward.isDefEq.respectTransparency.types false in
/-- Region p as a segment from the contents Wi to the contents Wx. -/
def mkReg (hb : ∀ c, BodyObligation (pdats m p c) (defs₀ (F := F)) 𝒱₀ () Set.univ)
    (hA : ∀ c w, (pdats m p c).A w = Wi c (Pipeline.arrRef (cfgs p).spec w) := by intros; rfl)
    (hq : ∀ c w, (pdats m p c).q w = fullShare := by intros; rfl)
    (hΦ : ∀ c t, (pdats m p c).Φ t = Pipeline.ΦA (cfgs p).spec c := by intros; rfl)
    (hz : ∀ c t, (pdats m p c).owed t = 0 := by intros; rfl)
    (hr : ∀ c t, (pdats m p c).recorded t = Set.univ := by intros; rfl) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wx m p Wi c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m) la.win la.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [hz c, hr c]
      icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c)) (fun b => Wi c b) (fun b => Wx m p Wi c b)
      ((pdats m p c).arrAt · (cfgs p).N) (fun w => (Pipeline.withArrays_arr (cfgs p).spec la.win.arr_inj c (Wi c) ((pdats m p c).arrAt · (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hz c]
    icases HO with ⟨%W, -, HO⟩; iexists W; iexact HO

/-- @main as twelve segments: a host segment per stretch from its boundary's contents, a segment per kernel region. -/
abbrev segs : List (Pipeline.Seg (pcfgs (F := F)) adm (pdats m) () defs₀ 𝒱₀ L lv) :=
  [ .host (hseg hostOps0 hostOps0_sub hostOps0_fresh (W0 m)),
    .region (mkReg m 0 launch0 (W1 m) (body_obligation0 (V1 m))),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (mkReg m 1 launch1 (W5 m) (body_obligation1 (V5 m))),
    .host (hseg hostOps2 hostOps2_sub hostOps2_fresh (W6 m)),
    .region (mkReg m 2 launch2 (W7 m) (body_obligation2 (V7 m))),
    .host (hseg hostOps3 hostOps3_sub hostOps3_fresh (W8 m)),
    .region (mkReg m 3 launch3 (W9 m) (body_obligation3 (V9 m))),
    .host (hseg hostOps4 hostOps4_sub hostOps4_fresh (W10 m)),
    .region (mkReg m 4 launch4 (W11 m) (body_obligation4 (V11 m))) ]
theorem main_run (c : Dev nD) : main (F := F) c = Pipeline.Seg.run (segs m) := (main_chain c).trans (by chain_rfl)

set_option backward.isDefEq.respectTransparency.types false in
/-- From zero counters every weakly fair execution of @main terminates without fault, the final memory holding W12. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- Every argument array ends as launched. -/
theorem frame (ρ : Dev nD → PrngReg) : θ_run defs (onTc (τ := τ) (main (F := F))) ⟨m, fun _ => 0, ρ⟩ (fun r => ∀ c : Dev nD,
      ∀ a ∈ mainArgs, r.2.mem ((c.tc : Thread nD τ).loc a) = m ((c.tc : Thread nD τ).loc a)) :=
  (θ_run defs _ _).mono (fun r h c a ha => (h c _ (mem_uc a
    ((by decide : ∀ a ∈ mainArgs, ¬ (Proc.devRef .tc a : DevRef τ sig).isScoped) a ha))).trans (W12_arg m c ha)) (run m ρ)

end Cert.KernelIdeal.Hand

end
-- ==== Proof.Spec.lean ====
import Idealize.ShloMosaic.Lib.ValueIdx

noncomputable section

open scoped BigOperators

namespace GG

open Idealize.ShloMosaic Idealize.ShloMosaic.ValueIdx

def IsR2 {R C : ℕ} (A : (⟨2, ![R, C]⟩ : Shape).Idx → EReal) (a : Fin R → Fin C → ℝ) : Prop :=
  ∀ r j, A (ix2 r j) = ((a r j : ℝ) : EReal)

def IsR1 {C : ℕ} (A : (⟨1, ![C]⟩ : Shape).Idx → EReal) (a : Fin C → ℝ) : Prop :=
  ∀ j, A (ix1 j) = ((a j : ℝ) : EReal)

theorem IsR2.ext {R C : ℕ} {A B : (⟨2, ![R, C]⟩ : Shape).Idx → EReal} {a : Fin R → Fin C → ℝ}
    (hA : IsR2 A a) (hB : IsR2 B a) : A = B := by
  funext i
  obtain ⟨r, j, rfl⟩ : ∃ (r : Fin R) (j : Fin C), i = ix2 r j := ⟨i 0, i 1, eq_ix2 i⟩
  rw [hA, hB]

theorem IsR2.congr {R C : ℕ} {A : (⟨2, ![R, C]⟩ : Shape).Idx → EReal} {a b : Fin R → Fin C → ℝ}
    (hA : IsR2 A a) (h : a = b) : IsR2 A b := h ▸ hA

def lin {n : ℕ} (a : Fin n → Fin 128 → ℝ) (W : Fin 128 → Fin 128 → ℝ) (b : Fin 128 → ℝ) : Fin n → Fin 128 → ℝ :=
  fun r j => (∑ k, a r k * W j k) + b j

def rows {n e c : ℕ} (a : Fin n → Fin c → ℝ) (ix : Fin e → Fin n) : Fin e → Fin c → ℝ := fun r j => a (ix r) j

def edgeIn {n e : ℕ} (x : Fin n → Fin 128 → ℝ) (ea : Fin e → Fin 128 → ℝ) (WA : Fin 128 → Fin 128 → ℝ) (bA : Fin 128 → ℝ)
    (WB : Fin 128 → Fin 128 → ℝ) (bB : Fin 128 → ℝ) (WC : Fin 128 → Fin 128 → ℝ) (bC : Fin 128 → ℝ)
    (row col : Fin e → Fin n) : Fin e → Fin 128 → ℝ :=
  fun r j => (lin ea WA bA r j + lin x WB bB (row r) j) + lin x WC bC (col r) j

def mean {n : ℕ} (h : Fin n → Fin 128 → ℝ) : Fin 128 → ℝ := fun j => (∑ r, h r j) / (n : ℝ)

def var {n : ℕ} (h : Fin n → Fin 128 → ℝ) : Fin 128 → ℝ :=
  fun j => (∑ r, (h r j - mean h j) * (h r j - mean h j)) / (n : ℝ)

def varK {n : ℕ} (h : Fin n → Fin 128 → ℝ) : Fin 128 → ℝ :=
  fun j => max ((∑ r, h r j * h r j) / (n : ℝ) - mean h j * mean h j) 0

theorem var_nonneg {n : ℕ} (h : Fin n → Fin 128 → ℝ) (j : Fin 128) : 0 ≤ var h j :=
  div_nonneg (Finset.sum_nonneg fun _ _ => mul_self_nonneg _) (Nat.cast_nonneg n)

theorem varK_eq_var {n : ℕ} (hn : 0 < n) (h : Fin n → Fin 128 → ℝ) : varK h = var h := by
  funext j
  have hn' : (n : ℝ) ≠ 0 := Nat.cast_ne_zero.mpr hn.ne'
  have hs : ∑ r, h r j = mean h j * n := (div_mul_cancel₀ _ hn').symm
  have e : (∑ r, h r j * h r j) / (n : ℝ) - mean h j * mean h j = var h j := by
    unfold var
    generalize mean h j = μ at hs ⊢
    simp only [sub_mul, mul_sub, Finset.sum_sub_distrib, ← Finset.sum_mul, ← Finset.mul_sum, hs, Finset.sum_const,
      Finset.card_univ, Fintype.card_fin, nsmul_eq_mul]
    field_simp
    ring
  exact (congrArg (max · 0) e).trans (max_eq_left (var_nonneg h j))

def normRelu {n : ℕ} (ε : ℝ) (h : Fin n → Fin 128 → ℝ) (γ β : Fin 128 → ℝ) : Fin n → Fin 128 → ℝ :=
  fun r j => max (γ j * (h r j - mean h j) * (Real.sqrt (var h j + ε))⁻¹ + β j) 0

def sigm (t : ℝ) : ℝ := 1 / (1 + Real.exp (-t))

def msg {n e : ℕ} (eout : Fin e → Fin 128 → ℝ) (nv : Fin n → Fin 128 → ℝ) (col : Fin e → Fin n) : Fin e → Fin 128 → ℝ :=
  fun r j => sigm (eout r j) * nv (col r) j

def scat {e n : ℕ} (hit : (⟨2, ![e, 128]⟩ : Shape).Idx → (⟨2, ![n, 128]⟩ : Shape).Idx → Prop)
    [∀ j i, Decidable (hit j i)] (u : Fin e → Fin 128 → ℝ) : Fin n → Fin 128 → ℝ :=
  fun r k => ∑ j ∈ Finset.univ.filter (fun j => hit j (ix2 r k)), u (j 0) (j 1)

theorem coe_sum {ι : Type} (s : Finset ι) (f : ι → ℝ) : (∑ i ∈ s, ((f i : ℝ) : EReal)) = ((∑ i ∈ s, f i : ℝ) : EReal) := by
  classical
  refine Finset.induction_on s ?_ ?_
  · simp
  · intro a t ha ih
    rw [Finset.sum_insert ha, Finset.sum_insert ha, ih, EReal.coe_add]

theorem div_coe_coe (a : ℝ) {b : ℝ} (hb : b ≠ 0) : Ideal.div (a : EReal) (b : EReal) = ((a / b : ℝ) : EReal) := by
  rw [Ideal.div_coe hb, ← EReal.coe_mul, mul_one_div]

theorem rsqrt_coe_pos {t : ℝ} (ht : 0 < t) : Ideal.rsqrt (t : EReal) = (((Real.sqrt t)⁻¹ : ℝ) : EReal) := by
  rw [Ideal.rsqrt_coe, if_neg (not_lt.mpr ht.le), if_neg ht.ne']

theorem exp_coe (t : ℝ) : Ideal.exp (t : EReal) = ((Real.exp t : ℝ) : EReal) := rfl

theorem max_coe (a b : ℝ) : max (a : EReal) (b : EReal) = ((max a b : ℝ) : EReal) :=
  (EReal.coe_strictMono.monotone.map_max).symm

end GG

end
-- ==== Proof.KI.Keep.lean ====
import proofs.«408522_j36180804502137_3_alg».proof.Proof.KI.Run
import proofs.«408522_j36180804502137_3_alg».proof.Proof.Spec

noncomputable section

namespace GG

open Idealize.ShloMosaic

theorem IsR2.of_eq {R C : ℕ} {A B : (⟨2, ![R, C]⟩ : Shape).Idx → EReal} {a : Fin R → Fin C → ℝ} (h : IsR2 B a)
    (e : A = B) : IsR2 A a := e ▸ h

theorem IsR1.of_eq {C : ℕ} {A B : (⟨1, ![C]⟩ : Shape).Idx → EReal} {a : Fin C → ℝ} (h : IsR1 B a) (e : A = B) :
    IsR1 A a := e ▸ h

end GG

namespace Cert.KernelIdeal.Hand

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

-- The run's thirteen boundaries as one family.
def Ws : ℕ → Valuation τ sig (Elt Ideal)
  | 0 => W0 m c | 1 => W1 m c | 2 => W2 m c | 3 => W3 m c | 4 => W4 m c | 5 => W5 m c | 6 => W6 m c
  | 7 => W7 m c | 8 => W8 m c | 9 => W9 m c | 10 => W10 m c | 11 => W11 m c | _ => W12 m c

-- What the segment after boundary `k` writes.
noncomputable def wr : ℕ → List (Ref sig .tc)
  | 0 => hostOps0_W | 1 => [main_v11_0, main_v11_1, main_v11_2] | 2 => hostOps1_W | 3 => hostOps1_1_W
  | 4 => hostOps1_2_W | 5 => [main_v16_0, main_v16_1] | 6 => hostOps2_W | 7 => [main_v36_0, main_v36_1]
  | 8 => hostOps3_W | 9 => [main_v40_0, main_v40_1] | 10 => hostOps4_W | 11 => [main_v60] | _ => []

theorem keep1 : ∀ (k : ℕ) (r : Ref sig .tc), r ∉ wr k →
    Ws m c (k + 1) (Proc.devRef .tc r) = Ws m c k (Proc.devRef .tc r)
  | 0, r, h => W1_keep m c r h
  | 1, r, h => W2_keep m c r h
  | 2, r, h => W3_keep m c r h
  | 3, r, h => W4_keep m c r h
  | 4, r, h => W5_keep m c r h
  | 5, r, h => W6_keep m c r h
  | 6, r, h => W7_keep m c r h
  | 7, r, h => W8_keep m c r h
  | 8, r, h => W9_keep m c r h
  | 9, r, h => W10_keep m c r h
  | 10, r, h => W11_keep m c r h
  | 11, r, h => W12_keep m c r h
  | _ + 12, _, _ => rfl

-- A buffer that none of the `n` segments after boundary `i` writes is the same at boundary `i + n` as at `i`.
theorem keep (i : ℕ) : ∀ (n : ℕ) (r : Ref sig .tc), (∀ k < n, r ∉ wr (i + k)) →
    Ws m c (i + n) (Proc.devRef .tc r) = Ws m c i (Proc.devRef .tc r)
  | 0, _, _ => rfl
  | n + 1, r, h => (keep1 m c (i + n) r (h n n.lt_succ_self)).trans (keep i n r fun k hk => h k (Nat.lt_succ_of_lt hk))

end Cert.KernelIdeal.Hand

end
-- ==== Proof.Layer.lean ====
import proofs.«408522_j36180804502137_3_alg».proof.Proof.Spec

noncomputable section

namespace GG

open Idealize.ShloMosaic Idealize.ShloMosaic.ValueIdx

structure Params where
  x : Fin 50000 → Fin 128 → ℝ
  ea : Fin 640000 → Fin 128 → ℝ
  Wu : Fin 128 → Fin 128 → ℝ
  bu : Fin 128 → ℝ
  Wv : Fin 128 → Fin 128 → ℝ
  bv : Fin 128 → ℝ
  WA : Fin 128 → Fin 128 → ℝ
  bA : Fin 128 → ℝ
  WB : Fin 128 → Fin 128 → ℝ
  bB : Fin 128 → ℝ
  WC : Fin 128 → Fin 128 → ℝ
  bC : Fin 128 → ℝ
  gn : Fin 128 → ℝ
  bn : Fin 128 → ℝ
  ge : Fin 128 → ℝ
  be : Fin 128 → ℝ
  row : Fin 640000 → Fin 50000
  col : Fin 640000 → Fin 50000

variable (ε : ℝ) (P : Params)

def Params.ein : Fin 640000 → Fin 128 → ℝ := edgeIn P.x P.ea P.WA P.bA P.WB P.bB P.WC P.bC P.row P.col

def Params.eout : Fin 640000 → Fin 128 → ℝ := fun e j => P.ea e j + normRelu ε P.ein P.ge P.be e j

def Params.nv : Fin 50000 → Fin 128 → ℝ := lin P.x P.Wv P.bv

def Params.msgs : Fin 640000 → Fin 128 → ℝ := msg (P.eout ε) P.nv P.col

variable (hit : (⟨2, ![640000, 128]⟩ : Shape).Idx → (⟨2, ![50000, 128]⟩ : Shape).Idx → Prop) [∀ j i, Decidable (hit j i)]

def Params.nin : Fin 50000 → Fin 128 → ℝ := fun n j => lin P.x P.Wu P.bu n j + scat hit (P.msgs ε) n j

def Params.xout : Fin 50000 → Fin 128 → ℝ := fun n j => P.x n j + normRelu ε (P.nin ε hit) P.gn P.bn n j

end GG

end
-- ==== Proof.Glue.lean ====
import proofs.«408522_j36180804502137_3_alg».proof.Proof.Spec
import Mathlib.Logic.Equiv.Fin.Basic
import Mathlib.Data.Fintype.BigOperators
import Mathlib.Algebra.BigOperators.Group.Finset.Defs

noncomputable section

open scoped BigOperators

namespace GG

-- The pairs (tile, row in tile) are the rows, through `(t, p) ↦ P · t + p`.
theorem sum_tiles {M : Type*} [AddCommMonoid M] {T P N : ℕ} (hN : N = T * P) (f : Fin N → M)
    (g : Fin T → Fin P → Fin N) (hg : ∀ t p, (g t p).val = P * t.val + p.val) :
    ∑ t : Fin T, ∑ p : Fin P, f (g t p) = ∑ r : Fin N, f r := by
  subst hN
  exact (Fintype.sum_prod_type fun x : Fin T × Fin P => f (g x.1 x.2)).symm.trans
    (Fintype.sum_equiv finProdFinEquiv _ _ fun x => congrArg f (Fin.ext ((hg x.1 x.2).trans (Nat.add_comm _ _))))

-- Eight rows per tile of `p` rows: the tile's column sums, its column sums of squares, six zero rows.
def stats {N M : ℕ} (p : ℕ) (hb : ∀ (r : Fin M) (q : Fin p), p * (r.val / 8) + q.val < N) (h : Fin N → Fin 128 → ℝ) :
    Fin M → Fin 128 → ℝ := fun r j =>
  if r.val % 8 = 0 then ∑ q : Fin p, h ⟨p * (r.val / 8) + q.val, hb r q⟩ j
  else if r.val % 8 = 1 then ∑ q : Fin p, h ⟨p * (r.val / 8) + q.val, hb r q⟩ j * h ⟨p * (r.val / 8) + q.val, hb r q⟩ j
  else 0

def stats640k : (Fin 640000 → Fin 128 → ℝ) → Fin 1280 → Fin 128 → ℝ := stats 4000 fun r q => by omega

def stats50k : (Fin 50000 → Fin 128 → ℝ) → Fin 200 → Fin 128 → ℝ := stats 2000 fun r q => by omega

variable {T p N M : ℕ} {hb : ∀ (r : Fin M) (q : Fin p), p * (r.val / 8) + q.val < N} (h : Fin N → Fin 128 → ℝ)
  (j : Fin 128) (hN : N = T * p := by decide) (hM : M = 8 * T := by decide) {n : ℝ}
include hN hM

-- Rows `8 t + i` of the statistics hold each tile's sum of `f` over its rows; over the tiles these add up to all rows.
private theorem stats_sum (i : ℕ) (hi : i < 2) (f : ℝ → ℝ)
    (hf : ∀ r : Fin M, r.val % 8 = i → stats p hb h r j = ∑ q : Fin p, f (h ⟨p * (r.val / 8) + q.val, hb r q⟩ j)) :
    ∑ t : Fin T, stats p hb h ⟨8 * t.val + i, by omega⟩ j = ∑ r, f (h r j) :=
  (Finset.sum_congr rfl fun t _ => hf ⟨8 * t.val + i, by omega⟩ (by show (8 * t.val + i) % 8 = i; omega)).trans <|
    sum_tiles hN (fun r => f (h r j)) (fun t q => ⟨p * ((8 * t.val + i) / 8) + q.val, hb ⟨8 * t.val + i, by omega⟩ q⟩)
      fun t q => by show p * ((8 * t.val + i) / 8) + q.val = _; rw [show (8 * t.val + i) / 8 = t.val by omega]

-- Rows `0 mod 8`, summed over the tiles and divided by the row count, are the column mean.
theorem mean_stats (hn : (N : ℝ) = n := by norm_num) :
    (∑ t : Fin T, stats p hb h ⟨8 * t.val, by omega⟩ j) / n = mean h j := by
  subst hn
  exact congrArg (· / (N : ℝ)) (stats_sum h j hN hM 0 (by decide) (fun x => x) fun r hr => if_pos hr)

-- The mean of the squares minus the squared mean, cut below at zero, is the column variance.
theorem var_stats (hpos : 0 < N := by decide) (hn : (N : ℝ) = n := by norm_num) :
    max ((∑ t : Fin T, stats p hb h ⟨8 * t.val + 1, by omega⟩ j) / n
      - (∑ t : Fin T, stats p hb h ⟨8 * t.val, by omega⟩ j) / n * ((∑ t : Fin T, stats p hb h ⟨8 * t.val, by omega⟩ j) / n)) 0
      = var h j := by
  have e0 : ∑ t : Fin T, stats p hb h ⟨8 * t.val, by omega⟩ j = ∑ r, h r j :=
    stats_sum h j hN hM 0 (by decide) (fun x => x) fun r hr => if_pos hr
  have e1 := stats_sum (hb := hb) h j hN hM 1 (by decide) (fun x => x * x) fun r hr => (if_neg (by omega)).trans (if_pos hr)
  rw [← hn, e0, e1, ← varK_eq_var hpos h]
  rfl

end GG

end
-- ==== Proof.KI.Inputs.lean ====
import proofs.«408522_j36180804502137_3_alg».proof.KernelIdeal
import proofs.«408522_j36180804502137_3_alg».proof.Proof.Layer
import proofs.«408522_j36180804502137_3_alg».proof.Proof.Glue

noncomputable section

namespace GG

-- The second-endpoint image and the message image of the node table, side by side.
def cn (P : Params) : Fin 50000 → Fin 256 → ℝ :=
  fun n j => if h : j.val < 128 then lin P.x P.WC P.bC n ⟨j.val, h⟩ else P.nv n ⟨j.val - 128, by omega⟩

end GG

namespace Cert.KernelIdeal.Hand

open Cert.KernelIdeal Idealize.ShloMosaic Idealize.ShloMosaic.ValueIdx

-- The launch memory holds the real entries `P` names, and the endpoints are in the node range.
structure KInputs (m : (ℓ : Loc nD τ sig) → Buf (Elt Ideal) ℓ) (c : Dev nD) (P : GG.Params) : Prop where
  h0 : GG.IsR2 (m ((c.tc : Thread nD τ).loc main_arg0)) P.x
  h2 : GG.IsR2 (m ((c.tc : Thread nD τ).loc main_arg2)) P.ea
  h3 : GG.IsR2 (m ((c.tc : Thread nD τ).loc main_arg3)) P.Wu
  h4 : GG.IsR1 (m ((c.tc : Thread nD τ).loc main_arg4)) P.bu
  h5 : GG.IsR2 (m ((c.tc : Thread nD τ).loc main_arg5)) P.Wv
  h6 : GG.IsR1 (m ((c.tc : Thread nD τ).loc main_arg6)) P.bv
  h7 : GG.IsR2 (m ((c.tc : Thread nD τ).loc main_arg7)) P.WA
  h8 : GG.IsR1 (m ((c.tc : Thread nD τ).loc main_arg8)) P.bA
  h9 : GG.IsR2 (m ((c.tc : Thread nD τ).loc main_arg9)) P.WB
  h10 : GG.IsR1 (m ((c.tc : Thread nD τ).loc main_arg10)) P.bB
  h11 : GG.IsR2 (m ((c.tc : Thread nD τ).loc main_arg11)) P.WC
  h12 : GG.IsR1 (m ((c.tc : Thread nD τ).loc main_arg12)) P.bC
  h13 : GG.IsR1 (m ((c.tc : Thread nD τ).loc main_arg13)) P.gn
  h14 : GG.IsR1 (m ((c.tc : Thread nD τ).loc main_arg14)) P.bn
  h15 : GG.IsR1 (m ((c.tc : Thread nD τ).loc main_arg15)) P.ge
  h16 : GG.IsR1 (m ((c.tc : Thread nD τ).loc main_arg16)) P.be
  hrow : ∀ e : Fin 640000, ((m ((c.tc : Thread nD τ).loc main_arg1) : IVec S2x640000 32) (ix2 0 e)).toInt = ((P.row e).val : ℤ)
  hcol : ∀ e : Fin 640000, ((m ((c.tc : Thread nD τ).loc main_arg1) : IVec S2x640000 32) (ix2 1 e)).toInt = ((P.col e).val : ℤ)

end Cert.KernelIdeal.Hand

end
-- ==== Proof.KI.Host0.lean ====
import proofs.«408522_j36180804502137_3_alg».proof.Proof.Gen.KernelIdeal.Launch
import proofs.«408522_j36180804502137_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace GG

def wcat (WB WC Wv Wu : Fin 128 → Fin 128 → ℝ) : Fin 128 → Fin 512 → ℝ := fun k j =>
  if h : j.val < 128 then WB ⟨j.val, h⟩ k
  else if h2 : j.val < 256 then WC ⟨j.val - 128, by omega⟩ k
  else if h3 : j.val < 384 then Wv ⟨j.val - 256, by omega⟩ k
  else Wu ⟨j.val - 384, by have := j.isLt; omega⟩ k

def bcat (bB bC bv bu : Fin 128 → ℝ) : Fin 512 → ℝ := fun j =>
  if h : j.val < 128 then bB ⟨j.val, h⟩
  else if h2 : j.val < 256 then bC ⟨j.val - 128, by omega⟩
  else if h3 : j.val < 384 then bv ⟨j.val - 256, by omega⟩
  else bu ⟨j.val - 384, by have := j.isLt; omega⟩

end GG

namespace Cert.KernelIdeal.Hand

open Cert.KernelIdeal Cert.KernelIdeal.Gen
open Idealize.ShloMosaic Idealize.ShloMosaic.TcCoe Idealize.ShloMosaic.ValueIdx

/-- Of four runs of 128, position `j` lies in run `j / 128` at `j % 128`: the chain of three comparisons picks the same entry. -/
theorem pick4 {β : Type} (f : Fin 4 → Fin 128 → β) (j : Fin 512) :
    (if h : j.val < 128 then f 0 ⟨j.val, h⟩
      else if h2 : j.val < 256 then f 1 ⟨j.val - 128, by omega⟩
      else if h3 : j.val < 384 then f 2 ⟨j.val - 256, by omega⟩
      else f 3 ⟨j.val - 384, by have := j.isLt; omega⟩)
      = f ⟨j.val / 128, by have := j.isLt; omega⟩ ⟨j.val % 128, Nat.mod_lt _ (by decide)⟩ := by
  have hj := j.isLt
  have key : ∀ (n : Fin 4) (c : Fin 128), 128 * n.val + c.val = j.val →
      f n c = f ⟨j.val / 128, by omega⟩ ⟨j.val % 128, Nat.mod_lt _ (by decide)⟩ := fun n c h => by
    have hc := c.isLt
    rw [show (⟨j.val / 128, by omega⟩ : Fin 4) = n from Fin.ext (by show j.val / 128 = n.val; omega),
      show (⟨j.val % 128, Nat.mod_lt _ (by decide)⟩ : Fin 128) = c from Fin.ext (by show j.val % 128 = c.val; omega)]
  split
  · exact key 0 _ (by show 128 * 0 + j.val = j.val; omega)
  · split
    · exact key 1 _ (by show 128 * 1 + (j.val - 128) = j.val; omega)
    · split
      · exact key 2 _ (by show 128 * 2 + (j.val - 256) = j.val; omega)
      · exact key 3 _ (by show 128 * 3 + (j.val - 384) = j.val; omega)

variable (Win : Valuation τ sig (Elt Ideal))

theorem h0_v1 (e : Fin 640000) :
    StableHlo.after hostOps0 Win (Proc.devRef .tc main_v1) (ix1 e) = Win (Proc.devRef .tc main_arg1) (ix2 0 e) := by
  after_results
  exact (shapeCast_1a_a_apply _ _ e).trans (slice2_axis0_apply 0 _ _ 0 e 0 rfl)

theorem h0_v3 (e : Fin 640000) :
    StableHlo.after hostOps0 Win (Proc.devRef .tc main_v3) (ix1 e) = Win (Proc.devRef .tc main_arg1) (ix2 1 e) := by
  after_results
  exact (shapeCast_1a_a_apply _ _ e).trans (slice2_axis0_apply 1 _ _ 0 e 1 rfl)

/-- Column `j` of the four transposes side by side is column `j % 128` of the transpose `j / 128`. -/
theorem h0_v8 {WB WC Wv Wu : Fin 128 → Fin 128 → ℝ}
    (h9 : GG.IsR2 (R := 128) (C := 128) (Win (Proc.devRef .tc main_arg9)) WB)
    (h11 : GG.IsR2 (R := 128) (C := 128) (Win (Proc.devRef .tc main_arg11)) WC)
    (h5 : GG.IsR2 (R := 128) (C := 128) (Win (Proc.devRef .tc main_arg5)) Wv)
    (h3 : GG.IsR2 (R := 128) (C := 128) (Win (Proc.devRef .tc main_arg3)) Wu) :
    GG.IsR2 (R := 128) (C := 512) (StableHlo.after hostOps0 Win (Proc.devRef .tc main_v8)) (GG.wcat WB WC Wv Wu) := by
  let X : Fin 4 → S128x128.Idx → EReal :=
    ![Win (Proc.devRef .tc main_arg9), Win (Proc.devRef .tc main_arg11), Win (Proc.devRef .tc main_arg5), Win (Proc.devRef .tc main_arg3)]
  intro k j
  have hj := j.isLt
  have hX : ∀ (n : Fin 4) (c : Fin 128), X n (ix2 c k) = ((![WB, WC, Wv, Wu] n c k : ℝ) : EReal) := by
    intro n c; fin_cases n
    exacts [h9 c k, h11 c k, h5 c k, h3 c k]
  after_results_simp
  refine (concatenate_ofFn_apply (t := S128x512) 1 (fun n => transpose S128x128 [1, 0] (X n) transposes_S128x128_S128x128_1_0)
    concatenates_S128x128_S128x128_S128x128_S128x128_S128x512_d1 rfl 128 rfl (ix2 k j) ⟨j.val / 128, by omega⟩ rfl
    (ix2 k ⟨j.val % 128, Nat.mod_lt _ (by decide)⟩) rfl
    (fun b hb => match b, hb with | ⟨0, _⟩, _ => rfl | ⟨1, _⟩, hb => absurd rfl hb)).trans ?_
  rw [transpose_ix2_apply]
  exact (hX _ _).trans (congrArg Real.toEReal (pick4 (fun n c => ![WB, WC, Wv, Wu] n c k) j).symm)

/-- Entry `j` of the four vectors end to end, read as a row, is entry `j % 128` of the vector `j / 128`. -/
theorem h0_v10 {bB bC bv bu : Fin 128 → ℝ}
    (h10 : GG.IsR1 (C := 128) (Win (Proc.devRef .tc main_arg10)) bB)
    (h12 : GG.IsR1 (C := 128) (Win (Proc.devRef .tc main_arg12)) bC)
    (h6 : GG.IsR1 (C := 128) (Win (Proc.devRef .tc main_arg6)) bv)
    (h4 : GG.IsR1 (C := 128) (Win (Proc.devRef .tc main_arg4)) bu) :
    GG.IsR2 (R := 1) (C := 512) (StableHlo.after hostOps0 Win (Proc.devRef .tc main_v10)) (fun _ j => GG.bcat bB bC bv bu j) := by
  let X : Fin 4 → S128.Idx → EReal :=
    ![Win (Proc.devRef .tc main_arg10), Win (Proc.devRef .tc main_arg12), Win (Proc.devRef .tc main_arg6), Win (Proc.devRef .tc main_arg4)]
  intro r j
  have hj := j.isLt
  have hX : ∀ (n : Fin 4) (c : Fin 128), X n (ix1 c) = ((![bB, bC, bv, bu] n c : ℝ) : EReal) := by
    intro n c; fin_cases n
    exacts [h10 c, h12 c, h6 c, h4 c]
  after_results_simp
  refine (shapeCast_a_1a_apply _ _ r j).trans ?_
  exact (concatenate_ofFn_apply (t := S512) 0 X concatenates_S128_S128_S128_S128_S512_d0 rfl 128 rfl (ix1 j) ⟨j.val / 128, by omega⟩ rfl
    (ix1 ⟨j.val % 128, Nat.mod_lt _ (by decide)⟩) rfl (fun b hb => absurd (Subsingleton.elim _ _) hb)).trans
    ((hX _ _).trans (congrArg Real.toEReal (pick4 ![bB, bC, bv, bu] j).symm))

end Cert.KernelIdeal.Hand

end
-- ==== Proof.KI.Rows.lean ====
/- Rank-2 arrays of real entries read and written in blocks: the index arithmetic, once. -/
import proofs.«408522_j36180804502137_3_alg».proof.Proof.Spec
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx
open scoped BigOperators

theorem hz : (![0, 0] : Fin 2 → Nat) = fun _ => 0 := funext (Fin.forall_fin_two.2 ⟨rfl, rfl⟩)

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- A plain `M × K` by `K × N` product into a zero accumulator is, at `(p, q)`, the sum over the shared coordinate. -/
theorem matmul_plain_apply {M K N : ℕ} (a : FVec Ideal ⟨2, ![M, K]⟩ .bf16) (b : FVec Ideal ⟨2, ![K, N]⟩ .bf16) (p : Fin M) (q : Fin N) :
    FloatOps.matmul (DotDims.plain M K N) none a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have ck := contrEquiv1_symm_val (DotDims.plain M K N) K rfl rfl k
  congr 2 <;> apply Shape.idx_ext₂
  · rfl
  · exact ck
  · exact ck
  · rfl

/-- A column reduction stored as one row reads, at column `q`, the column's sum. -/
theorem colsum_apply {M C : ℕ} (f : FVec Ideal ⟨2, ![M, C]⟩ .f32) (h : (⟨2, ![M, C]⟩ : Shape).Reduces [0] ⟨1, ![C]⟩) {hφ hacc}
    (hs : (⟨1, ![C]⟩ : Shape).ShapeCasts ⟨2, ![1, C]⟩) (q : Fin C) :
    shapeCast ⟨2, ![1, C]⟩ (multiReduction .add [0] ⟨1, ![C]⟩ f 0x00000000#32 h hφ hacc) hs (ix2 0 q) = ∑ k : Fin M, f (ix2 k q) := by
  refine (shapeCast_addUnit_apply ![C] _ _ (ix2 0 q)).trans ?_
  refine (Ideal.multiReduction_add_single _ _ h _ _ _).trans ?_
  exact Finset.sum_congr rfl fun p _ => congrArg _ (Shape.idx_ext₂ rfl rfl)

/-- A row vector spread down the rows reads, at `(p, q)`, its entry `q`. -/
theorem bcast_row {α : Type} {R C : ℕ} (x : (⟨2, ![1, C]⟩ : Shape).Idx → α) (h : (⟨2, ![1, C]⟩ : Shape).Broadcasts ⟨2, ![R, C]⟩)
    (p : Fin R) (q : Fin C) : broadcastTo ⟨2, ![R, C]⟩ x h (ix2 p q) = x (ix2 (0 : Fin 1) q) :=
  broadcastTo_apply x h (ix2 p q) (ix2 (0 : Fin 1) q) fun a => by
    match a with
    | ⟨0, _⟩ => rfl
    | ⟨1, _⟩ => show q.val = if C = 1 then 0 else q.val; split <;> [(have := q.isLt; omega); rfl]

variable {R C : ℕ} {A : (⟨2, ![R, C]⟩ : Shape).Idx → EReal} {a : Fin R → Fin C → ℝ}

/-- The extended-real array whose entries are those of `a`. -/
def ofR2 (a : Fin R → Fin C → ℝ) : (⟨2, ![R, C]⟩ : Shape).Idx → EReal := fun i => ((a (i 0) (i 1) : ℝ) : EReal)

theorem isR2_ofR2 : GG.IsR2 (ofR2 a) a := fun _ _ => rfl

theorem isR2_of_ofR2 (h : A = ofR2 a) : GG.IsR2 A a := h ▸ isR2_ofR2

/-- An index is its two coordinates, so an array of real entries is read at any index by them. -/
theorem _root_.GG.IsR2.at (h : GG.IsR2 A a) {i : (⟨2, ![R, C]⟩ : Shape).Idx} {r : Fin R} {j : Fin C}
    (h0 : (i 0).val = r.val) (h1 : (i 1).val = j.val) : A i = ((a r j : ℝ) : EReal) := by
  rw [(eq_ix2 i).trans (congrArg₂ ix2 (Fin.ext h0) (Fin.ext h1))]; exact h r j

/-- Entry `(p, q)` of a unit-stride rectangle sits at its offsets plus `(p, q)`. -/
theorem unit_emb2 {off : Fin 2 → ℕ} {m n : ℕ} {inb : ∀ d, off d + (![m, n] : Fin 2 → ℕ) d ≤ (⟨2, ![R, C]⟩ : Shape).size d}
    (p : Fin m) (q : Fin n) {i : Fin R} {j : Fin C}
    (h0 : off 0 + p.val = i.val := by first | rfl | omega) (h1 : off 1 + q.val = j.val := by first | rfl | omega) :
    (Rect.unit (s := ⟨2, ![R, C]⟩) off ![m, n] inb).emb (ix2 p q) = ix2 i j :=
  Shape.idx_ext₂ (by rw [Rect.emb_apply]; show off 0 + 1 * p.val = i.val; rw [Nat.one_mul, h0])
    (by rw [Rect.emb_apply]; show off 1 + 1 * q.val = j.val; rw [Nat.one_mul, h1])

/-- Three stores into an 8-row block — rows 2..7, row 1, row 0 — that each agree with `G` on their rows leave `G`. -/
theorem canon_rows3 {Val : EltTy → Type} [∀ e, Nonempty (Val e)] {e : EltTy} {n : ℕ} {i5 i4 i3}
    (z : (⟨2, ![6, n]⟩ : Shape).Idx → Val e) (s2 s1 : (⟨2, ![1, n]⟩ : Shape).Idx → Val e) (G : (⟨2, ![8, n]⟩ : Shape).Idx → Val e)
    (hz : ∀ (p : Fin 6) q, z (ix2 p q) = G (ix2 ⟨2 + p.val, by omega⟩ q))
    (h2 : ∀ q, s2 (ix2 0 q) = G (ix2 1 q)) (h1 : ∀ q, s1 (ix2 0 q) = G (ix2 0 q)) (y : (⟨2, ![8, n]⟩ : Shape).Idx)
    (hcov : ∃ pc ∈ ([⟨Rect.unit (s := ⟨2, ![8, n]⟩) ![2, 0] ![6, n] i5, z⟩, ⟨Rect.unit (s := ⟨2, ![8, n]⟩) ![1, 0] ![1, n] i4, s2⟩,
      ⟨Rect.unit (s := ⟨2, ![8, n]⟩) ![0, 0] ![1, n] i3, s1⟩] : List (View.Piece Val ⟨2, ![8, n]⟩ e)), y ∈ pc.1.set) :
    View.canon [⟨Rect.unit (s := ⟨2, ![8, n]⟩) ![2, 0] ![6, n] i5, z⟩, ⟨Rect.unit (s := ⟨2, ![8, n]⟩) ![1, 0] ![1, n] i4, s2⟩,
      ⟨Rect.unit (s := ⟨2, ![8, n]⟩) ![0, 0] ![1, n] i3, s1⟩] y = G y := by
  refine View.canon_apply_of_pieces G _ ?_ y hcov
  refine List.forall_mem_cons.mpr ⟨fun x => ?_, List.forall_mem_cons.mpr ⟨fun x => ?_, List.forall_mem_cons.mpr ⟨fun x => ?_,
    fun _ h => absurd h List.not_mem_nil⟩⟩⟩ <;>
    obtain ⟨x0, x1, rfl⟩ : ∃ x0 x1, x = ix2 x0 x1 := ⟨x 0, x 1, eq_ix2 x⟩
  · exact (hz x0 x1).trans (congrArg G (unit_emb2 (inb := i5) x0 x1 (h1 := Nat.zero_add _)).symm)
  · obtain rfl : x0 = 0 := Subsingleton.elim _ _
    exact (h2 x1).trans (congrArg G (unit_emb2 (inb := i4) 0 x1 (i := 1) (h1 := Nat.zero_add _)).symm)
  · obtain rfl : x0 = 0 := Subsingleton.elim _ _
    exact (h1 x1).trans (congrArg G (unit_emb2 (inb := i3) 0 x1 (i := 0) (h1 := Nat.zero_add _)).symm)

variable {r c k l : ℕ}

/-- Entry `(p, q)` of the `r × c` block at block index `(k, l)` is entry `(k r + p, l c + q)` of the array. -/
theorem _root_.GG.IsR2.blk {ix : Fin 2 → ℕ}
    {inb : ∀ d, ix d * (![r, c] : Fin 2 → ℕ) d + (![r, c] : Fin 2 → ℕ) d ≤ (⟨2, ![R, C]⟩ : Shape).size d}
    (h : GG.IsR2 A a) (hix : ix 0 = k ∧ ix 1 = l) (p : Fin r) (q : Fin c) {i : Fin R} {j : Fin C}
    (hr : k * r + p.val = i.val := by first | rfl | omega) (hc : l * c + q.val = j.val := by first | rfl | omega) :
    A ((Rect.unit (s := ⟨2, ![R, C]⟩) (fun d => ix d * (![r, c] : Fin 2 → ℕ) d) ![r, c] inb).emb (ix2 p q))
      = ((a i j : ℝ) : EReal) :=
  h.at (by rw [Rect.emb_apply]; show ix 0 * r + 1 * p.val = i.val; rw [hix.1, Nat.one_mul, hr])
    (by rw [Rect.emb_apply]; show ix 1 * c + 1 * q.val = j.val; rw [hix.2, Nat.one_mul, hc])

/-- With point `t` at the block of `r` rows and all columns at block index `(t, 0)`, row `ρ` is in the block of point `ρ / r`. -/
theorem cover_rows {N : ℕ} (ix : Fin N → Fin 2 → ℕ)
    {inb : ∀ t d, ix t d * (![r, C] : Fin 2 → ℕ) d + (![r, C] : Fin 2 → ℕ) d ≤ (⟨2, ![R, C]⟩ : Shape).size d}
    (hix : ∀ t, ix t 0 = t.val ∧ ix t 1 = 0) (hr : 0 < r) (hN : R ≤ r * N) (i : (⟨2, ![R, C]⟩ : Shape).Idx) :
    ∃ t : Fin N, i ∈ (Rect.unit (s := ⟨2, ![R, C]⟩) (fun d => ix t d * (![r, C] : Fin 2 → ℕ) d) ![r, C] (inb t)).set := by
  refine ⟨⟨(i 0).val / r, Nat.div_lt_of_lt_mul (Nat.lt_of_lt_of_le (idx2_lt0 i) hN)⟩, ?_⟩
  rw [Rect.mem_set_unit]
  refine Fin.forall_fin_two.2 ⟨?_, ?_⟩
  · show ix _ 0 * r ≤ (i 0).val ∧ (i 0).val < ix _ 0 * r + r
    rw [(hix _).1]; exact ⟨Nat.div_mul_le_self _ _, Nat.lt_div_mul_add hr⟩
  · show ix _ 1 * C ≤ (i 1).val ∧ (i 1).val < ix _ 1 * C + C
    rw [(hix _).2, Nat.zero_mul, Nat.zero_add]; exact ⟨Nat.zero_le _, idx2_lt1 i⟩

section Stat
variable {N : ℕ} (r) (hR : R = N * r) (h : Fin R → Fin C → ℝ)
include hR

theorem lt8 (ρ : Fin (8 * N)) (p : Fin r) : r * (ρ.val / 8) + p.val < R := by
  have h1 : ρ.val / 8 < N := Nat.div_lt_of_lt_mul ρ.isLt
  calc r * (ρ.val / 8) + p.val < r * (ρ.val / 8) + r := Nat.add_lt_add_left p.isLt _
    _ = r * (ρ.val / 8 + 1) := (Nat.mul_succ _ _).symm
    _ ≤ r * N := Nat.mul_le_mul_left _ h1
    _ = R := by rw [hR, Nat.mul_comm]

theorem ltb (t : Fin N) (p : Fin r) : t.val * r + p.val < R := by
  calc t.val * r + p.val < t.val * r + r := Nat.add_lt_add_left p.isLt _
    _ = (t.val + 1) * r := (Nat.succ_mul _ _).symm
    _ ≤ N * r := Nat.mul_le_mul_right _ t.isLt
    _ = R := hR.symm

/-- The column statistics of `h`, 8 rows a block of `r` rows: row 0 the block's column sums, row 1 those of the squares, the rest zero. -/
def stat8 : Fin (8 * N) → Fin C → ℝ := fun ρ j =>
  if ρ.val % 8 = 0 then ∑ p : Fin r, h ⟨r * (ρ.val / 8) + p.val, lt8 r hR ρ p⟩ j
  else if ρ.val % 8 = 1 then ∑ p : Fin r, h ⟨r * (ρ.val / 8) + p.val, lt8 r hR ρ p⟩ j * h ⟨r * (ρ.val / 8) + p.val, lt8 r hR ρ p⟩ j
  else 0

variable {ix : Fin 2 → ℕ} {inb : ∀ d, ix d * (![8, C] : Fin 2 → ℕ) d + (![8, C] : Fin 2 → ℕ) d ≤ (⟨2, ![8 * N, C]⟩ : Shape).size d}
  (t : Fin N) (hix : ix 0 = t.val ∧ ix 1 = 0)
include hix

/-- Row `y0` of point `t`'s block of the statistics is row `8 t + y0` of the array. -/
theorem stat8_blk (y0 : Fin 8) (q : Fin C) :
    ofR2 (stat8 r hR h) ((Rect.unit (s := ⟨2, ![8 * N, C]⟩) (fun d => ix d * (![8, C] : Fin 2 → ℕ) d) ![8, C] inb).emb (ix2 y0 q))
      = ((if y0.val = 0 then ∑ p : Fin r, h ⟨_, ltb r hR t p⟩ q
          else if y0.val = 1 then ∑ p : Fin r, h ⟨_, ltb r hR t p⟩ q * h ⟨_, ltb r hR t p⟩ q else 0 : ℝ) : EReal) := by
  have ht := t.isLt
  rw [isR2_ofR2.blk hix y0 q (i := ⟨t.val * 8 + y0.val, by omega⟩) (j := q)]
  unfold stat8
  have hm : (t.val * 8 + y0.val) % 8 = y0.val := by omega
  have hd : r * ((t.val * 8 + y0.val) / 8) = t.val * r := by rw [show (t.val * 8 + y0.val) / 8 = t.val by omega, Nat.mul_comm]
  simp only [hm, hd]

/-- Zeros stored into rows 2..7, a block's column sums of squares into row 1, its column sums into row 0: point `t`'s statistics. -/
theorem canon_stat8 {i5 i4 i3} (z : Vec Ideal ⟨2, ![6, C]⟩ .f32) (s2 s1 : Vec Ideal ⟨2, ![1, C]⟩ .f32) (hz : ∀ x, z x = 0)
    (h2 : ∀ q, s2 (ix2 0 q) = ((∑ p : Fin r, h ⟨_, ltb r hR t p⟩ q * h ⟨_, ltb r hR t p⟩ q : ℝ) : EReal))
    (h1 : ∀ q, s1 (ix2 0 q) = ((∑ p : Fin r, h ⟨_, ltb r hR t p⟩ q : ℝ) : EReal)) (y : (⟨2, ![8, C]⟩ : Shape).Idx)
    (hcov : ∃ pc ∈ ([⟨Rect.unit (s := ⟨2, ![8, C]⟩) ![2, 0] ![6, C] i5, z⟩, ⟨Rect.unit (s := ⟨2, ![8, C]⟩) ![1, 0] ![1, C] i4, s2⟩,
      ⟨Rect.unit (s := ⟨2, ![8, C]⟩) ![0, 0] ![1, C] i3, s1⟩] : List (View.Piece (Elt Ideal) ⟨2, ![8, C]⟩ .f32)), y ∈ pc.1.set) :
    View.canon [⟨Rect.unit (s := ⟨2, ![8, C]⟩) ![2, 0] ![6, C] i5, z⟩, ⟨Rect.unit (s := ⟨2, ![8, C]⟩) ![1, 0] ![1, C] i4, s2⟩,
        ⟨Rect.unit (s := ⟨2, ![8, C]⟩) ![0, 0] ![1, C] i3, s1⟩] y
      = ofR2 (stat8 r hR h) ((Rect.unit (s := ⟨2, ![8 * N, C]⟩) (fun d => ix d * (![8, C] : Fin 2 → ℕ) d) ![8, C] inb).emb y) := by
  refine canon_rows3 z s2 s1 (fun y => ofR2 (stat8 r hR h)
    ((Rect.unit (s := ⟨2, ![8 * N, C]⟩) (fun d => ix d * (![8, C] : Fin 2 → ℕ) d) ![8, C] inb).emb y))
    (fun p q => ?_) (fun q => ?_) (fun q => ?_) y hcov <;> dsimp only
  · rw [hz, stat8_blk r hR h t hix ⟨2 + p.val, by omega⟩ q, if_neg (show ¬(2 + p.val = 0) by omega),
      if_neg (show ¬(2 + p.val = 1) by omega)]
    rfl
  · rw [h2, stat8_blk r hR h t hix 1 q]; rfl
  · rw [h1, stat8_blk r hR h t hix 0 q]; rfl

end Stat

/-- Blocks of `r` rows at block index `(t, 0)`, each written back holding rows `t r …` of `a`, tile an array that ends holding `a`. -/
theorem isR2_of_rows {N : ℕ} {Arr : (⟨2, ![R, C]⟩ : Shape).Idx → EReal} {a : Fin R → Fin C → ℝ} (ix : Fin N → Fin 2 → ℕ)
    {inb : ∀ t d, ix t d * (![r, C] : Fin 2 → ℕ) d + (![r, C] : Fin 2 → ℕ) d ≤ (⟨2, ![R, C]⟩ : Shape).size d}
    (hix : ∀ t, ix t 0 = t.val ∧ ix t 1 = 0) (hR : R = N * r) (hr : 0 < r) (fl : Fin N → (⟨2, ![r, C]⟩ : Shape).Idx → EReal)
    (post : ∀ G : (⟨2, ![R, C]⟩ : Shape).Idx → EReal,
      (∀ t, fl t = fun y => G ((Rect.unit (s := ⟨2, ![R, C]⟩) (fun d => ix t d * (![r, C] : Fin 2 → ℕ) d) ![r, C] (inb t)).emb y)) →
      (∀ i, ∃ t, i ∈ (Rect.unit (s := ⟨2, ![R, C]⟩) (fun d => ix t d * (![r, C] : Fin 2 → ℕ) d) ![r, C] (inb t)).set) → Arr = G)
    (H : ∀ t p q, fl t (ix2 p q) = ((a ⟨_, ltb r hR t p⟩ q : ℝ) : EReal)) : GG.IsR2 Arr a :=
  isR2_of_ofR2 (post _ (fun t => funext fun y => by
      obtain ⟨p, q, rfl⟩ : ∃ p q, y = ix2 p q := ⟨y 0, y 1, eq_ix2 y⟩
      exact (H t p q).trans (isR2_ofR2.blk (hix t) p q (i := ⟨_, ltb r hR t p⟩) (j := q)).symm)
    (cover_rows ix hix hr (by rw [hR, Nat.mul_comm])))

/-- The elements under a rectangle of a whole buffer are the rectangle's. -/
theorem mem_slice_whole {sig : RefSig} {κ : Kind} (b : Ref sig κ) {r : Rect b.ty.shape} {i : b.ty.shape.Idx} (h : i ∈ r.set) :
    i ∈ ((View.whole b).slice r).set := (View.set_slice_whole b r).symm ▸ h

end Cert.KernelIdeal.Hand

end
-- ==== Proof.KI.Val0.lean ====
/- Region 0 at the exact-real instance: on real inputs each output array holds a column range of "node table times weight plus bias". -/
import proofs.«408522_j36180804502137_3_alg».proof.Proof.KI.Region0
import proofs.«408522_j36180804502137_3_alg».proof.Proof.KI.Rows
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem mm0_apply (A : FVec Ideal S2000x128 .bf16) (B : FVec Ideal S128x512 .bf16) (p : Fin 2000) (q : Fin 512) :
    matmul dot_S2000x128_S128x512_S2000x512_1_0_0_1_n_n none A B (constant S2000x512 .f32 0x00000000#32) (ix2 p q)
      = ∑ k : Fin 128, A (ix2 p k) * B (ix2 k q) :=
  matmul_plain_apply A B p q

section Arrays

variable (V : (c : Dev nD) → (b : Ref sig .tc) → Buf (Elt Ideal) ((c : Thread nD τ).loc b)) (c : Dev nD)
variable {x : Fin 50000 → Fin 128 → ℝ} {wc : Fin 128 → Fin 512 → ℝ} {bc : Fin 512 → ℝ}
  (hx : GG.IsR2 (V c main_arg0) x) (hw : GG.IsR2 (V c main_v8) wc) (hb : GG.IsR2 (V c main_v10) (fun _ j => bc j))

/-- The biased product: a row of the node block against a weight column, plus that column's bias. -/
theorem pay1_apply (x0 : Vec Ideal S2000x128 .f32) (x1 : Vec Ideal S128x512 .f32) (x2 : Vec Ideal S1x512 .f32)
    (p : Fin 2000) (q : Fin 512) :
    k0_pay1 x0 x1 x2 (ix2 p q) = (∑ k : Fin 128, x0 (ix2 p k) * x1 (ix2 k q)) + x2 (ix2 (0 : Fin 1) q) := by
  unfold k0_pay1
  rw [addf_apply, mm0_apply, shapeCast_self, shapeCast_self, bcast_row]
  rfl

/-- The node rows and the three results move one block of 2000 rows a point; the weight and the bias stay. -/
theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

def lin0 (x : Fin 50000 → Fin 128 → ℝ) (wc : Fin 128 → Fin 512 → ℝ) (bc : Fin 512 → ℝ) (r : Fin 50000) (q : Fin 512) : ℝ :=
  (∑ k, x r k * wc k q) + bc q

include hx hw hb

/-- On the blocks of point `t` the biased product is the real one at row `2000 t + p`. -/
theorem pay1_blocks (t : Fin cfg0.N) (p : Fin 2000) (q : Fin 512) :
    k0_pay1 (iblk0 V c 0 t) (iblk0 V c 1 t) (iblk0 V c 2 t) (ix2 p q) = ((lin0 x wc bc ⟨_, ltb 2000 rfl t p⟩ q : ℝ) : EReal) := by
  have e := idx_facts0 t
  have h0 : ∀ k, iblk0 V c 0 t (ix2 p k) = ((x ⟨_, ltb 2000 rfl t p⟩ k : ℝ) : EReal) := fun k => hx.blk e.1 p k
  have h1 : ∀ k, iblk0 V c 1 t (ix2 k q) = ((wc k q : ℝ) : EReal) := fun k => hw.blk e.2.1 k q
  have h2 : iblk0 V c 2 t (ix2 (0 : Fin 1) q) = ((bc q : ℝ) : EReal) := hb.blk e.2.2.1 0 q (i := 0)
  rw [pay1_apply]
  simp only [h0, h1, h2]
  unfold lin0
  rw [EReal.coe_add, ← GG.coe_sum]
  simp only [EReal.coe_mul]

/-- A point's stored column slice holds its rows of those columns of the real product. -/
theorem out0_at {n : ℕ} (o : ℕ) (h : S2000x512.Slices ![0, o] ⟨2, ![2000, n]⟩) (col : Fin n → Fin 512)
    (hcol : ∀ q, (col q).val = o + q.val) (t : Fin cfg0.N) (p : Fin 2000) (q : Fin n) :
    extractStridedSlice ⟨2, ![2000, n]⟩ ![0, o] (k0_pay1 (iblk0 V c 0 t) (iblk0 V c 1 t) (iblk0 V c 2 t)) h (ix2 p q)
      = ((lin0 x wc bc ⟨_, ltb 2000 rfl t p⟩ (col q) : ℝ) : EReal) := by
  rw [extractStridedSlice_apply _ _ h (ix2 p q) (ix2 p (col q))
      (fun a => by match a with | ⟨0, _⟩ => exact (Nat.zero_add _).symm | ⟨1, _⟩ => exact hcol q),
    pay1_blocks V c hx hw hb]

omit hx hw hb in
/-- What a point writes back is its one store's payload: the loads and the store are of whole blocks. -/
theorem flushed0 (t : Fin cfg0.N) :
    (dat0 (F := Ideal) V c).flushed 3 t = k0_pay2 (iblk0 V c 0 t) (iblk0 V c 1 t) (iblk0 V c 2 t)
    ∧ (dat0 (F := Ideal) V c).flushed 4 t = k0_pay3 (iblk0 V c 0 t) (iblk0 V c 1 t) (iblk0 V c 2 t)
    ∧ (dat0 (F := Ideal) V c).flushed 5 t = k0_pay4 (iblk0 V c 0 t) (iblk0 V c 1 t) (iblk0 V c 2 t) := by
  unfold Dat.flushed
  rw [after0_3, after0_4, after0_5]
  unfold out0_3 out0_4 out0_5
  repeat rw [View.canon_unit_zero hz]
  repeat rw [View.ld_unit_zero hz]
  exact ⟨rfl, rfl, rfl⟩

theorem val0_3 : GG.IsR2 ((dat0 (F := Ideal) V c).arrAt 3 cfg0.N)
      (fun r (j : Fin 128) => (∑ k, x r k * wc k ⟨j.val, by omega⟩) + bc ⟨j.val, by omega⟩) := by
  refine isR2_of_rows win0_3.index (fun t => (idx_facts0 t).2.2.2.1) rfl (by decide) (fun t => (dat0 (F := Ideal) V c).flushed 3 t)
    (fun G hG hc => (dat0 (F := Ideal) V c).arrAt_eq_of_cover 3 G (fun t _ => hG t) fun i =>
      (hc i).imp fun t h => ⟨flush0_3 t, mem_slice_whole main_v11_0 h⟩) fun t p q => ?_
  rw [(flushed0 V c t).1]
  exact out0_at V c hx hw hb 0 slices_S2000x512_o0_0_S2000x128 (fun j => ⟨j.val, by omega⟩) (fun _ => (Nat.zero_add _).symm) t p q

theorem val0_4 : GG.IsR2 ((dat0 (F := Ideal) V c).arrAt 4 cfg0.N)
      (fun r (j : Fin 256) => (∑ k, x r k * wc k ⟨128 + j.val, by omega⟩) + bc ⟨128 + j.val, by omega⟩) := by
  refine isR2_of_rows win0_4.index (fun t => (idx_facts0 t).2.2.2.2.1) rfl (by decide) (fun t => (dat0 (F := Ideal) V c).flushed 4 t)
    (fun G hG hc => (dat0 (F := Ideal) V c).arrAt_eq_of_cover 4 G (fun t _ => hG t) fun i =>
      (hc i).imp fun t h => ⟨flush0_4 t, mem_slice_whole main_v11_1 h⟩) fun t p q => ?_
  rw [(flushed0 V c t).2.1]
  exact out0_at V c hx hw hb 128 slices_S2000x512_o0_128_S2000x256 (fun j => ⟨128 + j.val, by omega⟩) (fun _ => rfl) t p q

theorem val0_5 : GG.IsR2 ((dat0 (F := Ideal) V c).arrAt 5 cfg0.N)
      (fun r (j : Fin 128) => (∑ k, x r k * wc k ⟨384 + j.val, by omega⟩) + bc ⟨384 + j.val, by omega⟩) := by
  refine isR2_of_rows win0_5.index (fun t => (idx_facts0 t).2.2.2.2.2) rfl (by decide) (fun t => (dat0 (F := Ideal) V c).flushed 5 t)
    (fun G hG hc => (dat0 (F := Ideal) V c).arrAt_eq_of_cover 5 G (fun t _ => hG t) fun i =>
      (hc i).imp fun t h => ⟨flush0_5 t, mem_slice_whole main_v11_2 h⟩) fun t p q => ?_
  rw [(flushed0 V c t).2.2]
  exact out0_at V c hx hw hb 384 slices_S2000x512_o0_384_S2000x128 (fun j => ⟨384 + j.val, by omega⟩) (fun _ => rfl) t p q

end Arrays

end Cert.KernelIdeal.Hand

end
-- ==== Proof.KI.Chain0.lean ====
import proofs.«408522_j36180804502137_3_alg».proof.Proof.KI.Keep
import proofs.«408522_j36180804502137_3_alg».proof.Proof.KI.Inputs
import proofs.«408522_j36180804502137_3_alg».proof.Proof.KI.Host0
import proofs.«408522_j36180804502137_3_alg».proof.Proof.KI.Val0

set_option maxRecDepth 16384

noncomputable section

namespace Cert.KernelIdeal.Hand

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD) {P : GG.Params}

theorem kv1 (e : Fin 640000) :
    (W1 m c (Proc.devRef .tc main_v1) : IVec S640000 32) (ix1 e)
      = (m ((c.tc : Thread nD τ).loc main_arg1) : IVec S2x640000 32) (ix2 0 e) :=
  h0_v1 (W0 m c) e

theorem kv3 (e : Fin 640000) :
    (W1 m c (Proc.devRef .tc main_v3) : IVec S640000 32) (ix1 e)
      = (m ((c.tc : Thread nD τ).loc main_arg1) : IVec S2x640000 32) (ix2 1 e) :=
  h0_v3 (W0 m c) e

variable {m c} (hI : KInputs m c P)
include hI

-- Region 0 computes `x · wcat + bcat` from the node table and the concatenated weight and bias.
private theorem in0 : GG.IsR2 (V1 m c main_arg0) P.x ∧ GG.IsR2 (V1 m c main_v8) (GG.wcat P.WB P.WC P.Wv P.Wu) ∧
    GG.IsR2 (V1 m c main_v10) fun _ j => GG.bcat P.bB P.bC P.bv P.bu j :=
  ⟨hI.h0.of_eq (keep m c 0 1 main_arg0 (by decide)), h0_v8 (W0 m c) hI.h9 hI.h11 hI.h5 hI.h3,
    h0_v10 (W0 m c) hI.h10 hI.h12 hI.h6 hI.h4⟩

-- Columns `0 … 127` of the concatenation are the first matrix and bias.
theorem kv11_0 : GG.IsR2 (W2 m c (Proc.devRef .tc main_v11_0)) (GG.lin P.x P.WB P.bB) :=
  ((val0_3 (V1 m) c (in0 hI).1 (in0 hI).2.1 (in0 hI).2.2).congr <| funext fun r => funext fun j => by
    simp only [GG.lin, GG.wcat, GG.bcat, Fin.val_mk, dif_pos j.isLt, Fin.eta]).of_eq (W2_arr m c 3)

-- Columns `128 … 383` are the second and the third, side by side.
theorem kv11_1 : GG.IsR2 (W2 m c (Proc.devRef .tc main_v11_1)) (GG.cn P) :=
  ((val0_4 (V1 m) c (in0 hI).1 (in0 hI).2.1 (in0 hI).2.2).congr <| funext fun r => funext fun j => by
    have h1 : ¬ 128 + j.val < 128 := by omega
    by_cases hj : j.val < 128
    · simp only [GG.cn, GG.lin, GG.wcat, GG.bcat, Fin.val_mk, dif_pos hj, dif_neg h1,
        dif_pos (show 128 + j.val < 256 by omega), Nat.add_sub_cancel_left]
    · simp only [GG.cn, GG.Params.nv, GG.lin, GG.wcat, GG.bcat, Fin.val_mk, dif_neg hj, dif_neg h1,
        dif_neg (show ¬ 128 + j.val < 256 by omega), dif_pos (show 128 + j.val < 384 by omega),
        show 128 + j.val - 256 = j.val - 128 by omega]).of_eq (W2_arr m c 4)

-- Columns `384 … 511` are the fourth.
theorem kv11_2 : GG.IsR2 (W2 m c (Proc.devRef .tc main_v11_2)) (GG.lin P.x P.Wu P.bu) :=
  ((val0_5 (V1 m) c (in0 hI).1 (in0 hI).2.1 (in0 hI).2.2).congr <| funext fun r => funext fun j => by
    simp only [GG.lin, GG.wcat, GG.bcat, Fin.val_mk, dif_neg (show ¬ 384 + j.val < 128 by omega),
      dif_neg (show ¬ 384 + j.val < 256 by omega), dif_neg (show ¬ 384 + j.val < 384 by omega),
      Nat.add_sub_cancel_left, Fin.eta]).of_eq (W2_arr m c 5)

end Cert.KernelIdeal.Hand

end
-- ==== Proof.LibGatherRow.lean ====
import Idealize.ShloMosaic.PureOps.ShapeOps
import Idealize.ShloMosaic.Lib.ValueIdx

namespace Idealize.ShloMosaic.GatherRow

open Idealize.ShloMosaic Idealize.ShloMosaic.ValueIdx

variable {α : Type} {N K C w : Nat}

/-- Dimension numbers that take whole rows of an `[N, C]` table: axis 0 collapsed and start-indexed, axis 1 the offset axis. -/
abbrev rowTakeDims (N K C : Nat) (wf : GatherDims.WF ⟨2, ![N, C]⟩ ⟨2, ![K, 1]⟩ ⟨2, ![K, C]⟩ [1] [0] [] [0] [] 1 ![1, C]) : GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- A row take read at `(k, j)`, the start index `idx[k, 0]` inside the table: the row coordinate is the start index (the clamp does nothing), the column coordinate is `j`. -/
theorem gather_rowTake_apply_of_lt
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  obtain ⟨od, cd, ob, sb, sm, iv, ss, wf⟩ := d
  simp only at ho hc hb hsb hm hv hs
  subst ho hc hb hsb hm hv hs
  have h10 : (1 : Fin 2) ∉ [(0 : Fin 2)] := by decide
  unfold Host.gather
  congr 1
  funext a
  refine Fin.ext ?_
  match a with
  | ⟨0, _⟩ =>
    show (rowTakeDims N K C wf).start (ix2 k j) idx (0 : Fin 2) + (rowTakeDims N K C wf).batchCoord (ix2 k j) (0 : Fin 2)
      + (rowTakeDims N K C wf).offCoord (ix2 k j) (0 : Fin 2) = (idx (ix2 k (0 : Fin 1))).toInt.toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N K C wf).startIndexMap from List.mem_singleton.mpr rfl)]
    have hsi : (rowTakeDims N K C wf).siIdx (ix2 k j) ⟨List.idxOf (0 : Fin 2) (rowTakeDims N K C wf).startIndexMap,
        List.idxOf_lt_length_iff.2 (List.mem_singleton.mpr rfl)⟩ = ix2 k (0 : Fin 1) := by
      funext e; refine Fin.ext ?_
      match e with
      | ⟨0, _⟩ => rfl
      | ⟨1, _⟩ => rfl
    rw [hsi]
    exact (Nat.min_eq_left (by omega) : min (idx (ix2 k (0 : Fin 1))).toInt.toNat (N - 1) = _)
  | ⟨1, _⟩ =>
    show (rowTakeDims N K C wf).start (ix2 k j) idx (1 : Fin 2) + (rowTakeDims N K C wf).batchCoord (ix2 k j) (1 : Fin 2)
      + (rowTakeDims N K C wf).offCoord (ix2 k j) (1 : Fin 2) = j.val
    have hst : (rowTakeDims N K C wf).start (ix2 k j) idx (1 : Fin 2) = 0 := by
      unfold GatherDims.start
      rw [dif_neg (show ¬ (1 : Fin 2) ∈ (rowTakeDims N K C wf).startIndexMap from h10)]
    have hoff : (rowTakeDims N K C wf).offCoord (ix2 k j) (1 : Fin 2) = j.val := by
      unfold GatherDims.offCoord
      rw [dif_pos ((GatherDims.mem_sKept _ _).mpr ⟨h10, List.not_mem_nil⟩)]
      rfl
    rw [GatherDims.batchCoord_eq_zero _ _ _ List.not_mem_nil, hst, hoff, Nat.add_zero, Nat.zero_add]

end Idealize.ShloMosaic.GatherRow
-- ==== Proof.KI.Host1.lean ====
import proofs.«408522_j36180804502137_3_alg».proof.Proof.Gen.KernelIdeal.Launch
import proofs.«408522_j36180804502137_3_alg».proof.Proof.Spec
import proofs.«408522_j36180804502137_3_alg».proof.Proof.LibGatherRow
import Idealize.ShloMosaic.Lib.StableHlo.Run
import Idealize.ShloMosaic.Lib.Pipeline.Value
import Idealize.ShloMosaic.Lib.Affine
import Idealize.ShloMosaic.PureOps.Reduce

set_option maxRecDepth 16384

noncomputable section

namespace Cert.KernelIdeal.Hand

open Cert.KernelIdeal Cert.KernelIdeal.Gen Idealize.ShloMosaic Idealize.ShloMosaic.TcCoe Idealize.ShloMosaic.ValueIdx

namespace Take

theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

/-- `and` of ones is one, by induction on the list. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_one f l fun n hn => h n (List.mem_cons_of_mem _ hn)

section
variable {n N C : ℕ} {α : Type}
variable (b0 : S_.BroadcastsInDim ⟨1, ![n]⟩ (![] : Fin 0 → Fin 1))
  (b1 : (⟨1, ![n]⟩ : Shape).BroadcastsInDim ⟨2, ![n, 1]⟩ (![0] : Fin 1 → Fin 2))
  (b2 : S_.BroadcastsInDim ⟨2, ![n, 1]⟩ (![] : Fin 0 → Fin 2))
  (b3 : S1.BroadcastsInDim S1x1 (![1] : Fin 1 → Fin 2))
  (b4 : S1x1.BroadcastsInDim ⟨2, ![n, 1]⟩ (![0, 1] : Fin 2 → Fin 2))
  (hr : (⟨2, ![n, 1]⟩ : Shape).ReducesTo [1] ⟨1, ![n]⟩) (hu : 0 < S_.numel)
  (b5 : (⟨1, ![n]⟩ : Shape).BroadcastsInDim ⟨2, ![n, C]⟩ (![0] : Fin 1 → Fin 2))
  (b6 : S_.BroadcastsInDim ⟨2, ![n, C]⟩ (![] : Fin 0 → Fin 2))
  (d : GatherDims ⟨2, ![N, C]⟩ ⟨2, ![n, 1]⟩ ⟨2, ![n, C]⟩)
  (up top : BitVec 32)

/-- Negative index words shifted by `up`, the vector then made a column. -/
abbrev startCol (I : IVec ⟨1, ![n]⟩ 32) : IVec ⟨2, ![n, 1]⟩ 32 :=
  broadcastInDim ⟨2, ![n, 1]⟩ ![0] b1
    (select (cmpi .slt I (broadcastInDim ⟨1, ![n]⟩ ![] b0 (constantI S_ 32 0#32)))
      (addi I (broadcastInDim ⟨1, ![n]⟩ ![] b0 (constantI S_ 32 up))) I)

/-- One bit per position: the start word lies in `[0, top]`. -/
abbrev inRange (J : IVec ⟨2, ![n, 1]⟩ 32) : IVec ⟨1, ![n]⟩ 1 :=
  Host.reduce IntOp.andi
    (andi (cmpi .sge J (broadcastInDim ⟨2, ![n, 1]⟩ ![] b2 (constantI S_ 32 0#32)))
      (cmpi .sle J (broadcastInDim ⟨2, ![n, 1]⟩ ![0, 1] b4 (broadcastInDim S1x1 ![1] b3 (constantI S1 32 top)))))
    (constantI S_ 1 1#1) hr hu

/-- The gathered rows where that bit is set, `fill` elsewhere. -/
abbrev takeRows (X : (⟨2, ![N, C]⟩ : Shape).Idx → α) (I : IVec ⟨1, ![n]⟩ 32) (fill : S_.Idx → α) :
    (⟨2, ![n, C]⟩ : Shape).Idx → α :=
  select (broadcastInDim ⟨2, ![n, C]⟩ ![0] b5 (inRange b2 b3 b4 hr hu top (startCol b0 b1 up I)))
    (Host.gather d X (startCol b0 b1 up I))
    (broadcastInDim ⟨2, ![n, C]⟩ ![] b6 fill)

variable {b0 b1 b2 b3 b4 hr hu b5 b6 d up top}

/-- Broadcasting a vector along axis 0 of an `n × C` array keeps coordinate `e`. -/
theorem alongRows_apply {β : Type} {C : ℕ} (b : (⟨1, ![n]⟩ : Shape).BroadcastsInDim ⟨2, ![n, C]⟩ (![0] : Fin 1 → Fin 2))
    (v : (⟨1, ![n]⟩ : Shape).Idx → β) (e : Fin n) (j : Fin C) :
    broadcastInDim ⟨2, ![n, C]⟩ ![0] b v (ix2 e j) = v (ix1 e) :=
  broadcastInDim_apply _ b v _ (ix1 e) fun a => by
    obtain rfl : a = 0 := Subsingleton.elim _ _
    show e.val = if n = 1 then 0 else e.val
    split
    · have := e.isLt; omega
    · rfl

variable (I : IVec ⟨1, ![n]⟩ 32) (row : Fin n → Fin N) (hI : ∀ e, (I (ix1 e)).toInt = ((row e).val : ℤ))
include hI

/-- A word that reads as a natural number is not negative, so the select keeps it. -/
theorem startCol_apply (e : Fin n) : startCol b0 b1 up I (ix2 e (0 : Fin 1)) = I (ix1 e) := by
  unfold startCol
  rw [alongRows_apply]
  show Scalar.select (IntOp.cmpi .slt (I (ix1 e)) 0#32) _ _ = _
  rw [show IntOp.cmpi .slt (I (ix1 e)) 0#32 = 0#1 from eq_zero_of_ne_one fun h => by
    have := IntOp.cmpi_slt.mp h; have := hI e; have : (0#32 : BitVec 32).toInt = 0 := by decide
    omega, select_zero]

/-- Each word is between `0` and `N - 1 ≤ top`, so every conjunct under the reduction is one. -/
theorem inRange_apply (ht : ((N : ℤ) - 1) ≤ top.toInt) (e : Fin n) :
    inRange b2 b3 b4 hr hu top (startCol b0 b1 up I) (ix1 e) = 1#1 := by
  unfold inRange
  rw [Host.reduce_eq_foldl]
  refine foldl_andi_one _ _ fun i _ => ?_
  obtain ⟨p, q, rfl⟩ : ∃ (p : Fin n) (q : Fin 1), i = ix2 p q := ⟨i 0, i 1, eq_ix2 i⟩
  obtain rfl : q = 0 := Subsingleton.elim _ _
  have h0 : (0#32 : BitVec 32).toInt = 0 := by decide
  have := hI p; have := (row p).isLt
  show IntOp.andi (IntOp.cmpi .sge (startCol b0 b1 up I (ix2 p (0 : Fin 1))) 0#32)
    (IntOp.cmpi .sle (startCol b0 b1 up I (ix2 p (0 : Fin 1))) top) = 1#1
  rw [startCol_apply I row hI p, IntOp.cmpi_sge.mpr (by omega), IntOp.cmpi_sle.mpr (by omega)]
  decide

/-- The bit is one, the gather reads row `row e` unclamped, and the table holds `bx` there. -/
theorem takeRows_isR2 {X : (⟨2, ![N, C]⟩ : Shape).Idx → EReal} {fill : S_.Idx → EReal} {bx : Fin N → Fin C → ℝ}
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C]) (hX : GG.IsR2 X bx) (ht : ((N : ℤ) - 1) ≤ top.toInt) :
    GG.IsR2 (takeRows b0 b1 b2 b3 b4 hr hu b5 b6 d up top X I fill) (GG.rows bx row) := by
  intro e j
  have hw : (startCol b0 b1 up I (ix2 e (0 : Fin 1))).toInt = ((row e).val : ℤ) := by
    rw [startCol_apply I row hI e]; exact hI e
  have := (row e).isLt
  show Scalar.select (broadcastInDim ⟨2, ![n, C]⟩ ![0] b5 (inRange b2 b3 b4 hr hu top (startCol b0 b1 up I)) (ix2 e j))
    (Host.gather d X (startCol b0 b1 up I) (ix2 e j)) _ = _
  rw [alongRows_apply, inRange_apply I row hI ht e, select_one,
    GatherRow.gather_rowTake_apply_of_lt d ho hc hb hsb hm hv hs X _ e j (by omega) (by omega),
    show (⟨(startCol b0 b1 up I (ix2 e (0 : Fin 1))).toInt.toNat, by omega⟩ : Fin N) = row e from
      Fin.ext (by show (_ : ℤ).toNat = _; omega)]
  exact hX (row e) j

end

end Take

variable (Win : Valuation τ sig (Elt Ideal))

theorem h1_v12 {bx : Fin 50000 → Fin 128 → ℝ} {row : Fin 640000 → Fin 50000}
    (hbx : GG.IsR2 (Win (Proc.devRef .tc main_v11_0)) bx)
    (hrow : ∀ e : Fin 640000, (Win (Proc.devRef .tc main_v1) (ix1 e)).toInt = ((row e).val : ℤ)) :
    GG.IsR2 (StableHlo.after (hostOps1 (F := Ideal)) Win (Proc.devRef .tc main_v12)) (GG.rows bx row) := by
  after_results_simp
  simp only [Take.ofBuf_toBuf]
  simp only [StableHlo.TRef.ofBuf, cast_eq]
  exact Take.takeRows_isR2 _ row hrow rfl rfl rfl rfl rfl rfl rfl hbx (by decide)

end Cert.KernelIdeal.Hand

end
-- ==== Proof.KI.Host11.lean ====
import proofs.«408522_j36180804502137_3_alg».proof.Proof.KI.Host1

set_option maxRecDepth 16384

noncomputable section

namespace Cert.KernelIdeal.Hand

open Cert.KernelIdeal Cert.KernelIdeal.Gen Idealize.ShloMosaic Idealize.ShloMosaic.TcCoe Idealize.ShloMosaic.ValueIdx

theorem h11_v13 (Win : Valuation τ sig (Elt Ideal)) {cn : Fin 50000 → Fin 256 → ℝ} {col : Fin 640000 → Fin 50000}
    (hcn : GG.IsR2 (Win (Proc.devRef .tc main_v11_1)) cn)
    (hcol : ∀ e : Fin 640000, (Win (Proc.devRef .tc main_v3) (ix1 e)).toInt = ((col e).val : ℤ)) :
    GG.IsR2 (StableHlo.after (hostOps1_1 (F := Ideal)) Win (Proc.devRef .tc main_v13)) (GG.rows cn col) := by
  after_results_simp
  simp only [Take.ofBuf_toBuf]
  simp only [StableHlo.TRef.ofBuf, cast_eq]
  exact Take.takeRows_isR2 _ col hcol rfl rfl rfl rfl rfl rfl rfl hcn (by decide)

end Cert.KernelIdeal.Hand

end
-- ==== Proof.KI.HostLib.lean ====
import proofs.«408522_j36180804502137_3_alg».proof.Proof.Gen.KernelIdeal.Launch
import proofs.«408522_j36180804502137_3_alg».proof.Proof.Spec
import Idealize.ShloMosaic.Lib.StableHlo.Run
import Idealize.ShloMosaic.Lib.IdealHost
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.ShloMosaic.ValueIdx

/-- The cast to one row keeps the row-major position, which is the column. -/
theorem row_of_vec {A : S128.Idx → EReal} {B : S1x128.Idx → EReal} {a : Fin 128 → ℝ}
    (e : B = shapeCast S1x128 A shapeCasts_S128_S1x128) (h : GG.IsR1 A a) : GG.IsR2 (R := 1) (C := 128) B (fun _ j => a j) :=
  fun r j => by rw [e]; exact (shapeCast_a_1a_apply _ _ r j).trans (h j)

namespace Tile

variable {T R : ℕ} (c1 : (⟨2, ![R, 128]⟩ : Shape).ShapeCasts ⟨3, ![T, 8, 128]⟩)
  (c2 : (⟨3, ![T, 1, 128]⟩ : Shape).ShapeCasts ⟨2, ![T, 128]⟩)
  (hr : (⟨2, ![T, 128]⟩ : Shape).ReducesTo [0] S128) (w : BitVec 32)

/-- Row `o` of each of the `T` tiles of eight rows of `X`, summed over the tiles, as a row, divided by the literal `w`. -/
abbrev rowMean (o : ℕ) (hs : (⟨3, ![T, 8, 128]⟩ : Shape).Slices ![0, o, 0] ⟨3, ![T, 1, 128]⟩)
    (X : (⟨2, ![R, 128]⟩ : Shape).Idx → EReal) : S1x128.Idx → EReal :=
  Host.divf (F := Ideal) (φ := .f32)
    (broadcastInDim S1x128 ![1] bcast_S128_S1x128_1
      (Host.reduceAdd (F := Ideal) (φ := .f32)
        (shapeCast ⟨2, ![T, 128]⟩ (extractStridedSlice ⟨3, ![T, 1, 128]⟩ ![0, o, 0] (shapeCast ⟨3, ![T, 8, 128]⟩ X c1) hs) c2)
        (constant (F := Ideal) S_ .f32 0x00000000#32) hr h_S_))
    (broadcastInDim S1x128 ![] bcast_S_S1x128 (constant (F := Ideal) S_ .f32 w))

variable {c1 c2 hr w} (hRT : R = 8 * T) (hR : (⟨2, ![T, 128]⟩ : Shape).Reduces [0] S128)
  {N : ℝ} (hw : Ideal.ofBits .f32 w = ((N : ℝ) : EReal)) (hN : N ≠ 0)
  {X : (⟨2, ![R, 128]⟩ : Shape).Idx → EReal} {st : Fin R → Fin 128 → ℝ} (hst : GG.IsR2 X st)
include hRT hR hw hN hst

/-- The two casts keep the row-major position and the cut reads row `o` of tile `t`, so entry `(r, j)` is a real quotient. -/
theorem rowMean_apply {o : ℕ} (ho : o < 8) (hs : (⟨3, ![T, 8, 128]⟩ : Shape).Slices ![0, o, 0] ⟨3, ![T, 1, 128]⟩)
    (r : Fin 1) (j : Fin 128) :
    rowMean c1 c2 hr w o hs X (ix2 r j) = (((∑ t : Fin T, st ⟨8 * t.val + o, by omega⟩ j) / N : ℝ) : EReal) := by
  show Ideal.div (broadcastInDim S1x128 ![1] bcast_S128_S1x128_1 (_ : S128.Idx → EReal) (ix2 r j))
      (broadcastInDim S1x128 ![] bcast_S_S1x128 (constant (F := Ideal) S_ .f32 w) (ix2 r j)) = _
  rw [broadcastInDim_scalar_apply, constant_apply, hw,
    broadcastInDim_apply _ bcast_S128_S1x128_1 _ _ (ix1 j) (fun a => by match a with | ⟨0, _⟩ => rfl),
    hostReduceAdd_apply, Ideal.hostReduceAdd_single hr hR, constant_apply, Ideal.ofBits_zero_f32, zero_add]
  refine (congrArg (Ideal.div · (N : EReal)) ((Finset.sum_congr rfl fun t _ => ?_).trans (GG.coe_sum _ _))).trans
    (GG.div_coe_coe _ hN)
  have ht : t.val < T := t.isLt
  refine (shapeCast_apply _ c2 _ (ix3 (⟨t.val, ht⟩ : Fin T) (0 : Fin 1) j) ?_).trans ?_
  · rw [Shape.rowMajor_val_three, Shape.rowMajor_val_two]
    show (t.val * 1 + 0) * 128 + j.val = t.val * 128 + j.val
    omega
  refine (slice3_axis1_apply o _ hs (⟨t.val, ht⟩ : Fin T) (0 : Fin 1) j (⟨o, ho⟩ : Fin 8) (by simp)).trans ?_
  refine (shapeCast_apply X c1 _ (ix2 (⟨8 * t.val + o, by omega⟩ : Fin R) j) ?_).trans (hst _ _)
  rw [Shape.rowMajor_val_two, Shape.rowMajor_val_three]
  show (8 * t.val + o) * 128 + j.val = (t.val * 8 + o) * 128 + j.val
  omega

/-- Row 1's mean minus the square of row 0's mean, cut below at zero, is that expression of the real quotients. -/
theorem rowVar_apply (h0 : (⟨3, ![T, 8, 128]⟩ : Shape).Slices ![0, 0, 0] ⟨3, ![T, 1, 128]⟩)
    (h1 : (⟨3, ![T, 8, 128]⟩ : Shape).Slices ![0, 1, 0] ⟨3, ![T, 1, 128]⟩) (r : Fin 1) (j : Fin 128) :
    maximumf (F := Ideal) (φ := .f32)
      (subf (rowMean c1 c2 hr w 1 h1 X) (mulf (rowMean c1 c2 hr w 0 h0 X) (rowMean c1 c2 hr w 0 h0 X)))
      (broadcastInDim S1x128 ![] bcast_S_S1x128 (constant (F := Ideal) S_ .f32 0x00000000#32)) (ix2 r j) = ((max ((∑ t : Fin T, st ⟨8 * t.val + 1, by omega⟩ j) / N
      - (∑ t : Fin T, st ⟨8 * t.val, by omega⟩ j) / N * ((∑ t : Fin T, st ⟨8 * t.val, by omega⟩ j) / N)) 0 : ℝ) : EReal) := by
  rw [maximumf_apply, subf_apply, mulf_apply, broadcastInDim_scalar_apply, constant_apply, Ideal.ofBits_zero_f32,
    rowMean_apply hRT hR hw hN hst (by omega) h1, rowMean_apply hRT hR hw hN hst (by omega) h0,
    ← EReal.coe_mul, ← EReal.coe_sub]
  exact GG.max_coe _ 0

end Tile

end Cert.KernelIdeal.Hand

end
-- ==== Proof.KI.Host12.lean ====
import proofs.«408522_j36180804502137_3_alg».proof.Proof.KI.HostLib

noncomputable section

namespace Cert.KernelIdeal.Hand

open Cert.KernelIdeal Cert.KernelIdeal.Gen Idealize.ShloMosaic Idealize.ShloMosaic.TcCoe Idealize.ShloMosaic.ValueIdx

variable (Win : Valuation τ sig (Elt Ideal))

theorem h12_v14 {WA : Fin 128 → Fin 128 → ℝ} (h7 : GG.IsR2 (R := 128) (C := 128) (Win (Proc.devRef .tc main_arg7)) WA) :
    GG.IsR2 (R := 128) (C := 128) (StableHlo.after hostOps1_2 Win (Proc.devRef .tc main_v14)) (fun k j => WA j k) := by
  intro k j
  after_results
  exact (transpose_ix2_apply _ _ k j).trans (h7 j k)

theorem h12_v15 {bA : Fin 128 → ℝ} (h8 : GG.IsR1 (C := 128) (Win (Proc.devRef .tc main_arg8)) bA) :
    GG.IsR2 (R := 1) (C := 128) (StableHlo.after hostOps1_2 Win (Proc.devRef .tc main_v15)) (fun _ j => bA j) :=
  row_of_vec (by after_results; rfl) h8

end Cert.KernelIdeal.Hand

end
-- ==== Proof.KI.Val1.lean ====
/- Region 1 at the exact-real instance: on real inputs the edge array holds the real edge pre-activation and the statistics array its column sums and sums of squares, 8 rows a block of 4000 edges. -/
import proofs.«408522_j36180804502137_3_alg».proof.Proof.KI.Region1
import proofs.«408522_j36180804502137_3_alg».proof.Proof.KI.Rows
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem prod1_apply (a : FVec Ideal S4000x128 .bf16) (b : FVec Ideal S128x128 .bf16) (p : Fin 4000) (q : Fin 128) :
    FloatOps.matmul dot_S4000x128_S128x128_S4000x128_1_0_0_1_n_n none a b (constant S4000x128 .f32 0x00000000#32) (ix2 p q)
      = ∑ k : Fin 128, a (ix2 p k) * b (ix2 k q) :=
  matmul_plain_apply a b p q

section Pay
variable (v0 : Vec Ideal S4000x128 .f32) (v2 : Vec Ideal S128x128 .f32) (v6 : Vec Ideal S4000x128 .f32)
  (v8 : Vec Ideal S1x128 .f32) (v12 : Vec Ideal S4000x128 .f32)

/-- The first payload: the product's sum, plus the row vector's entry, plus the two row blocks' entries, in this order. -/
theorem p1_pay1_apply (p : Fin 4000) (q : Fin 128) :
    k1_pay1 (F := Ideal) v0 v2 v6 v8 v12 (ix2 p q)
      = (((∑ k : Fin 128, v0 (ix2 p k) * v2 (ix2 k q)) + v8 (ix2 0 q)) + v12 (ix2 p q)) + v6 (ix2 p q) := by
  unfold k1_pay1
  simp only [shapeCast_self, addf_apply, matmul]
  rw [prod1_apply, bcast_row]
  simp only [truncf_apply]

/-- The fourth payload is zero. -/
theorem p1_pay4_apply (i : S6x128.Idx) : k1_pay4 (F := Ideal) i = 0 := Ideal.ofBits_zero_f32

end Pay

/-- The edge pre-activation: row `e` of the edge table times the weight, plus the bias, plus the two gathered tables' entries. -/
def GG1.ein (ea : Fin 640000 → Fin 128 → ℝ) (wa : Fin 128 → Fin 128 → ℝ) (ba : Fin 128 → ℝ) (bxr : Fin 640000 → Fin 128 → ℝ)
    (cnc : Fin 640000 → Fin 256 → ℝ) : Fin 640000 → Fin 128 → ℝ :=
  fun e j => (((∑ k, ea e k * wa k j) + ba j) + bxr e j) + cnc e ⟨j.val, by omega⟩

/-- The column statistics, 8 rows a block of 4000 edges: row 0 the column sums, row 1 those of the squares, the rest zero. -/
def GG1.stat (h : Fin 640000 → Fin 128 → ℝ) : Fin 1280 → Fin 128 → ℝ :=
  fun r j => if r.val % 8 = 0 then ∑ p : Fin 4000, h ⟨4000 * (r.val / 8) + p.val, by omega⟩ j
    else if r.val % 8 = 1 then ∑ p : Fin 4000, h ⟨4000 * (r.val / 8) + p.val, by omega⟩ j * h ⟨4000 * (r.val / 8) + p.val, by omega⟩ j
    else 0

/-- The row-block windows (0, 3, 4, 5, 6) are at block `(t, 0)`, the weight and the row vector (1, 2) at `(0, 0)`. -/
theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

section Value

variable (V : (c : Dev nD) → (b : Ref sig .tc) → Buf (Elt Ideal) ((c : Thread nD τ).loc b)) (c : Dev nD)
  {ea : Fin 640000 → Fin 128 → ℝ} {wa : Fin 128 → Fin 128 → ℝ} {ba : Fin 128 → ℝ} {bxr : Fin 640000 → Fin 128 → ℝ} {cnc : Fin 640000 → Fin 256 → ℝ}
  (hea : GG.IsR2 (R := 640000) (C := 128) (V c main_arg2) ea) (hwa : GG.IsR2 (R := 128) (C := 128) (V c main_v14) wa)
  (hba : GG.IsR2 (R := 1) (C := 128) (V c main_v15) (fun _ j => ba j)) (hbx : GG.IsR2 (R := 640000) (C := 128) (V c main_v12) bxr)
  (hcn : GG.IsR2 (R := 640000) (C := 256) (V c main_v13) cnc)
include hea hwa hba hbx hcn

/-- On the blocks of point `t` the first payload is the pre-activation of row `4000 t + p`: sums and products of reals taken in the extended reals are the reals'. -/
theorem pay1_blocks1 (t : Fin cfg1.N) (p : Fin 4000) (q : Fin 128) :
    k1_pay1 (F := Ideal) (iblk1 V c 0 t) (iblk1 V c 1 t) (iblk1 V c 4 t) (iblk1 V c 2 t) (iblk1 V c 3 t) (ix2 p q)
      = ((GG1.ein ea wa ba bxr cnc ⟨_, ltb 4000 rfl t p⟩ q : ℝ) : EReal) := by
  have e := idx_facts1 t
  have h0 : ∀ k, iblk1 V c 0 t (ix2 p k) = ((ea ⟨_, ltb 4000 rfl t p⟩ k : ℝ) : EReal) := fun k => hea.blk e.1 p k
  have h1 : ∀ k, iblk1 V c 1 t (ix2 k q) = ((wa k q : ℝ) : EReal) := fun k => hwa.blk e.2.1 k q
  have h2 : iblk1 V c 2 t (ix2 0 q) = ((ba q : ℝ) : EReal) := hba.blk e.2.2.1 0 q (i := 0)
  have h3 : iblk1 V c 3 t (ix2 p q) = ((bxr ⟨_, ltb 4000 rfl t p⟩ q : ℝ) : EReal) := hbx.blk e.2.2.2.1 p q
  have h4 : iblk1 V c 4 t (ix2 p q) = ((cnc ⟨_, ltb 4000 rfl t p⟩ ⟨q.val, by omega⟩ : ℝ) : EReal) := hcn.blk e.2.2.2.2.1 p q (hc := Nat.zero_add _)
  rw [p1_pay1_apply, h2, h3, h4]
  simp only [h0, h1, ← EReal.coe_mul]
  rw [GG.coe_sum, ← EReal.coe_add, ← EReal.coe_add, ← EReal.coe_add]
  rfl

theorem val1_5 : GG.IsR2 (R := 640000) (C := 128) ((dat1 (F := Ideal) V c).arrAt 5 cfg1.N) (GG1.ein ea wa ba bxr cnc) := by
  refine isR2_of_rows win1_5.index (fun t => (idx_facts1 t).2.2.2.2.2.1) rfl (by decide) (fun t => (dat1 (F := Ideal) V c).flushed 5 t)
    (fun G hG hc => (dat1 (F := Ideal) V c).arrAt_eq_of_cover 5 G (fun t _ => hG t) fun i =>
      (hc i).imp fun t h => ⟨flush1_5 t, mem_slice_whole main_v16_0 h⟩) fun t p q => ?_
  unfold Dat.flushed
  rw [after1_5]
  unfold out1_5
  rw [View.canon_unit_zero hz]
  repeat rw [View.ld_unit_zero hz]
  exact pay1_blocks1 V c hea hwa hba hbx hcn t p q

theorem val1_6 : GG.IsR2 (R := 1280) (C := 128) ((dat1 (F := Ideal) V c).arrAt 6 cfg1.N)
      (fun (r : Fin 1280) j => if r.val % 8 = 0 then ∑ p : Fin 4000, GG1.ein ea wa ba bxr cnc ⟨4000 * (r.val / 8) + p.val, by omega⟩ j
        else if r.val % 8 = 1 then ∑ p : Fin 4000, GG1.ein ea wa ba bxr cnc ⟨4000 * (r.val / 8) + p.val, by omega⟩ j
          * GG1.ein ea wa ba bxr cnc ⟨4000 * (r.val / 8) + p.val, by omega⟩ j
        else 0) := by
  refine isR2_of_ofR2 (a := stat8 (N := 160) 4000 rfl (GG1.ein ea wa ba bxr cnc))
    ((dat1 (F := Ideal) V c).arrAt_eq_of_cover 6 _ (fun t _ => funext fun y => ?_) fun i =>
      (cover_rows win1_6.index (fun t => (idx_facts1 t).2.2.2.2.2.2) (by decide) (by decide) i).imp
        fun t h => ⟨flush1_6 t, mem_slice_whole main_v16_1 h⟩)
  have h1 := pay1_blocks1 V c hea hwa hba hbx hcn t
  unfold Dat.flushed
  rw [after1_6]
  unfold out1_6
  repeat rw [View.ld_unit_zero hz]
  refine canon_stat8 4000 rfl _ t (idx_facts1 t).2.2.2.2.2.2 _ _ _ p1_pay4_apply (fun q => ?_) (fun q => ?_) y (cover1_6 _ _ _ y)
  · refine (colsum_apply _ _ _ q).trans ?_
    simp only [mulf_apply, h1, ← EReal.coe_mul]
    rw [GG.coe_sum]
    rfl
  · refine (colsum_apply _ _ _ q).trans ?_
    simp only [h1]
    rw [GG.coe_sum]
    rfl

end Value

end Cert.KernelIdeal.Hand

end
-- ==== Proof.KI.Chain1.lean ====
import proofs.«408522_j36180804502137_3_alg».proof.Proof.KI.Keep
import proofs.«408522_j36180804502137_3_alg».proof.Proof.KI.Inputs
import proofs.«408522_j36180804502137_3_alg».proof.Proof.KI.Host1
import proofs.«408522_j36180804502137_3_alg».proof.Proof.KI.Host11
import proofs.«408522_j36180804502137_3_alg».proof.Proof.KI.Host12
import proofs.«408522_j36180804502137_3_alg».proof.Proof.KI.Val1

noncomputable section

namespace Cert.KernelIdeal.Hand

open Cert.KernelIdeal Cert.KernelIdeal.Gen Idealize.ShloMosaic Idealize.ShloMosaic.TcCoe Idealize.ShloMosaic.ValueIdx
open scoped BigOperators

variable {m : (ℓ : Loc nD τ sig) → Buf (Elt Ideal) ℓ} {c : Dev nD} {P : GG.Params}

-- The transposed weight read back; column `j < 128` of the side-by-side table is the second endpoint's image.
theorem ein_eq : GG1.ein P.ea (fun k j => P.WA j k) P.bA (GG.rows (GG.lin P.x P.WB P.bB) P.row) (GG.rows (GG.cn P) P.col) = P.ein := by
  funext e j
  simp only [GG1.ein, GG.Params.ein, GG.edgeIn, GG.rows, GG.cn, GG.lin, dif_pos j.isLt, Fin.eta]

variable (hI : KInputs m c P)
  (h0 : GG.IsR2 (W2 m c (Proc.devRef .tc main_v11_0)) (GG.lin P.x P.WB P.bB))
  (h1 : GG.IsR2 (W2 m c (Proc.devRef .tc main_v11_1)) (GG.cn P))
  (hr : ∀ e : Fin 640000, W1 m c (Proc.devRef .tc main_v1) (ix1 e) = m ((c.tc : Thread nD τ).loc main_arg1) (ix2 0 e))
  (hc : ∀ e : Fin 640000, W1 m c (Proc.devRef .tc main_v3) (ix1 e) = m ((c.tc : Thread nD τ).loc main_arg1) (ix2 1 e))

include hI h0 hr in
-- The first gather: region 0 does not write the row of first endpoints.
theorem kv12 : GG.IsR2 (W3 m c (Proc.devRef .tc main_v12)) (GG.rows (GG.lin P.x P.WB P.bB) P.row) :=
  h1_v12 (W2 m c) h0 fun e =>
    (congrArg _ ((congrFun (keep m c 1 1 main_v1 (by decide)) (ix1 e)).trans (hr e))).trans (hI.hrow e)

include hI h1 hc in
-- The second gather: neither region 0 nor the first gather writes the row of second endpoints or the table.
theorem kv13 : GG.IsR2 (W4 m c (Proc.devRef .tc main_v13)) (GG.rows (GG.cn P) P.col) :=
  h11_v13 (W3 m c) (h1.of_eq (keep m c 2 1 main_v11_1 (by decide))) fun e =>
    (congrArg _ ((congrFun (keep m c 1 2 main_v3 (by decide)) (ix1 e)).trans (hc e))).trans (hI.hcol e)

include hI h0 h1 hr hc

-- Region 1's five inputs hold the layer's arrays (the arguments among them as launched), so its expression is the edge pre-activation.
private theorem out1 {R : ℕ} {A : (⟨2, ![R, 128]⟩ : Shape).Idx → EReal} (a : (Fin 640000 → Fin 128 → ℝ) → Fin R → Fin 128 → ℝ)
    (hv : ∀ {ea wa ba bxr cnc}, GG.IsR2 (V5 m c main_arg2) ea → GG.IsR2 (V5 m c main_v14) wa →
      GG.IsR2 (V5 m c main_v15) (fun _ j => ba j) → GG.IsR2 (V5 m c main_v12) bxr → GG.IsR2 (V5 m c main_v13) cnc →
      GG.IsR2 A (a (GG1.ein ea wa ba bxr cnc))) : GG.IsR2 A (a P.ein) :=
  (hv (hI.h2.of_eq (keep m c 0 5 main_arg2 (by decide)))
    (h12_v14 (W4 m c) (hI.h7.of_eq (keep m c 0 4 main_arg7 (by decide))))
    (h12_v15 (W4 m c) (hI.h8.of_eq (keep m c 0 4 main_arg8 (by decide))))
    ((kv12 hI h0 hr).of_eq (keep m c 3 2 main_v12 (by decide)))
    ((kv13 hI h1 hc).of_eq (keep m c 4 1 main_v13 (by decide)))).congr (congrArg a ein_eq)

theorem kv16_0 : GG.IsR2 (W6 m c (Proc.devRef .tc main_v16_0)) P.ein :=
  (out1 hI h0 h1 hr hc (fun h => h) (val1_5 (V5 m) c)).of_eq (W6_arr m c 5)

theorem kv16_1 : GG.IsR2 (W6 m c (Proc.devRef .tc main_v16_1)) (GG.stats640k P.ein) :=
  (out1 hI h0 h1 hr hc GG.stats640k (val1_6 (V5 m) c)).of_eq (W6_arr m c 6)

end Cert.KernelIdeal.Hand

end
-- ==== Proof.KI.Host2.lean ====
import proofs.«408522_j36180804502137_3_alg».proof.Proof.KI.HostLib

noncomputable section

open scoped BigOperators

namespace GG

def tileMeanE (st : Fin 1280 → Fin 128 → ℝ) : Fin 128 → ℝ :=
  fun j => (∑ t : Fin 160, st ⟨8 * t.val, by omega⟩ j) / 640000

end GG

namespace Cert.KernelIdeal.Hand

open Cert.KernelIdeal Cert.KernelIdeal.Gen Idealize.ShloMosaic Idealize.ShloMosaic.TcCoe Idealize.ShloMosaic.ValueIdx

variable (Win : Valuation τ sig (Elt Ideal))

theorem h2_v27 {st : Fin 1280 → Fin 128 → ℝ} (hst : GG.IsR2 (Win (Proc.devRef .tc main_v16_1)) st)
    (hN : Ideal.ofBits .f32 0x491C4000#32 = ((640000 : ℝ) : EReal)) :
    GG.IsR2 (R := 1) (C := 128) (StableHlo.after hostOps2 Win (Proc.devRef .tc main_v27)) (fun _ j => GG.tileMeanE st j) := by
  intro r j
  after_results
  exact Tile.rowMean_apply (T := 160) rfl (by decide) hN (by norm_num) hst (by omega) _ r j

theorem h2_v33 {st : Fin 1280 → Fin 128 → ℝ} (hst : GG.IsR2 (Win (Proc.devRef .tc main_v16_1)) st)
    (hN : Ideal.ofBits .f32 0x491C4000#32 = ((640000 : ℝ) : EReal)) :
    GG.IsR2 (R := 1) (C := 128) (StableHlo.after hostOps2 Win (Proc.devRef .tc main_v33))
      (fun _ j => max ((∑ t : Fin 160, st ⟨8 * t.val + 1, by omega⟩ j) / 640000 - GG.tileMeanE st j * GG.tileMeanE st j) 0) := by
  intro r j
  after_results_simp
  exact Tile.rowVar_apply (T := 160) rfl (by decide) hN (by norm_num) hst _ _ r j

theorem h2_v34 {γ : Fin 128 → ℝ} (h15 : GG.IsR1 (Win (Proc.devRef .tc main_arg15)) γ) :
    GG.IsR2 (R := 1) (C := 128) (StableHlo.after hostOps2 Win (Proc.devRef .tc main_v34)) (fun _ j => γ j) :=
  row_of_vec (by after_results; rfl) h15

theorem h2_v35 {β : Fin 128 → ℝ} (h16 : GG.IsR1 (Win (Proc.devRef .tc main_arg16)) β) :
    GG.IsR2 (R := 1) (C := 128) (StableHlo.after hostOps2 Win (Proc.devRef .tc main_v35)) (fun _ j => β j) :=
  row_of_vec (by after_results; rfl) h16

end Cert.KernelIdeal.Hand

end
-- ==== Proof.KI.Val2.lean ====
/- Region 2 at the exact-real instance: on real inputs the first output array holds the edge table plus the normalised, scaled, shifted pre-activation cut below at zero, the second the logistic of that times the gathered table's last 128 columns. -/
import proofs.«408522_j36180804502137_3_alg».proof.Proof.KI.Region2
import proofs.«408522_j36180804502137_3_alg».proof.Proof.KI.Rows
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

section Pay
variable (v0 : Vec Ideal S4000x128 .f32) (v2 v7 v9 v17 : Vec Ideal S1x128 .f32) (v23 v27 : Vec Ideal S4000x128 .f32)
  (p : Fin 4000) (q : Fin 128)

theorem k2_pay1_apply :
    k2_pay1 v0 v2 v7 v9 v17 v23 (ix2 p q)
      = v23 (ix2 p q) + max (v7 (ix2 0 q) * (v0 (ix2 p q) - v9 (ix2 0 q))
          * Ideal.rsqrt (v2 (ix2 0 q) + Ideal.ofBits .f32 0x3727C5AC#32) + v17 (ix2 0 q)) (Ideal.ofBits .f32 0x00000000#32) := by
  unfold k2_pay1
  simp only [shapeCast_self]
  rw [addf_apply, maximumf_apply, addf_apply, mulf_apply, mulf_apply, subf_apply, bcast_row, bcast_row,
    bcast_row, bcast_row, rsqrt_apply, addf_apply]
  rfl

theorem k2_pay2_apply :
    k2_pay2 v0 v2 v7 v9 v17 v23 v27 (ix2 p q) = Ideal.logistic (k2_pay1 v0 v2 v7 v9 v17 v23 (ix2 p q)) * v27 (ix2 p q) := by
  unfold k2_pay2
  simp only [shapeCast_self]
  rfl

/-- On real entries the first payload is the real expression: the extended reals' operations on reals are the reals'. -/
theorem k2_pay1_coe {e0 e1 m s g b ε : ℝ}
    (h23 : v23 (ix2 p q) = ((e0 : ℝ) : EReal)) (h0 : v0 (ix2 p q) = ((e1 : ℝ) : EReal))
    (h9 : v9 (ix2 0 q) = ((m : ℝ) : EReal)) (h2 : v2 (ix2 0 q) = ((s : ℝ) : EReal))
    (h7 : v7 (ix2 0 q) = ((g : ℝ) : EReal)) (h17 : v17 (ix2 0 q) = ((b : ℝ) : EReal))
    (hε : Ideal.ofBits .f32 0x3727C5AC#32 = ((ε : ℝ) : EReal)) (hpos : 0 < s + ε) :
    k2_pay1 v0 v2 v7 v9 v17 v23 (ix2 p q)
      = ((e0 + max (g * (e1 - m) * (Real.sqrt (s + ε))⁻¹ + b) 0 : ℝ) : EReal) := by
  rw [k2_pay1_apply, h23, h0, h9, h2, h7, h17, hε, Ideal.ofBits_zero_f32, ← EReal.coe_add, GG.rsqrt_coe_pos hpos,
    ← EReal.coe_sub, ← EReal.coe_mul, ← EReal.coe_mul, ← EReal.coe_add, ← EReal.coe_zero, GG.max_coe, ← EReal.coe_add]

theorem k2_pay2_coe {y n : ℝ}
    (h1 : k2_pay1 v0 v2 v7 v9 v17 v23 (ix2 p q) = ((y : ℝ) : EReal)) (h27 : v27 (ix2 p q) = ((n : ℝ) : EReal)) :
    k2_pay2 v0 v2 v7 v9 v17 v23 v27 (ix2 p q) = ((GG.sigm y * n : ℝ) : EReal) := by
  rw [k2_pay2_apply, h1, h27, Ideal.logistic_coe, ← EReal.coe_mul, GG.sigm, one_div]

end Pay

variable (V : (c : Dev nD) → (b : Ref sig .tc) → Buf (Elt Ideal) ((c : Thread nD τ).loc b))

/-- Windows 0, 1, 7 and 8 are at block `(t, 0)`, window 6 at `(t, 1)`, the row vectors at `(0, 0)`. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 1)
    ∧ (win2_7.index t (0 : Fin 2) = t.val ∧ win2_7.index t (1 : Fin 2) = 0)
    ∧ (win2_8.index t (0 : Fin 2) = t.val ∧ win2_8.index t (1 : Fin 2) = 0) :=
  (by decide +kernel : ∀ t : Fin grid2.N, _)

section
variable (c : Dev nD) {ea ein : Fin 640000 → Fin 128 → ℝ} {mu vr γ β : Fin 128 → ℝ} {cnc : Fin 640000 → Fin 256 → ℝ} {ε : ℝ}
  (hea : GG.IsR2 (V c main_arg2) ea) (hein : GG.IsR2 (V c main_v16_0) ein) (hmu : GG.IsR2 (V c main_v27) (fun _ j => mu j))
  (hvr : GG.IsR2 (V c main_v33) (fun _ j => vr j)) (hvr0 : ∀ j, 0 ≤ vr j) (hγ : GG.IsR2 (V c main_v34) (fun _ j => γ j))
  (hβ : GG.IsR2 (V c main_v35) (fun _ j => β j)) (hcn : GG.IsR2 (V c main_v13) cnc)
  (hε : Ideal.ofBits .f32 0x3727C5AC#32 = ((ε : ℝ) : EReal)) (hε0 : 0 < ε)
include hea hein hmu hvr hvr0 hγ hβ hε hε0

/-- On the blocks of point `t` the first payload is the real value at row `4000 t + p`. -/
theorem pay1_blocks2 (t : Fin cfg2.N) (p : Fin 4000) (q : Fin 128) :
    k2_pay1 (iblk2 V c 1 t) (iblk2 V c 3 t) (iblk2 V c 4 t) (iblk2 V c 2 t) (iblk2 V c 5 t) (iblk2 V c 0 t) (ix2 p q)
      = ((ea ⟨_, ltb 4000 rfl t p⟩ q + max (γ q * (ein ⟨_, ltb 4000 rfl t p⟩ q - mu q)
          * (Real.sqrt (vr q + ε))⁻¹ + β q) 0 : ℝ) : EReal) :=
  have e := idx_facts2 t
  k2_pay1_coe _ _ _ _ _ _ p q (hea.blk e.1 p q (i := ⟨_, ltb 4000 rfl t p⟩) (j := q))
    (hein.blk e.2.1 p q (i := ⟨_, ltb 4000 rfl t p⟩) (j := q)) (hmu.blk e.2.2.1 0 q (i := 0) (j := q))
    (hvr.blk e.2.2.2.1 0 q (i := 0) (j := q)) (hγ.blk e.2.2.2.2.1 0 q (i := 0) (j := q))
    (hβ.blk e.2.2.2.2.2.1 0 q (i := 0) (j := q)) hε (add_pos_of_nonneg_of_pos (hvr0 q) hε0)

theorem val2_7 : GG.IsR2 ((dat2 (F := Ideal) V c).arrAt 7 cfg2.N)
      (fun e j => ea e j + max (γ j * (ein e j - mu j) * (Real.sqrt (vr j + ε))⁻¹ + β j) 0) := by
  refine isR2_of_rows win2_7.index (fun t => (idx_facts2 t).2.2.2.2.2.2.2.1) rfl (by decide) (fun t => (dat2 (F := Ideal) V c).flushed 7 t)
    (fun G hG hc => (dat2 (F := Ideal) V c).arrAt_eq_of_cover 7 G (fun t _ => hG t) fun i =>
      (hc i).imp fun t h => ⟨flush2_7 t, mem_slice_whole main_v36_0 h⟩) fun t p q => ?_
  unfold Dat.flushed
  rw [after2_7]
  unfold out2_7
  rw [View.canon_unit_zero hz]
  repeat rw [View.ld_unit_zero hz]
  exact pay1_blocks2 V c hea hein hmu hvr hvr0 hγ hβ hε hε0 t p q

include hcn in
theorem val2_8 : GG.IsR2 ((dat2 (F := Ideal) V c).arrAt 8 cfg2.N)
      (fun e j => GG.sigm (ea e j + max (γ j * (ein e j - mu j) * (Real.sqrt (vr j + ε))⁻¹ + β j) 0) * cnc e ⟨128 + j.val, by omega⟩) := by
  refine isR2_of_rows win2_8.index (fun t => (idx_facts2 t).2.2.2.2.2.2.2.2) rfl (by decide) (fun t => (dat2 (F := Ideal) V c).flushed 8 t)
    (fun G hG hc => (dat2 (F := Ideal) V c).arrAt_eq_of_cover 8 G (fun t _ => hG t) fun i =>
      (hc i).imp fun t h => ⟨flush2_8 t, mem_slice_whole main_v36_1 h⟩) fun t p q => ?_
  unfold Dat.flushed
  rw [after2_8]
  unfold out2_8
  rw [View.canon_unit_zero hz]
  repeat rw [View.ld_unit_zero hz]
  exact k2_pay2_coe _ _ _ _ _ _ _ p q (pay1_blocks2 V c hea hein hmu hvr hvr0 hγ hβ hε hε0 t p q)
    (hcn.blk (idx_facts2 t).2.2.2.2.2.2.1 p q (i := ⟨_, ltb 4000 rfl t p⟩) (j := ⟨128 + q.val, by omega⟩))

end

end Cert.KernelIdeal.Hand

end
-- ==== Proof.Consts.lean ====
import Idealize.ShloMosaic.PureOps.Ideal

noncomputable section

namespace Cert.Consts

open Idealize.ShloMosaic

theorem ofBits_640000 : Ideal.ofBits .f32 0x491C4000#32 = ((640000 : ℝ) : EReal) := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

abbrev epsR : ℝ := 10995116 / 2 ^ 40

theorem ofBits_eps : Ideal.ofBits .f32 0x3727C5AC#32 = ((epsR : ℝ) : EReal) := by
  simp [Ideal.ofBits, Ideal.ieee, -EReal.coe_mul]; norm_num

theorem epsR_pos : 0 < epsR := by unfold epsR; positivity

end Cert.Consts

end
-- ==== Proof.KI.Chain2.lean ====
import proofs.«408522_j36180804502137_3_alg».proof.Proof.KI.Keep
import proofs.«408522_j36180804502137_3_alg».proof.Proof.KI.Inputs
import proofs.«408522_j36180804502137_3_alg».proof.Proof.KI.Host2
import proofs.«408522_j36180804502137_3_alg».proof.Proof.KI.Val2
import proofs.«408522_j36180804502137_3_alg».proof.Proof.Consts

noncomputable section

namespace Cert.KernelIdeal.Hand

open Cert.KernelIdeal Cert.KernelIdeal.Gen Idealize.ShloMosaic Idealize.ShloMosaic.TcCoe Idealize.ShloMosaic.ValueIdx

open Cert.Consts

variable {m : (ℓ : Loc nD τ sig) → Buf (Elt Ideal) ℓ} {c : Dev nD} {P : GG.Params} (hI : KInputs m c P)
  (h160 : GG.IsR2 (W6 m c (Proc.devRef .tc main_v16_0)) P.ein)
  (h161 : GG.IsR2 (W6 m c (Proc.devRef .tc main_v16_1)) (GG.stats640k P.ein))
  (h13 : GG.IsR2 (W4 m c (Proc.devRef .tc main_v13)) (GG.rows (GG.cn P) P.col))

include hI in
theorem c2_ea : GG.IsR2 (V7 m c main_arg2) P.ea := hI.h2.of_eq (keep m c 0 7 main_arg2 (by decide))

include h160 in
theorem c2_ein : GG.IsR2 (V7 m c main_v16_0) P.ein := h160.of_eq (keep m c 6 1 main_v16_0 (by decide))

include h13 in
theorem c2_cn : GG.IsR2 (V7 m c main_v13) (GG.rows (GG.cn P) P.col) := h13.of_eq (keep m c 4 3 main_v13 (by decide))

include h161 in
-- The statistics' rows `0 mod 8`, summed and divided by the row count, are the column means.
theorem c2_mu : GG.IsR2 (V7 m c main_v27) fun _ j => GG.mean P.ein j :=
  (h2_v27 (W6 m c) h161 ofBits_640000).congr (funext fun _ => funext fun j => GG.mean_stats P.ein j)

include h161 in
-- The mean of the squares minus the squared mean, cut below at zero, is the variance.
theorem c2_vr : GG.IsR2 (V7 m c main_v33) fun _ j => GG.var P.ein j :=
  (h2_v33 (W6 m c) h161 ofBits_640000).congr (funext fun _ => funext fun j => GG.var_stats P.ein j)

include hI in
theorem c2_ge : GG.IsR2 (V7 m c main_v34) fun _ j => P.ge j :=
  h2_v34 (W6 m c) (hI.h15.of_eq (keep m c 0 6 main_arg15 (by decide)))

include hI in
theorem c2_be : GG.IsR2 (V7 m c main_v35) fun _ j => P.be j :=
  h2_v35 (W6 m c) (hI.h16.of_eq (keep m c 0 6 main_arg16 (by decide)))

include hI h160 h161

theorem kv36_0 : GG.IsR2 (W8 m c (Proc.devRef .tc main_v36_0)) (P.eout epsR) :=
  (val2_7 (V7 m) c (c2_ea hI) (c2_ein h160) (c2_mu h161) (c2_vr h161) (GG.var_nonneg P.ein) (c2_ge hI) (c2_be hI)
    ofBits_eps epsR_pos).of_eq (W8_arr m c 7)

omit hI h160 h161 in
-- The gathered table's last 128 columns are the message image of the edge's second endpoint.
theorem c2_rows_cn_hi (e : Fin 640000) (j : Fin 128) (h : 128 + j.val < 256) :
    GG.rows (GG.cn P) P.col e ⟨128 + j.val, h⟩ = P.nv (P.col e) j := by
  show (if h' : 128 + j.val < 128 then _ else P.nv (P.col e) ⟨128 + j.val - 128, _⟩) = _
  rw [dif_neg (by omega)]
  exact congrArg (P.nv (P.col e)) (Fin.ext (by show 128 + j.val - 128 = j.val; omega))

include h13 in
theorem kv36_1 : GG.IsR2 (W8 m c (Proc.devRef .tc main_v36_1)) (P.msgs epsR) :=
  ((val2_8 (V7 m) c (c2_ea hI) (c2_ein h160) (c2_mu h161) (c2_vr h161) (GG.var_nonneg P.ein) (c2_ge hI) (c2_be hI)
    (c2_cn h13) ofBits_eps epsR_pos).congr <| funext fun e => funext fun j => by
      show GG.sigm _ * GG.rows (GG.cn P) P.col e ⟨128 + j.val, _⟩ = GG.sigm (P.eout epsR e j) * P.nv (P.col e) j
      rw [c2_rows_cn_hi]
      rfl).of_eq (W8_arr m c 8)

end Cert.KernelIdeal.Hand

end
-- ==== Proof.KI.Host3.lean ====
import proofs.«408522_j36180804502137_3_alg».proof.Proof.Gen.KernelIdeal.Launch
import proofs.«408522_j36180804502137_3_alg».proof.Proof.Spec
import Idealize.ShloMosaic.Lib.StableHlo.Run
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx
open scoped BigOperators

/-- The relation `GG.scat` sums over: the scatter index of update entry `j`, read through the endpoint column, is `i`. -/
abbrev hitK (Win : Valuation τ sig (Elt Ideal)) :
    (⟨2, ![640000, 128]⟩ : Shape).Idx → (⟨2, ![50000, 128]⟩ : Shape).Idx → Prop :=
  fun j i => scatter_S50000x128_S640000x1_S640000x128_1_0_0_1.resultIdx? j
    (broadcastInDim S640000x1 ![0] bcast_S640000_S640000x1_0 (Win (Proc.devRef .tc main_v1))) = some i

/-- Accumulating real update entries into a table of zeros leaves at each entry the real sum of the updates landing on it. -/
theorem scatterAdd_isR2 {n e : ℕ} {si : Shape} {w : ℕ}
    (d : ScatterDims (⟨2, ![n, 128]⟩ : Shape) si (⟨2, ![e, 128]⟩ : Shape))
    (Z : (⟨2, ![n, 128]⟩ : Shape).Idx → EReal) (I : IVec si w) (U : (⟨2, ![e, 128]⟩ : Shape).Idx → EReal)
    {u : Fin e → Fin 128 → ℝ} (hz : ∀ i, Z i = 0) (hu : GG.IsR2 U u) :
    GG.IsR2 (Host.scatterAdd (F := Ideal) (φ := .f32) d Z I U) (GG.scat (fun j i => d.resultIdx? j I = some i) u) := by
  intro r k
  show Ideal.hostScatterAdd d Z I U (ix2 r k) = _
  unfold Ideal.hostScatterAdd GG.scat
  rw [hz, zero_add, ← GG.coe_sum]
  exact Finset.sum_congr (Finset.filter_congr_decidable _ _ _) fun j _ => (congrArg U (eq_ix2 j)).trans (hu (j 0) (j 1))

theorem h3_v39 (Win : Valuation τ sig (Elt Ideal)) {u : Fin 640000 → Fin 128 → ℝ}
    (hu : GG.IsR2 (Win (Proc.devRef .tc main_v36_1)) u) :
    GG.IsR2 (StableHlo.after hostOps3 Win (Proc.devRef .tc main_v39)) (GG.scat (hitK Win) u) := by
  after_results
  exact scatterAdd_isR2 _ _ _ _ (fun i => by rw [broadcastInDim_scalar_apply, constant_apply, Ideal.ofBits_zero_f32]) hu

end Cert.KernelIdeal.Hand

end
-- ==== Proof.KI.Val3.lean ====
/- Region 3 at the exact-real instance: on real inputs the first output array holds the two arrays added, the second their column sums and sums of squares, 8 rows a block of 2000 rows. -/
import proofs.«408522_j36180804502137_3_alg».proof.Proof.KI.Region3
import proofs.«408522_j36180804502137_3_alg».proof.Proof.KI.Rows
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem pay3_1_apply (x0 x1 : Vec Ideal S2000x128 .f32) (j : S2000x128.Idx) : k3_pay1 x0 x1 j = x0 j + x1 j := by
  unfold k3_pay1
  simp only [shapeCast_self]
  rfl

theorem pay3_4_apply (j : S6x128.Idx) : k3_pay4 (F := Ideal) j = 0 := Ideal.ofBits_zero_f32

variable (V : (c : Dev nD) → (b : Ref sig .tc) → Buf (Elt Ideal) ((c : Thread nD τ).loc b))

/-- Every window is at block `(t, 0)`. -/
theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0) :=
  (by decide +kernel : ∀ t : Fin grid3.N, _)

section
variable {nu agg : Fin 50000 → Fin 128 → ℝ} (c : Dev nD)
  (hnu : GG.IsR2 (R := 50000) (C := 128) (V c main_v11_2) nu) (hag : GG.IsR2 (R := 50000) (C := 128) (V c main_v39) agg)
include hnu hag

/-- On the blocks of point `t` the added blocks hold `nu + agg` at row `2000 t + p`. -/
theorem pay1_blocks3 (t : Fin cfg3.N) (p : Fin 2000) (q : Fin 128) :
    k3_pay1 (iblk3 V c 0 t) (iblk3 V c 1 t) (ix2 p q)
      = ((nu ⟨_, ltb 2000 rfl t p⟩ q + agg ⟨_, ltb 2000 rfl t p⟩ q : ℝ) : EReal) := by
  have e := idx_facts3 t
  have h0 : iblk3 V c 0 t (ix2 p q) = _ := hnu.blk e.1 p q (i := ⟨_, ltb 2000 rfl t p⟩) (j := q)
  have h1 : iblk3 V c 1 t (ix2 p q) = _ := hag.blk e.2.1 p q (i := ⟨_, ltb 2000 rfl t p⟩) (j := q)
  rw [pay3_1_apply, h0, h1, EReal.coe_add]

theorem val3_2 : GG.IsR2 (R := 50000) (C := 128) ((dat3 (F := Ideal) V c).arrAt 2 cfg3.N) (fun n j => nu n j + agg n j) := by
  refine isR2_of_rows win3_2.index (fun t => (idx_facts3 t).2.2.1) rfl (by decide) (fun t => (dat3 (F := Ideal) V c).flushed 2 t)
    (fun G hG hc => (dat3 (F := Ideal) V c).arrAt_eq_of_cover 2 G (fun t _ => hG t) fun i =>
      (hc i).imp fun t h => ⟨flush3_2 t, mem_slice_whole main_v40_0 h⟩) fun t p q => ?_
  unfold Dat.flushed
  rw [after3_2]
  unfold out3_2
  rw [View.canon_unit_zero hz]
  repeat rw [View.ld_unit_zero hz]
  exact pay1_blocks3 V c hnu hag t p q

theorem val3_3 : GG.IsR2 (R := 200) (C := 128) ((dat3 (F := Ideal) V c).arrAt 3 cfg3.N)
      (fun (r : Fin 200) j =>
        if r.val % 8 = 0 then ∑ p : Fin 2000, (nu ⟨2000 * (r.val / 8) + p.val, by omega⟩ j + agg ⟨2000 * (r.val / 8) + p.val, by omega⟩ j)
        else if r.val % 8 = 1 then ∑ p : Fin 2000, (nu ⟨2000 * (r.val / 8) + p.val, by omega⟩ j + agg ⟨2000 * (r.val / 8) + p.val, by omega⟩ j)
          * (nu ⟨2000 * (r.val / 8) + p.val, by omega⟩ j + agg ⟨2000 * (r.val / 8) + p.val, by omega⟩ j)
        else 0) := by
  refine isR2_of_ofR2 (a := stat8 (N := 25) 2000 rfl fun n j => nu n j + agg n j)
    ((dat3 (F := Ideal) V c).arrAt_eq_of_cover 3 _ (fun t _ => funext fun y => ?_) fun i =>
      (cover_rows win3_3.index (fun t => (idx_facts3 t).2.2.2) (by decide) (by decide) i).imp
        fun t h => ⟨flush3_3 t, mem_slice_whole main_v40_1 h⟩)
  have h1 := pay1_blocks3 V c hnu hag t
  unfold Dat.flushed
  rw [after3_3]
  unfold out3_3
  repeat rw [View.ld_unit_zero hz]
  refine canon_stat8 2000 rfl _ t (idx_facts3 t).2.2.2 _ _ _ pay3_4_apply (fun q => ?_) (fun q => ?_) y (cover3_3 _ _ _ y)
  · refine (colsum_apply _ _ _ q).trans ?_
    simp only [mulf_apply, h1, ← EReal.coe_mul]
    rw [GG.coe_sum]
    rfl
  · refine (colsum_apply _ _ _ q).trans ?_
    simp only [h1]
    rw [GG.coe_sum]
    rfl

end

end Cert.KernelIdeal.Hand

end
-- ==== Proof.KI.Chain3.lean ====
import proofs.«408522_j36180804502137_3_alg».proof.Proof.KI.Keep
import proofs.«408522_j36180804502137_3_alg».proof.Proof.KI.Inputs
import proofs.«408522_j36180804502137_3_alg».proof.Proof.KI.Host3
import proofs.«408522_j36180804502137_3_alg».proof.Proof.KI.Val3
import proofs.«408522_j36180804502137_3_alg».proof.Proof.Consts

set_option maxRecDepth 16384

noncomputable section

namespace Cert.KernelIdeal.Hand

open Cert.KernelIdeal Cert.KernelIdeal.Gen Idealize.ShloMosaic Idealize.ShloMosaic.TcCoe Idealize.ShloMosaic.ValueIdx

open Cert.Consts

variable {m : (ℓ : Loc nD τ sig) → Buf (Elt Ideal) ℓ} {c : Dev nD} {P : GG.Params}

-- Two decision procedures for the hit relation are equal, so the accumulation does not depend on which one reads it.
theorem nin_of_scat (ε : ℝ) (hit : (⟨2, ![640000, 128]⟩ : Shape).Idx → (⟨2, ![50000, 128]⟩ : Shape).Idx → Prop)
    (inst inst' : ∀ j i, Decidable (hit j i)) :
    (fun n j => GG.lin P.x P.Wu P.bu n j + @GG.scat _ _ hit inst' (P.msgs ε) n j) = @GG.Params.nin ε P hit inst := by
  cases Subsingleton.elim inst' inst
  rfl

variable (h361 : GG.IsR2 (W8 m c (Proc.devRef .tc main_v36_1)) (P.msgs epsR))
  (h112 : GG.IsR2 (W2 m c (Proc.devRef .tc main_v11_2)) (GG.lin P.x P.Wu P.bu))
include h361 h112

-- Region 3 finds the node's own image, which no segment since region 0 writes, and the messages accumulated at each node.
private theorem in3 : GG.IsR2 (V9 m c main_v11_2) (GG.lin P.x P.Wu P.bu) ∧
    GG.IsR2 (V9 m c main_v39) (GG.scat (hitK (W8 m c)) (P.msgs epsR)) :=
  ⟨h112.of_eq (keep m c 2 7 main_v11_2 (by decide)), h3_v39 (W8 m c) h361⟩

theorem kv40_0 : GG.IsR2 (W10 m c (Proc.devRef .tc main_v40_0)) (P.nin epsR (hitK (W8 m c))) :=
  ((val3_2 (V9 m) c (in3 h361 h112).1 (in3 h361 h112).2).congr (nin_of_scat epsR _ _ _)).of_eq (W10_arr m c 2)

theorem kv40_1 : GG.IsR2 (W10 m c (Proc.devRef .tc main_v40_1)) (GG.stats50k (P.nin epsR (hitK (W8 m c)))) :=
  ((show GG.IsR2 _ (GG.stats50k fun n j => GG.lin P.x P.Wu P.bu n j + GG.scat (hitK (W8 m c)) (P.msgs epsR) n j) from
    val3_3 (V9 m) c (in3 h361 h112).1 (in3 h361 h112).2).congr
    (congrArg GG.stats50k (nin_of_scat epsR _ _ _))).of_eq (W10_arr m c 3)

end Cert.KernelIdeal.Hand

end
-- ==== Proof.KI.Host4.lean ====
import proofs.«408522_j36180804502137_3_alg».proof.Proof.KI.HostLib

noncomputable section

open scoped BigOperators

namespace GG

def tileMeanN (st : Fin 200 → Fin 128 → ℝ) : Fin 128 → ℝ :=
  fun j => (∑ t : Fin 25, st ⟨8 * t.val, by omega⟩ j) / 50000

end GG

namespace Cert.KernelIdeal.Hand

open Cert.KernelIdeal Cert.KernelIdeal.Gen Idealize.ShloMosaic Idealize.ShloMosaic.TcCoe Idealize.ShloMosaic.ValueIdx

variable (Win : Valuation τ sig (Elt Ideal))

theorem h4_v51 {st : Fin 200 → Fin 128 → ℝ} (hst : GG.IsR2 (Win (Proc.devRef .tc main_v40_1)) st)
    (hN : Ideal.ofBits .f32 0x47435000#32 = ((50000 : ℝ) : EReal)) :
    GG.IsR2 (R := 1) (C := 128) (StableHlo.after hostOps4 Win (Proc.devRef .tc main_v51)) (fun _ j => GG.tileMeanN st j) := by
  intro r j
  after_results
  exact Tile.rowMean_apply (T := 25) rfl (by decide) hN (by norm_num) hst (by omega) _ r j

theorem h4_v57 {st : Fin 200 → Fin 128 → ℝ} (hst : GG.IsR2 (Win (Proc.devRef .tc main_v40_1)) st)
    (hN : Ideal.ofBits .f32 0x47435000#32 = ((50000 : ℝ) : EReal)) :
    GG.IsR2 (R := 1) (C := 128) (StableHlo.after hostOps4 Win (Proc.devRef .tc main_v57))
      (fun _ j => max ((∑ t : Fin 25, st ⟨8 * t.val + 1, by omega⟩ j) / 50000 - GG.tileMeanN st j * GG.tileMeanN st j) 0) := by
  intro r j
  after_results_simp
  exact Tile.rowVar_apply (T := 25) rfl (by decide) hN (by norm_num) hst _ _ r j

theorem h4_v58 {γ : Fin 128 → ℝ} (h13 : GG.IsR1 (Win (Proc.devRef .tc main_arg13)) γ) :
    GG.IsR2 (R := 1) (C := 128) (StableHlo.after hostOps4 Win (Proc.devRef .tc main_v58)) (fun _ j => γ j) :=
  row_of_vec (by after_results; rfl) h13

theorem h4_v59 {β : Fin 128 → ℝ} (h14 : GG.IsR1 (Win (Proc.devRef .tc main_arg14)) β) :
    GG.IsR2 (R := 1) (C := 128) (StableHlo.after hostOps4 Win (Proc.devRef .tc main_v59)) (fun _ j => β j) :=
  row_of_vec (by after_results; rfl) h14

end Cert.KernelIdeal.Hand

end
-- ==== Proof.KI.Val4.lean ====
/- Region 4 at the exact-real instance: on real inputs the output array holds the residual plus the normalised, scaled, shifted entry cut below at zero. -/
import proofs.«408522_j36180804502137_3_alg».proof.Proof.KI.Region4
import proofs.«408522_j36180804502137_3_alg».proof.Proof.KI.Rows
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The payload at `(p, q)`: the residual entry plus the scaled, shifted, normalised entry cut below at zero. -/
theorem pay4_1_apply (x0 : Vec Ideal S2000x128 .f32) (xv xg xm xb : Vec Ideal S1x128 .f32) (x5 : Vec Ideal S2000x128 .f32)
    (p : Fin 2000) (q : Fin 128) :
    k4_pay1 x0 xv xg xm xb x5 (ix2 p q)
      = x5 (ix2 p q) + max (xg (ix2 (0 : Fin 1) q) * (x0 (ix2 p q) - xm (ix2 (0 : Fin 1) q))
          * Ideal.rsqrt (xv (ix2 (0 : Fin 1) q) + Ideal.ofBits .f32 0x3727C5AC#32) + xb (ix2 (0 : Fin 1) q)) 0 := by
  unfold k4_pay1
  simp only [shapeCast_self]
  simp only [addf_apply, maximumf_apply, mulf_apply, subf_apply, rsqrt_apply, broadcast_apply]
  rw [show (Scalar.ofBits (F := Ideal) .f32 0x00000000#32 : EReal) = 0 from Ideal.ofBits_zero_f32,
    bcast_row, bcast_row, bcast_row, bcast_row]
  rfl

variable (V : (c : Dev nD) → (b : Ref sig .tc) → Buf (Elt Ideal) ((c : Thread nD τ).loc b))

/-- The three row block windows are at block `(t, 0)`, the four row vectors at `(0, 0)`. -/
theorem idx_facts4 : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = t.val ∧ win4_5.index t (1 : Fin 2) = 0)
    ∧ (win4_6.index t (0 : Fin 2) = t.val ∧ win4_6.index t (1 : Fin 2) = 0) :=
  (by decide +kernel : ∀ t : Fin grid4.N, _)

theorem val4_6 {nin x : Fin 50000 → Fin 128 → ℝ} {mu vr γ β : Fin 128 → ℝ} {ε : ℝ} (c : Dev nD)
    (hnin : GG.IsR2 (R := 50000) (C := 128) (V c main_v40_0) nin)
    (hmu : GG.IsR2 (R := 1) (C := 128) (V c main_v51) (fun _ j => mu j))
    (hvr : GG.IsR2 (R := 1) (C := 128) (V c main_v57) (fun _ j => vr j)) (hvr0 : ∀ j, 0 ≤ vr j)
    (hγ : GG.IsR2 (R := 1) (C := 128) (V c main_v58) (fun _ j => γ j))
    (hβ : GG.IsR2 (R := 1) (C := 128) (V c main_v59) (fun _ j => β j))
    (hx : GG.IsR2 (R := 50000) (C := 128) (V c main_arg0) x)
    (hε : Ideal.ofBits .f32 0x3727C5AC#32 = ((ε : ℝ) : EReal)) (hε0 : 0 < ε) :
    GG.IsR2 (R := 50000) (C := 128) ((dat4 (F := Ideal) V c).arrAt 6 cfg4.N)
      (fun n j => x n j + max (γ j * (nin n j - mu j) * (Real.sqrt (vr j + ε))⁻¹ + β j) 0) := by
  refine isR2_of_rows win4_6.index (fun t => (idx_facts4 t).2.2.2.2.2.2) rfl (by decide) (fun t => (dat4 (F := Ideal) V c).flushed 6 t)
    (fun G hG hc => (dat4 (F := Ideal) V c).arrAt_eq_of_cover 6 G (fun t _ => hG t) fun i =>
      (hc i).imp fun t h => ⟨flush4_6 t, mem_slice_whole main_v60 h⟩) fun t p q => ?_
  have e := idx_facts4 t
  have h0 : iblk4 V c 0 t (ix2 p q) = _ := hnin.blk e.1 p q (i := ⟨_, ltb 2000 rfl t p⟩) (j := q)
  have h1 : iblk4 V c 1 t (ix2 (0 : Fin 1) q) = _ := hmu.blk e.2.1 0 q (i := 0) (j := q)
  have h2 : iblk4 V c 2 t (ix2 (0 : Fin 1) q) = _ := hvr.blk e.2.2.1 0 q (i := 0) (j := q)
  have h3 : iblk4 V c 3 t (ix2 (0 : Fin 1) q) = _ := hγ.blk e.2.2.2.1 0 q (i := 0) (j := q)
  have h4 : iblk4 V c 4 t (ix2 (0 : Fin 1) q) = _ := hβ.blk e.2.2.2.2.1 0 q (i := 0) (j := q)
  have h5 : iblk4 V c 5 t (ix2 p q) = _ := hx.blk e.2.2.2.2.2.1 p q (i := ⟨_, ltb 2000 rfl t p⟩) (j := q)
  unfold Dat.flushed
  rw [after4_6]
  unfold out4_6
  rw [View.canon_unit_zero hz]
  repeat rw [View.ld_unit_zero hz]
  show k4_pay1 _ _ _ _ _ _ (ix2 p q) = _
  rw [pay4_1_apply, h0, h1, h2, h3, h4, h5, hε, ← EReal.coe_add (vr q) ε,
    GG.rsqrt_coe_pos (add_pos_of_nonneg_of_pos (hvr0 q) hε0), ← EReal.coe_sub, ← EReal.coe_mul, ← EReal.coe_mul,
    ← EReal.coe_add, ← EReal.coe_zero, GG.max_coe, ← EReal.coe_add]

end Cert.KernelIdeal.Hand

end
-- ==== Proof.KI.Chain4.lean ====
import proofs.«408522_j36180804502137_3_alg».proof.Proof.KI.Keep
import proofs.«408522_j36180804502137_3_alg».proof.Proof.KI.Inputs
import proofs.«408522_j36180804502137_3_alg».proof.Proof.KI.Host4
import proofs.«408522_j36180804502137_3_alg».proof.Proof.KI.Val4
import proofs.«408522_j36180804502137_3_alg».proof.Proof.Consts

noncomputable section

namespace Cert.KernelIdeal.Hand

open Cert.KernelIdeal Cert.KernelIdeal.Gen Idealize.ShloMosaic Idealize.ShloMosaic.TcCoe Idealize.ShloMosaic.ValueIdx

open Cert.Consts

variable {m : (ℓ : Loc nD τ sig) → Buf (Elt Ideal) ℓ} {c : Dev nD} {P : GG.Params}

-- The statistics give the column means and variances; region 4 normalises, scales, shifts, cuts and adds the node table.
theorem kv60 (hI : KInputs m c P)
    (hit : (⟨2, ![640000, 128]⟩ : Shape).Idx → (⟨2, ![50000, 128]⟩ : Shape).Idx → Prop) [∀ j i, Decidable (hit j i)]
    (h400 : GG.IsR2 (W10 m c (Proc.devRef .tc main_v40_0)) (P.nin epsR hit))
    (h401 : GG.IsR2 (W10 m c (Proc.devRef .tc main_v40_1)) (GG.stats50k (P.nin epsR hit))) :
    GG.IsR2 (W12 m c (Proc.devRef .tc main_v60)) (P.xout epsR hit) :=
  (val4_6 (V11 m) c (h400.of_eq (keep m c 10 1 main_v40_0 (by decide)))
    ((h4_v51 (W10 m c) h401 ofBits_50000).congr (funext fun _ => funext fun j => GG.mean_stats _ j))
    ((h4_v57 (W10 m c) h401 ofBits_50000).congr (funext fun _ => funext fun j => GG.var_stats _ j))
    (GG.var_nonneg _)
    (h4_v58 (W10 m c) (hI.h13.of_eq (keep m c 0 10 main_arg13 (by decide))))
    (h4_v59 (W10 m c) (hI.h14.of_eq (keep m c 0 10 main_arg14 (by decide))))
    (hI.h0.of_eq (keep m c 0 11 main_arg0 (by decide))) ofBits_eps epsR_pos).of_eq (W12_main_v60 m c)

end Cert.KernelIdeal.Hand

end
-- ==== Proof.KI.Chain.lean ====
import proofs.«408522_j36180804502137_3_alg».proof.Proof.KI.Chain0
import proofs.«408522_j36180804502137_3_alg».proof.Proof.KI.Chain1
import proofs.«408522_j36180804502137_3_alg».proof.Proof.KI.Chain2
import proofs.«408522_j36180804502137_3_alg».proof.Proof.KI.Chain3
import proofs.«408522_j36180804502137_3_alg».proof.Proof.KI.Chain4

noncomputable section

namespace Cert.KernelIdeal.Hand

open Cert.KernelIdeal Cert.KernelIdeal.Gen Idealize.ShloMosaic Idealize.ShloMosaic.TcCoe Idealize.ShloMosaic.ValueIdx

open Cert.Consts

variable (m : (ℓ : Loc nD τ sig) → Buf (Elt Ideal) ℓ) (c : Dev nD) (P : GG.Params) (hI : KInputs m c P)
include hI

-- The edge pre-activation and its statistics, at region 1's exit.
private theorem k16 : GG.IsR2 (W6 m c (Proc.devRef .tc main_v16_0)) P.ein ∧
    GG.IsR2 (W6 m c (Proc.devRef .tc main_v16_1)) (GG.stats640k P.ein) :=
  ⟨kv16_0 hI (kv11_0 hI) (kv11_1 hI) (kv1 m c) (kv3 m c), kv16_1 hI (kv11_0 hI) (kv11_1 hI) (kv1 m c) (kv3 m c)⟩

-- The edge output: region 2 writes it and nothing after does.
theorem k_second : GG.IsR2 (R := 640000) (C := 128) (W12 m c (Proc.devRef .tc main_v36_0)) (P.eout epsR) :=
  (kv36_0 hI (k16 m c P hI).1 (k16 m c P hI).2).of_eq (keep m c 8 4 main_v36_0 (by decide))

open Classical in
-- The node output, with the messages accumulated through the scatter's own hit relation.
theorem k_first :
    GG.IsR2 (R := 50000) (C := 128) (W12 m c (Proc.devRef .tc main_v60)) (P.xout epsR (hitK (W8 m c))) :=
  have c1 := kv36_1 hI (k16 m c P hI).1 (k16 m c P hI).2 (kv13 hI (kv11_1 hI) (kv3 m c))
  kv60 hI (hitK (W8 m c)) (kv40_0 c1 (kv11_2 hI)) (kv40_1 c1 (kv11_2 hI))

end Cert.KernelIdeal.Hand

end
-- ==== Proof.PreFacts.lean ====
import proofs.«408522_j36180804502137_3_alg».proof.Defs
import proofs.«408522_j36180804502137_3_alg».proof.Proof.Gen.Pre_finite_inputs
import proofs.«408522_j36180804502137_3_alg».proof.Proof.Spec
import Idealize.ShloMosaic.Lib.ReduceAll
import Idealize.ShloMosaic.Lib.StableHlo.Predicate
import Idealize.ShloMosaic.Lib.ValueIdx

noncomputable section

namespace Cert.Proof.PreFacts

open Idealize.ShloMosaic Idealize.ShloMosaic.ValueIdx Idealize.SL.Sem
open Cert.Pre_finite_inputs Cert.Pre_finite_inputs.Facts

instance : Subsingleton S_.Idx := ⟨fun _ _ => funext fun d => d.elim0⟩

-- A conjunction of two bits at the scalar shape's one index is 1 exactly when both are.
theorem andi_one {a b : IVec S_ 1} : andi a b ix0 = 1#1 ↔ a ix0 = 1#1 ∧ b ix0 = 1#1 := IntOp.andi_eq_one

-- An extended real whose absolute value is below ⊤ is neither ⊤ nor ⊥: it is the real it reads as.
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : x = (x.toReal : EReal) := by
  have h' : Ideal.cmp .olt (max x (-x)) (Ideal.ofBits .f32 0x7F800000#32) = 1#1 := h
  rw [show Ideal.ofBits .f32 0x7F800000#32 = (⊤ : EReal) by simp [Ideal.ofBits, Ideal.ieee]] at h'
  simp only [Ideal.cmp, StableHlo.Predicate.ofBool_eq_one_iff, decide_eq_true_eq] at h'
  induction x using EReal.rec with
  | bot => simp at h'
  | coe r => rfl
  | top => simp at h'

-- A float conjunct "every entry of `A` has absolute value below +∞" makes every entry of `A` a real.
theorem fin_real {s : Shape} {axes : List (Fin s.rank)} {hb : S_.BroadcastsInDim s (![] : Fin 0 → Fin s.rank)}
    {hr : s.ReducesTo axes S_} {hu : 0 < S_.numel} {A : FVec Ideal s .f32}
    (h : Host.reduce IntOp.andi (cmpf .olt (Host.absf A) (broadcastInDim s ![] hb (constant S_ .f32 0x7F800000#32)))
      (constantI S_ 1 1#1) hr hu ix0 = 1#1) (i : s.Idx) : A i = ((A i).toReal : EReal) :=
  real_of_abs_lt (A i) (Host.reduce_andi_all _ _ hr hu ix0 h i)

-- The endpoint conjunct puts every word's signed value in [0, 50000).
theorem idx_range {a : IVec S2x640000 32}
    (h : Host.reduce IntOp.andi
      (andi (cmpi .sge a (broadcastInDim S2x640000 ![] bcast_S_S2x640000 (constantI S_ 32 0#32)))
        (cmpi .slt a (broadcastInDim S2x640000 ![] bcast_S_S2x640000 (constantI S_ 32 50000#32))))
      (constantI S_ 1 1#1) reducesTo_S2x640000_S_d0_1 h_S_ ix0 = 1#1) (i : S2x640000.Idx) :
    0 ≤ (a i).toInt ∧ (a i).toInt < 50000 := by
  have e : IntOp.andi (IntOp.cmpi .sge (a i) 0#32) (IntOp.cmpi .slt (a i) 50000#32) = 1#1 :=
    Host.reduce_andi_all _ _ reducesTo_S2x640000_S_d0_1 h_S_ ix0 h i
  rw [IntOp.andi_eq_one, IntOp.cmpi_sge, IntOp.cmpi_slt] at e
  exact e

end Cert.Proof.PreFacts

end
-- ==== Proof.KI.PreInputs.lean ====
import proofs.«408522_j36180804502137_3_alg».proof.Proof.PreFacts
import proofs.«408522_j36180804502137_3_alg».proof.Proof.KI.Inputs

noncomputable section

namespace Cert.KernelIdeal.Hand

open Cert.KernelIdeal Idealize.ShloMosaic Idealize.ShloMosaic.ValueIdx Cert.Proof.PreFacts
open Cert.Pre_finite_inputs (fn fn_part1 fn_part2 fn_part3 fn_part4 fn_part5) in
-- The precondition is an `and` chain of seventeen conjuncts: each float array is the real array it reads as, each endpoint a node number.
theorem inputs_of_pre (m : (ℓ : Loc nD τ sig) → Buf (Elt Ideal) ℓ) (hpre : Cert.Pre_KernelIdeal m) (c : Dev nD) :
    ∃ P : GG.Params, KInputs m c P := by
  have e := congrFun (hpre c) ix0
  dsimp only [fn, fn_part1, fn_part2, fn_part3, fn_part4, fn_part5] at e
  simp only [andi_one] at e
  obtain ⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h1⟩ := e
  have hr := idx_range h1
  exact ⟨⟨_, _, _, _, _, _, _, _, _, _, _, _, _, _, _, _,
      fun e => ⟨((m ((c.tc : Thread nD τ).loc main_arg1) : IVec S2x640000 32) (ix2 0 e)).toInt.toNat, by have := hr (ix2 0 e); omega⟩,
      fun e => ⟨((m ((c.tc : Thread nD τ).loc main_arg1) : IVec S2x640000 32) (ix2 1 e)).toInt.toNat, by have := hr (ix2 1 e); omega⟩⟩,
    ⟨fun _ _ => fin_real h0 _, fun _ _ => fin_real h2 _, fun _ _ => fin_real h3 _, fun _ => fin_real h4 _,
      fun _ _ => fin_real h5 _, fun _ => fin_real h6 _, fun _ _ => fin_real h7 _, fun _ => fin_real h8 _,
      fun _ _ => fin_real h9 _, fun _ => fin_real h10 _, fun _ _ => fin_real h11 _, fun _ => fin_real h12 _,
      fun _ => fin_real h13 _, fun _ => fin_real h14 _, fun _ => fin_real h15 _, fun _ => fin_real h16 _,
      fun e => (Int.toNat_of_nonneg (hr (ix2 0 e)).1).symm, fun e => (Int.toNat_of_nonneg (hr (ix2 1 e)).1).symm⟩⟩

end Cert.KernelIdeal.Hand

end
-- ==== Proof.Ref.Run.lean ====
import proofs.«408522_j36180804502137_3_alg».proof.Proof.Gen.ReferenceIdeal
import Idealize.ShloMosaic.Lib.StableHlo.Run
import Mathlib.Data.List.Forall2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 (extractStridedSlice S1x640000 ![0, 0] · slices_S2x640000_S1x640000_0_0),
    reshape main_v0 main_v1 rfl shapeCasts_S1x640000_S640000,
    unary main_arg1 main_v2 (extractStridedSlice S1x640000 ![1, 0] · slices_S2x640000_S1x640000_1_0),
    reshape main_v2 main_v3 rfl shapeCasts_S1x640000_S640000,
    unary main_arg9 main_v4 (transpose S128x128 [1, 0] · transposes_S128x128_S128x128_1_0),
    binary main_arg0 main_v4 main_v5 (fun l r => Host.dotGeneral dot_S50000x128_S128x128_S50000x128_1_0_0_1_n_n none l r),
    unary main_arg10 main_v6 (broadcastInDim S1x128 ![1] bcast_S128_S1x128_1),
    unary main_v6 main_v7 (broadcastInDim S50000x128 ![0, 1] bcast_S1x128_S50000x128_0_1),
    binary main_v5 main_v7 main_v8 addf,
    unary main_arg11 main_v9 (transpose S128x128 [1, 0] · transposes_S128x128_S128x128_1_0),
    binary main_arg0 main_v9 main_v10 (fun l r => Host.dotGeneral dot_S50000x128_S128x128_S50000x128_1_0_0_1_n_n none l r),
    unary main_arg12 main_v11 (broadcastInDim S1x128 ![1] bcast_S128_S1x128_1),
    unary main_v11 main_v12 (broadcastInDim S50000x128 ![0, 1] bcast_S1x128_S50000x128_0_1),
    binary main_v10 main_v12 main_v13 addf,
    unary main_arg7 main_v14 (transpose S128x128 [1, 0] · transposes_S128x128_S128x128_1_0),
    binary main_arg2 main_v14 main_v15 (fun l r => Host.dotGeneral dot_S640000x128_S128x128_S640000x128_1_0_0_1_n_n none l r),
    unary main_arg8 main_v16 (broadcastInDim S1x128 ![1] bcast_S128_S1x128_1),
    unary main_v16 main_v17 (broadcastInDim S640000x128 ![0, 1] bcast_S1x128_S640000x128_0_1),
    binary main_v15 main_v17 main_v18 addf,
    nullary main_c (constantI S_ 32 0#32),
    unary main_c main_v19 (broadcastInDim S640000 ![] bcast_S_S640000),
    binary main_v1 main_v19 main_v20 (cmpi .slt),
    nullary main_c_0 (constantI S_ 32 50000#32),
    unary main_c_0 main_v21 (broadcastInDim S640000 ![] bcast_S_S640000),
    binary main_v1 main_v21 main_v22 addi,
    ternary main_v20 main_v22 main_v1 main_v23 select,
    unary main_v23 main_v24 (broadcastInDim S640000x1 ![0] bcast_S640000_S640000x1_0),
    binary main_v8 main_v24 main_v25 (fun x i => Host.gather gather_S50000x128_S640000x1_S640000x128_1_0_n_n_0_1_1128 x i),
    binary main_v18 main_v25 main_v26 addf,
    nullary main_c_1 (constantI S_ 32 0#32),
    unary main_c_1 main_v27 (broadcastInDim S640000 ![] bcast_S_S640000),
    binary main_v3 main_v27 main_v28 (cmpi .slt),
    nullary main_c_2 (constantI S_ 32 50000#32),
    unary main_c_2 main_v29 (broadcastInDim S640000 ![] bcast_S_S640000),
    binary main_v3 main_v29 main_v30 addi,
    ternary main_v28 main_v30 main_v3 main_v31 select,
    unary main_v31 main_v32 (broadcastInDim S640000x1 ![0] bcast_S640000_S640000x1_0),
    binary main_v13 main_v32 main_v33 (fun x i => Host.gather gather_S50000x128_S640000x1_S640000x128_1_0_n_n_0_1_1128 x i),
    binary main_v26 main_v33 main_v34 addf,
    nullary main_cst (constant S_ .f32 0x00000000#32),
    binary main_v34 main_cst main_v35 (fun x v => Host.reduceAdd x v reducesTo_S640000x128_S128_d0 h_S_),
    nullary main_cst_3 (constant S_ .f32 0x491C4000#32),
    unary main_cst_3 main_v36 (broadcastInDim S128 ![] bcast_S_S128),
    binary main_v35 main_v36 main_v37 Host.divf,
    nullary main_c_4 (constantI S_ 32 0#32),
    TRef.nullary main_call0.cst (constant S_ .f32 0x00000000#32),
    TRef.binary (.of main_v34 : TRef sig ⟨S640000x128, .f32⟩) main_call0.cst main_call0.v0 (fun x v => Host.reduceAdd x v reducesTo_S640000x128_S128_d0 h_S_),
    TRef.unary main_call0.v0 main_call0.v1 (broadcastInDim S1x128 ![1] bcast_S128_S1x128_1),
    TRef.nullary main_call0.cst_0 (constant S_ .f32 0x491C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S640000x128 ![0, 1] bcast_S1x128_S640000x128_0_1),
    TRef.binary (.of main_v34 : TRef sig ⟨S640000x128, .f32⟩) main_call0.v4 main_call0.v5 subf,
    TRef.binary main_call0.v5 main_call0.v5 main_call0.v6 mulf,
    TRef.unary (.of main_c_4 : TRef sig ⟨S_, .i32⟩) main_call0.v7 (sitofp .f32),
    TRef.nullary main_call0.cst_1 (constant S_ .f32 0x491C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S640000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v37 main_v39 (broadcastInDim S1x128 ![1] bcast_S128_S1x128_1),
    unary main_v39 main_v40 (broadcastInDim S640000x128 ![0, 1] bcast_S1x128_S640000x128_0_1),
    binary main_v34 main_v40 main_v41 subf,
    unary main_arg15 main_v42 (broadcastInDim S1x128 ![1] bcast_S128_S1x128_1),
    unary main_v42 main_v43 (broadcastInDim S640000x128 ![0, 1] bcast_S1x128_S640000x128_0_1),
    binary main_v43 main_v41 main_v44 mulf,
    nullary main_cst_5 (constant S_ .f32 0x3727C5AC#32),
    unary main_cst_5 main_v45 (broadcastInDim S128 ![] bcast_S_S128),
    binary main_v38 main_v45 main_v46 addf,
    unary main_v46 main_v47 Host.rsqrt,
    unary main_v47 main_v48 (broadcastInDim S1x128 ![1] bcast_S128_S1x128_1),
    unary main_v48 main_v49 (broadcastInDim S640000x128 ![0, 1] bcast_S1x128_S640000x128_0_1),
    binary main_v44 main_v49 main_v50 mulf,
    unary main_arg16 main_v51 (broadcastInDim S1x128 ![1] bcast_S128_S1x128_1) ]

abbrev ops1 : List (HloOp τ sig (Elt F)) :=
  [ unary main_v51 main_v52 (broadcastInDim S640000x128 ![0, 1] bcast_S1x128_S640000x128_0_1),
    binary main_v50 main_v52 main_v53 addf,
    TRef.nullary main_call1.cst (constant S_ .f32 0x00000000#32),
    TRef.unary main_call1.cst main_call1.v0 (broadcastInDim S640000x128 ![] bcast_S_S640000x128),
    TRef.binary (.of main_v53 : TRef sig ⟨S640000x128, .f32⟩) main_call1.v0 main_call1.v1 maximumf,
    binary main_arg2 main_v54 main_v55 addf,
    unary main_v55 main_v56 Host.negf,
    unary main_v56 main_v57 Host.exp,
    nullary main_cst_6 (constant S_ .f32 0x3F800000#32),
    unary main_cst_6 main_v58 (broadcastInDim S640000x128 ![] bcast_S_S640000x128),
    binary main_v58 main_v57 main_v59 addf,
    nullary main_cst_7 (constant S_ .f32 0x3F800000#32),
    unary main_cst_7 main_v60 (broadcastInDim S640000x128 ![] bcast_S_S640000x128),
    binary main_v60 main_v59 main_v61 Host.divf,
    unary main_arg5 main_v62 (transpose S128x128 [1, 0] · transposes_S128x128_S128x128_1_0),
    binary main_arg0 main_v62 main_v63 (fun l r => Host.dotGeneral dot_S50000x128_S128x128_S50000x128_1_0_0_1_n_n none l r),
    unary main_arg6 main_v64 (broadcastInDim S1x128 ![1] bcast_S128_S1x128_1),
    unary main_v64 main_v65 (broadcastInDim S50000x128 ![0, 1] bcast_S1x128_S50000x128_0_1),
    binary main_v63 main_v65 main_v66 addf,
    nullary main_c_8 (constantI S_ 32 0#32),
    unary main_c_8 main_v67 (broadcastInDim S640000 ![] bcast_S_S640000),
    binary main_v3 main_v67 main_v68 (cmpi .slt),
    nullary main_c_9 (constantI S_ 32 50000#32),
    unary main_c_9 main_v69 (broadcastInDim S640000 ![] bcast_S_S640000),
    binary main_v3 main_v69 main_v70 addi,
    ternary main_v68 main_v70 main_v3 main_v71 select,
    unary main_v71 main_v72 (broadcastInDim S640000x1 ![0] bcast_S640000_S640000x1_0),
    binary main_v66 main_v72 main_v73 (fun x i => Host.gather gather_S50000x128_S640000x1_S640000x128_1_0_n_n_0_1_1128 x i),
    binary main_v61 main_v73 main_v74 mulf,
    nullary main_cst_10 (constant S_ .f32 0x00000000#32),
    unary main_cst_10 main_v75 (broadcastInDim S50000x128 ![] bcast_S_S50000x128),
    unary main_v1 main_v76 (broadcastInDim S640000x1 ![0] bcast_S640000_S640000x1_0),
    ternary main_v75 main_v76 main_v74 main_v77 (fun x i u => Host.scatterAdd scatter_S50000x128_S640000x1_S640000x128_1_0_0_1 x i u),
    unary main_arg3 main_v78 (transpose S128x128 [1, 0] · transposes_S128x128_S128x128_1_0),
    binary main_arg0 main_v78 main_v79 (fun l r => Host.dotGeneral dot_S50000x128_S128x128_S50000x128_1_0_0_1_n_n none l r),
    unary main_arg4 main_v80 (broadcastInDim S1x128 ![1] bcast_S128_S1x128_1),
    unary main_v80 main_v81 (broadcastInDim S50000x128 ![0, 1] bcast_S1x128_S50000x128_0_1),
    binary main_v79 main_v81 main_v82 addf,
    binary main_v82 main_v77 main_v83 addf,
    nullary main_cst_11 (constant S_ .f32 0x00000000#32),
    binary main_v83 main_cst_11 main_v84 (fun x v => Host.reduceAdd x v reducesTo_S50000x128_S128_d0 h_S_),
    nullary main_cst_12 (constant S_ .f32 0x47435000#32),
    unary main_cst_12 main_v85 (broadcastInDim S128 ![] bcast_S_S128),
    binary main_v84 main_v85 main_v86 Host.divf,
    nullary main_c_13 (constantI S_ 32 0#32),
    TRef.nullary main_call2.cst (constant S_ .f32 0x00000000#32),
    TRef.binary (.of main_v83 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v83 : TRef sig ⟨S50000x128, .f32⟩) main_call2.v4 main_call2.v5 subf,
    TRef.binary main_call2.v5 main_call2.v5 main_call2.v6 mulf,
    TRef.unary (.of main_c_13 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v86 main_v88 (broadcastInDim S1x128 ![1] bcast_S128_S1x128_1),
    unary main_v88 main_v89 (broadcastInDim S50000x128 ![0, 1] bcast_S1x128_S50000x128_0_1),
    binary main_v83 main_v89 main_v90 subf,
    unary main_arg13 main_v91 (broadcastInDim S1x128 ![1] bcast_S128_S1x128_1),
    unary main_v91 main_v92 (broadcastInDim S50000x128 ![0, 1] bcast_S1x128_S50000x128_0_1),
    binary main_v92 main_v90 main_v93 mulf,
    nullary main_cst_14 (constant S_ .f32 0x3727C5AC#32),
    unary main_cst_14 main_v94 (broadcastInDim S128 ![] bcast_S_S128),
    binary main_v87 main_v94 main_v95 addf,
    unary main_v95 main_v96 Host.rsqrt,
    unary main_v96 main_v97 (broadcastInDim S1x128 ![1] bcast_S128_S1x128_1),
    unary main_v97 main_v98 (broadcastInDim S50000x128 ![0, 1] bcast_S1x128_S50000x128_0_1),
    binary main_v93 main_v98 main_v99 mulf,
    unary main_arg14 main_v100 (broadcastInDim S1x128 ![1] bcast_S128_S1x128_1),
    unary main_v100 main_v101 (broadcastInDim S50000x128 ![0, 1] bcast_S1x128_S50000x128_0_1),
    binary main_v99 main_v101 main_v102 addf ]

abbrev ops2 : List (HloOp τ sig (Elt F)) :=
  [ TRef.nullary main_call3.cst (constant S_ .f32 0x00000000#32),
    TRef.unary main_call3.cst main_call3.v0 (broadcastInDim S50000x128 ![] bcast_S_S50000x128),
    TRef.binary (.of main_v102 : TRef sig ⟨S50000x128, .f32⟩) main_call3.v0 main_call3.v1 maximumf,
    binary main_arg0 main_v103 main_v104 addf ]

abbrev ops : List (HloOp τ sig (Elt F)) := ops0 ++ (ops1 ++ ops2)

abbrev W0 : List (Ref sig .tc) :=
  [main_v0, main_v1, main_v2, main_v3, main_v4, main_v5, main_v6, main_v7, main_v8, main_v9, main_v10, main_v11, main_v12, main_v13, main_v14, main_v15, main_v16, main_v17, main_v18, main_c, main_v19, main_v20, main_c_0, main_v21, main_v22, main_v23, main_v24, main_v25, main_v26, main_c_1, main_v27, main_v28, main_c_2, main_v29, main_v30, main_v31, main_v32, main_v33, main_v34, main_cst, main_v35, main_cst_3, main_v36, main_v37, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v38, main_v39, main_v40, main_v41, main_v42, main_v43, main_v44, main_cst_5, main_v45, main_v46, main_v47, main_v48, main_v49, main_v50, main_v51]

abbrev W1 : List (Ref sig .tc) :=
  [main_v52, main_v53, main_call1_cst, main_call1_v0, main_v54, main_v55, main_v56, main_v57, main_cst_6, main_v58, main_v59, main_cst_7, main_v60, main_v61, main_v62, main_v63, main_v64, main_v65, main_v66, main_c_8, main_v67, main_v68, main_c_9, main_v69, main_v70, main_v71, main_v72, main_v73, main_v74, main_cst_10, main_v75, main_v76, main_v77, main_v78, main_v79, main_v80, main_v81, main_v82, main_v83, main_cst_11, main_v84, main_cst_12, main_v85, main_v86, main_c_13, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v87, main_v88, main_v89, main_v90, main_v91, main_v92, main_v93, main_cst_14, main_v94, main_v95, main_v96, main_v97, main_v98, main_v99, main_v100, main_v101, main_v102]

abbrev W2 : List (Ref sig .tc) :=
  [main_call3_cst, main_call3_v0, main_v103, main_v104]

abbrev W : List (Ref sig .tc) := W0 ++ (W1 ++ W2)

/-- `op` writes exactly the buffer `w`, mints nothing and touches only the core's buffers. -/
def Wr (op : HloOp τ sig (Elt F)) (w : Ref sig .tc) : Prop :=
  op.writes = {Proc.devRef (τ := τ) .tc w} ∧ op.fresh = ∅ ∧ op.bufs ⊆ tcRefs τ sig

section Builders
variable (x a b c y : Ref sig .tc)

theorem wr_nullary (v : y.ty.Contents (Elt F)) (hy) : Wr (nullary (τ := τ) y v hy) y :=
  ⟨rfl, rfl, nullary_bufs_sub ..⟩
theorem wr_unary (f : x.ty.Contents (Elt F) → y.ty.Contents (Elt F)) (hx hy) : Wr (unary (τ := τ) x y f hx hy) y :=
  ⟨rfl, rfl, unary_bufs_sub ..⟩
theorem wr_binary (f : a.ty.Contents (Elt F) → b.ty.Contents (Elt F) → y.ty.Contents (Elt F)) (ha hb hy) :
    Wr (binary (τ := τ) a b y f ha hb hy) y :=
  ⟨rfl, rfl, binary_bufs_sub ..⟩
theorem wr_ternary (f : c.ty.Contents (Elt F) → a.ty.Contents (Elt F) → b.ty.Contents (Elt F) → y.ty.Contents (Elt F)) (hc ha hb hy) :
    Wr (ternary (τ := τ) c a b y f hc ha hb hy) y :=
  ⟨rfl, rfl, ternary_bufs_sub ..⟩
theorem wr_reshape (he hn hx hy) : Wr (reshape (τ := τ) (Val := Elt F) x y he hn hx hy) y :=
  ⟨rfl, rfl, reshape_bufs_sub ..⟩

end Builders

theorem ops0_wr : List.Forall₂ Wr (ops0 : List (HloOp τ sig (Elt F))) W0 :=
  .cons (wr_unary ..) <|
  .cons (wr_reshape ..) <|
  .cons (wr_unary ..) <|
  .cons (wr_reshape ..) <|
  .cons (wr_unary ..) <|
  .cons (wr_binary ..) <|
  .cons (wr_unary ..) <|
  .cons (wr_unary ..) <|
  .cons (wr_binary ..) <|
  .cons (wr_unary ..) <|
  .cons (wr_binary ..) <|
  .cons (wr_unary ..) <|
  .cons (wr_unary ..) <|
  .cons (wr_binary ..) <|
  .cons (wr_unary ..) <|
  .cons (wr_binary ..) <|
  .cons (wr_unary ..) <|
  .cons (wr_unary ..) <|
  .cons (wr_binary ..) <|
  .cons (wr_nullary ..) <|
  .cons (wr_unary ..) <|
  .cons (wr_binary ..) <|
  .cons (wr_nullary ..) <|
  .cons (wr_unary ..) <|
  .cons (wr_binary ..) <|
  .cons (wr_ternary ..) <|
  .cons (wr_unary ..) <|
  .cons (wr_binary ..) <|
  .cons (wr_binary ..) <|
  .cons (wr_nullary ..) <|
  .cons (wr_unary ..) <|
  .cons (wr_binary ..) <|
  .cons (wr_nullary ..) <|
  .cons (wr_unary ..) <|
  .cons (wr_binary ..) <|
  .cons (wr_ternary ..) <|
  .cons (wr_unary ..) <|
  .cons (wr_binary ..) <|
  .cons (wr_binary ..) <|
  .cons (wr_nullary ..) <|
  .cons (wr_binary ..) <|
  .cons (wr_nullary ..) <|
  .cons (wr_unary ..) <|
  .cons (wr_binary ..) <|
  .cons (wr_nullary ..) <|
  .cons (wr_nullary ..) <|
  .cons (wr_binary ..) <|
  .cons (wr_unary ..) <|
  .cons (wr_nullary ..) <|
  .cons (wr_unary ..) <|
  .cons (wr_binary ..) <|
  .cons (wr_unary ..) <|
  .cons (wr_binary ..) <|
  .cons (wr_binary ..) <|
  .cons (wr_unary ..) <|
  .cons (wr_nullary ..) <|
  .cons (wr_binary ..) <|
  .cons (wr_nullary ..) <|
  .cons (wr_binary ..) <|
  .cons (wr_unary ..) <|
  .cons (wr_binary ..) <|
  .cons (wr_nullary ..) <|
  .cons (wr_binary ..) <|
  .cons (wr_nullary ..) <|
  .cons (wr_unary ..) <|
  .cons (wr_unary ..) <|
  .cons (wr_ternary ..) <|
  .cons (wr_unary ..) <|
  .cons (wr_unary ..) <|
  .cons (wr_binary ..) <|
  .cons (wr_unary ..) <|
  .cons (wr_unary ..) <|
  .cons (wr_binary ..) <|
  .cons (wr_nullary ..) <|
  .cons (wr_unary ..) <|
  .cons (wr_binary ..) <|
  .cons (wr_unary ..) <|
  .cons (wr_unary ..) <|
  .cons (wr_unary ..) <|
  .cons (wr_binary ..) <|
  .cons (wr_unary ..) <|
  .nil

theorem ops1_wr : List.Forall₂ Wr (ops1 : List (HloOp τ sig (Elt F))) W1 :=
  .cons (wr_unary ..) <|
  .cons (wr_binary ..) <|
  .cons (wr_nullary ..) <|
  .cons (wr_unary ..) <|
  .cons (wr_binary ..) <|
  .cons (wr_binary ..) <|
  .cons (wr_unary ..) <|
  .cons (wr_unary ..) <|
  .cons (wr_nullary ..) <|
  .cons (wr_unary ..) <|
  .cons (wr_binary ..) <|
  .cons (wr_nullary ..) <|
  .cons (wr_unary ..) <|
  .cons (wr_binary ..) <|
  .cons (wr_unary ..) <|
  .cons (wr_binary ..) <|
  .cons (wr_unary ..) <|
  .cons (wr_unary ..) <|
  .cons (wr_binary ..) <|
  .cons (wr_nullary ..) <|
  .cons (wr_unary ..) <|
  .cons (wr_binary ..) <|
  .cons (wr_nullary ..) <|
  .cons (wr_unary ..) <|
  .cons (wr_binary ..) <|
  .cons (wr_ternary ..) <|
  .cons (wr_unary ..) <|
  .cons (wr_binary ..) <|
  .cons (wr_binary ..) <|
  .cons (wr_nullary ..) <|
  .cons (wr_unary ..) <|
  .cons (wr_unary ..) <|
  .cons (wr_ternary ..) <|
  .cons (wr_unary ..) <|
  .cons (wr_binary ..) <|
  .cons (wr_unary ..) <|
  .cons (wr_unary ..) <|
  .cons (wr_binary ..) <|
  .cons (wr_binary ..) <|
  .cons (wr_nullary ..) <|
  .cons (wr_binary ..) <|
  .cons (wr_nullary ..) <|
  .cons (wr_unary ..) <|
  .cons (wr_binary ..) <|
  .cons (wr_nullary ..) <|
  .cons (wr_nullary ..) <|
  .cons (wr_binary ..) <|
  .cons (wr_unary ..) <|
  .cons (wr_nullary ..) <|
  .cons (wr_unary ..) <|
  .cons (wr_binary ..) <|
  .cons (wr_unary ..) <|
  .cons (wr_binary ..) <|
  .cons (wr_binary ..) <|
  .cons (wr_unary ..) <|
  .cons (wr_nullary ..) <|
  .cons (wr_binary ..) <|
  .cons (wr_nullary ..) <|
  .cons (wr_binary ..) <|
  .cons (wr_unary ..) <|
  .cons (wr_binary ..) <|
  .cons (wr_nullary ..) <|
  .cons (wr_binary ..) <|
  .cons (wr_nullary ..) <|
  .cons (wr_unary ..) <|
  .cons (wr_unary ..) <|
  .cons (wr_ternary ..) <|
  .cons (wr_unary ..) <|
  .cons (wr_unary ..) <|
  .cons (wr_binary ..) <|
  .cons (wr_unary ..) <|
  .cons (wr_unary ..) <|
  .cons (wr_binary ..) <|
  .cons (wr_nullary ..) <|
  .cons (wr_unary ..) <|
  .cons (wr_binary ..) <|
  .cons (wr_unary ..) <|
  .cons (wr_unary ..) <|
  .cons (wr_unary ..) <|
  .cons (wr_binary ..) <|
  .cons (wr_unary ..) <|
  .cons (wr_unary ..) <|
  .cons (wr_binary ..) <|
  .nil

theorem ops2_wr : List.Forall₂ Wr (ops2 : List (HloOp τ sig (Elt F))) W2 :=
  .cons (wr_nullary ..) <|
  .cons (wr_unary ..) <|
  .cons (wr_binary ..) <|
  .cons (wr_binary ..) <|
  .nil

theorem ops_wr : List.Forall₂ Wr (ops : List (HloOp τ sig (Elt F))) W :=
  List.rel_append ops0_wr (List.rel_append ops1_wr ops2_wr)

section Lists
variable {l : List (HloOp τ sig (Elt F))} {Wl : List (Ref sig .tc)}

theorem wr_mem (h : List.Forall₂ Wr l Wl) : ∀ op ∈ l, ∃ w ∈ Wl, Wr op w := by
  induction h with
  | nil => intro op hop; cases hop
  | cons hw _ ih =>
    intro op hop
    rcases List.mem_cons.mp hop with rfl | hop
    · exact ⟨_, List.mem_cons_self, hw⟩
    · obtain ⟨w, hw', hr⟩ := ih op hop
      exact ⟨w, List.mem_cons_of_mem _ hw', hr⟩

theorem not_written (h : List.Forall₂ Wr l Wl) {r : Ref sig .tc} (hr : r ∉ Wl) :
    ∀ op ∈ l, Proc.devRef (τ := τ) .tc r ∉ op.writes := fun op hop hm => by
  obtain ⟨w, hw, hwr⟩ := wr_mem h op hop
  rw [hwr.1, Finset.mem_singleton] at hm
  exact hr (Proc.devRef_injective _ hm ▸ hw)

theorem after_concat (l₁ l₂ : List (HloOp τ sig (Elt F))) (V : Valuation τ sig (Elt F)) :
    after (l₁ ++ l₂) V = after l₂ (after l₁ V) := by
  induction l₁ generalizing V with
  | nil => rfl
  | cons op l₁ ih => exact ih (op.result V)

/-- A buffer that nothing from the `k`-th operation on writes holds at the end what the first `k` left. -/
theorem after_eq_take (h : List.Forall₂ Wr l Wl) (V : Valuation τ sig (Elt F)) (k : Nat) {r : Ref sig .tc}
    (hr : r ∉ Wl.drop k) :
    after l V (Proc.devRef .tc r) = after (l.take k) V (Proc.devRef .tc r) := by
  conv_lhs => rw [← List.take_append_drop k l, after_concat]
  exact after_of_forall_not_mem _ _ (not_written (List.forall₂_drop k h) hr)

theorem after_take_succ (V : Valuation τ sig (Elt F)) (k : Nat) (hk : k < l.length) :
    after (l.take (k + 1)) V = l[k].result (after (l.take k) V) := by
  rw [List.take_succ_eq_append_getElem hk, after_concat]; rfl

end Lists

theorem part0_eq (c : Dev nD) : main_part0 (F := F) c = seq ops0 := rfl
theorem part1_eq (c : Dev nD) : main_part1 (F := F) c = seq ops1 := rfl
theorem part2_eq (c : Dev nD) : main_part2 (F := F) c = seq ops2 := rfl

theorem main_eq (c : Dev nD) : main (F := F) c = seq ops := by
  rw [show (ops : List (HloOp τ sig (Elt F))) = ops0 ++ (ops1 ++ ops2) from rfl, seq_append, seq_append,
    ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op hop => by
    obtain ⟨_, _, h⟩ := wr_mem ops_wr op hop
    exact h.2.2

theorem ops_fresh : ∀ op ∈ (ops : List (HloOp τ sig (Elt F))), op.fresh = ∅ := fun op hop => by
  obtain ⟨_, _, h⟩ := wr_mem ops_wr op hop
  exact h.2.1

abbrev VR (m : (ℓ : Loc nD τ sig) → Buf (Elt F) ℓ) (c : Dev nD) : Valuation τ sig (Elt F) :=
  after ops (launchContents m c)

/-- Every fair execution of the reference ends with each buffer at the fold of its operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = VR m c (Proc.devRef .tc b) :=
  run_seq scopedRefs_eq scopedSems_eq defs main (fun _ => ops) main_eq (fun _ => ops_sub) m ρ (fun _ => ops_fresh)

variable (m : (ℓ : Loc nD τ sig) → Buf (Elt F) ℓ) (c : Dev nD)

/-- A buffer no operation writes ends at its launch contents. -/
theorem VR_of_not_written {r : Ref sig .tc} (hr : r ∉ W := by decide) :
    VR m c (Proc.devRef .tc r) = m ((c.tc : Thread nD τ).loc r) :=
  after_of_forall_not_mem _ _ (not_written ops_wr hr)

theorem VR_main_arg0 :
    VR m c (Proc.devRef .tc main_arg0) = m ((c.tc : Thread nD τ).loc main_arg0) := VR_of_not_written m c
theorem VR_main_arg1 :
    VR m c (Proc.devRef .tc main_arg1) = m ((c.tc : Thread nD τ).loc main_arg1) := VR_of_not_written m c
theorem VR_main_arg2 :
    VR m c (Proc.devRef .tc main_arg2) = m ((c.tc : Thread nD τ).loc main_arg2) := VR_of_not_written m c
theorem VR_main_arg3 :
    VR m c (Proc.devRef .tc main_arg3) = m ((c.tc : Thread nD τ).loc main_arg3) := VR_of_not_written m c
theorem VR_main_arg4 :
    VR m c (Proc.devRef .tc main_arg4) = m ((c.tc : Thread nD τ).loc main_arg4) := VR_of_not_written m c
theorem VR_main_arg5 :
    VR m c (Proc.devRef .tc main_arg5) = m ((c.tc : Thread nD τ).loc main_arg5) := VR_of_not_written m c
theorem VR_main_arg6 :
    VR m c (Proc.devRef .tc main_arg6) = m ((c.tc : Thread nD τ).loc main_arg6) := VR_of_not_written m c
theorem VR_main_arg7 :
    VR m c (Proc.devRef .tc main_arg7) = m ((c.tc : Thread nD τ).loc main_arg7) := VR_of_not_written m c
theorem VR_main_arg8 :
    VR m c (Proc.devRef .tc main_arg8) = m ((c.tc : Thread nD τ).loc main_arg8) := VR_of_not_written m c
theorem VR_main_arg9 :
    VR m c (Proc.devRef .tc main_arg9) = m ((c.tc : Thread nD τ).loc main_arg9) := VR_of_not_written m c
theorem VR_main_arg10 :
    VR m c (Proc.devRef .tc main_arg10) = m ((c.tc : Thread nD τ).loc main_arg10) := VR_of_not_written m c
theorem VR_main_arg11 :
    VR m c (Proc.devRef .tc main_arg11) = m ((c.tc : Thread nD τ).loc main_arg11) := VR_of_not_written m c
theorem VR_main_arg12 :
    VR m c (Proc.devRef .tc main_arg12) = m ((c.tc : Thread nD τ).loc main_arg12) := VR_of_not_written m c
theorem VR_main_arg13 :
    VR m c (Proc.devRef .tc main_arg13) = m ((c.tc : Thread nD τ).loc main_arg13) := VR_of_not_written m c
theorem VR_main_arg14 :
    VR m c (Proc.devRef .tc main_arg14) = m ((c.tc : Thread nD τ).loc main_arg14) := VR_of_not_written m c
theorem VR_main_arg15 :
    VR m c (Proc.devRef .tc main_arg15) = m ((c.tc : Thread nD τ).loc main_arg15) := VR_of_not_written m c
theorem VR_main_arg16 :
    VR m c (Proc.devRef .tc main_arg16) = m ((c.tc : Thread nD τ).loc main_arg16) := VR_of_not_written m c

end Cert.ReferenceIdeal.Hand

end
-- ==== Proof.Ref.Steps.lean ====
import proofs.«408522_j36180804502137_3_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section Reads
variable {l : List (HloOp τ sig (Elt F))} {Wl : List (Ref sig .tc)} (h : List.Forall₂ Wr l Wl) (V : Valuation τ sig (Elt F)) (k : Nat)
include h

/-- Written once, by the `k`-th operation: the result ends at that operation applied to what the first `k` left. -/
theorem after_eq_result {op : HloOp τ sig (Elt F)} (hop : l[k]? = some op) {y : Ref sig .tc} (hy : y ∉ Wl.drop (k + 1)) :
    after l V (Proc.devRef .tc y) = op.result (after (l.take k) V) (Proc.devRef .tc y) := by
  obtain ⟨hk, e⟩ := List.getElem?_eq_some_iff.mp hop
  rw [after_eq_take h V (k + 1) hy, after_take_succ V k hk, e]

theorem read_nullary {y : Ref sig .tc} {v : y.ty.Contents (Elt F)} {hy} (hop : l[k]? = some (nullary y v hy))
    (hy' : y ∉ Wl.drop (k + 1) := by decide) :
    after l V (Proc.devRef .tc y) = v := by
  rw [after_eq_result h V k hop hy', nullary_result]

theorem read_unary {x y : Ref sig .tc} {f : x.ty.Contents (Elt F) → y.ty.Contents (Elt F)} {hx hy}
    (hop : l[k]? = some (unary x y f hx hy)) (hy' : y ∉ Wl.drop (k + 1) := by decide) (hx' : x ∉ Wl.drop k := by decide) :
    after l V (Proc.devRef .tc y) = f (after l V (Proc.devRef .tc x)) := by
  rw [after_eq_result h V k hop hy', unary_result, after_eq_take h V k hx']

theorem read_binary {a b y : Ref sig .tc} {f : a.ty.Contents (Elt F) → b.ty.Contents (Elt F) → y.ty.Contents (Elt F)} {ha hb hy}
    (hop : l[k]? = some (binary a b y f ha hb hy)) (hy' : y ∉ Wl.drop (k + 1) := by decide)
    (ha' : a ∉ Wl.drop k := by decide) (hb' : b ∉ Wl.drop k := by decide) :
    after l V (Proc.devRef .tc y) = f (after l V (Proc.devRef .tc a)) (after l V (Proc.devRef .tc b)) := by
  rw [after_eq_result h V k hop hy', binary_result, after_eq_take h V k ha', after_eq_take h V k hb']

theorem read_ternary {c a b y : Ref sig .tc}
    {f : c.ty.Contents (Elt F) → a.ty.Contents (Elt F) → b.ty.Contents (Elt F) → y.ty.Contents (Elt F)} {hc ha hb hy}
    (hop : l[k]? = some (ternary c a b y f hc ha hb hy)) (hy' : y ∉ Wl.drop (k + 1) := by decide)
    (hc' : c ∉ Wl.drop k := by decide) (ha' : a ∉ Wl.drop k := by decide) (hb' : b ∉ Wl.drop k := by decide) :
    after l V (Proc.devRef .tc y)
      = f (after l V (Proc.devRef .tc c)) (after l V (Proc.devRef .tc a)) (after l V (Proc.devRef .tc b)) := by
  rw [after_eq_result h V k hop hy', ternary_result, after_eq_take h V k hc', after_eq_take h V k ha', after_eq_take h V k hb']

theorem read_reshape {x y : Ref sig .tc} {he : x.ty.elt = y.ty.elt} {hn : x.ty.shape.ShapeCasts y.ty.shape} {hx hy}
    (hop : l[k]? = some (reshape x y he hn hx hy)) (hy' : y ∉ Wl.drop (k + 1) := by decide) (hx' : x ∉ Wl.drop k := by decide) :
    after l V (Proc.devRef .tc y) = fun i => he ▸ shapeCast y.ty.shape (after l V (Proc.devRef .tc x)) hn i := by
  rw [after_eq_result h V k hop hy', reshape_result, after_eq_take h V k hx']

end Reads

variable (m : (ℓ : Loc nD τ sig) → Buf (Elt F) ℓ) (c : Dev nD)

theorem step_v0 :
    VR m c (Proc.devRef .tc main_v0) = (extractStridedSlice S1x640000 ![0, 0] (VR m c (Proc.devRef .tc main_arg1)) slices_S2x640000_S1x640000_0_0) :=
  read_unary ops_wr _ 0 rfl
theorem step_v1 :
    VR m c (Proc.devRef .tc main_v1) = shapeCast S640000 (VR m c (Proc.devRef .tc main_v0)) shapeCasts_S1x640000_S640000 :=
  read_reshape ops_wr _ 1 rfl
theorem step_v2 :
    VR m c (Proc.devRef .tc main_v2) = (extractStridedSlice S1x640000 ![1, 0] (VR m c (Proc.devRef .tc main_arg1)) slices_S2x640000_S1x640000_1_0) :=
  read_unary ops_wr _ 2 rfl
theorem step_v3 :
    VR m c (Proc.devRef .tc main_v3) = shapeCast S640000 (VR m c (Proc.devRef .tc main_v2)) shapeCasts_S1x640000_S640000 :=
  read_reshape ops_wr _ 3 rfl
theorem step_v4 :
    VR m c (Proc.devRef .tc main_v4) = (transpose S128x128 [1, 0] (VR m c (Proc.devRef .tc main_arg9)) transposes_S128x128_S128x128_1_0) :=
  read_unary ops_wr _ 4 rfl
theorem step_v5 :
    VR m c (Proc.devRef .tc main_v5) = (Host.dotGeneral dot_S50000x128_S128x128_S50000x128_1_0_0_1_n_n none (VR m c (Proc.devRef .tc main_arg0)) (VR m c (Proc.devRef .tc main_v4))) :=
  read_binary ops_wr _ 5 rfl
theorem step_v6 :
    VR m c (Proc.devRef .tc main_v6) = (broadcastInDim S1x128 ![1] bcast_S128_S1x128_1) (VR m c (Proc.devRef .tc main_arg10)) :=
  read_unary ops_wr _ 6 rfl
theorem step_v7 :
    VR m c (Proc.devRef .tc main_v7) = (broadcastInDim S50000x128 ![0, 1] bcast_S1x128_S50000x128_0_1) (VR m c (Proc.devRef .tc main_v6)) :=
  read_unary ops_wr _ 7 rfl
theorem step_v8 :
    VR m c (Proc.devRef .tc main_v8) = addf (VR m c (Proc.devRef .tc main_v5)) (VR m c (Proc.devRef .tc main_v7)) :=
  read_binary ops_wr _ 8 rfl
theorem step_v9 :
    VR m c (Proc.devRef .tc main_v9) = (transpose S128x128 [1, 0] (VR m c (Proc.devRef .tc main_arg11)) transposes_S128x128_S128x128_1_0) :=
  read_unary ops_wr _ 9 rfl
theorem step_v10 :
    VR m c (Proc.devRef .tc main_v10) = (Host.dotGeneral dot_S50000x128_S128x128_S50000x128_1_0_0_1_n_n none (VR m c (Proc.devRef .tc main_arg0)) (VR m c (Proc.devRef .tc main_v9))) :=
  read_binary ops_wr _ 10 rfl
theorem step_v11 :
    VR m c (Proc.devRef .tc main_v11) = (broadcastInDim S1x128 ![1] bcast_S128_S1x128_1) (VR m c (Proc.devRef .tc main_arg12)) :=
  read_unary ops_wr _ 11 rfl
theorem step_v12 :
    VR m c (Proc.devRef .tc main_v12) = (broadcastInDim S50000x128 ![0, 1] bcast_S1x128_S50000x128_0_1) (VR m c (Proc.devRef .tc main_v11)) :=
  read_unary ops_wr _ 12 rfl
theorem step_v13 :
    VR m c (Proc.devRef .tc main_v13) = addf (VR m c (Proc.devRef .tc main_v10)) (VR m c (Proc.devRef .tc main_v12)) :=
  read_binary ops_wr _ 13 rfl
theorem step_v14 :
    VR m c (Proc.devRef .tc main_v14) = (transpose S128x128 [1, 0] (VR m c (Proc.devRef .tc main_arg7)) transposes_S128x128_S128x128_1_0) :=
  read_unary ops_wr _ 14 rfl
theorem step_v15 :
    VR m c (Proc.devRef .tc main_v15) = (Host.dotGeneral dot_S640000x128_S128x128_S640000x128_1_0_0_1_n_n none (VR m c (Proc.devRef .tc main_arg2)) (VR m c (Proc.devRef .tc main_v14))) :=
  read_binary ops_wr _ 15 rfl
theorem step_v16 :
    VR m c (Proc.devRef .tc main_v16) = (broadcastInDim S1x128 ![1] bcast_S128_S1x128_1) (VR m c (Proc.devRef .tc main_arg8)) :=
  read_unary ops_wr _ 16 rfl
theorem step_v17 :
    VR m c (Proc.devRef .tc main_v17) = (broadcastInDim S640000x128 ![0, 1] bcast_S1x128_S640000x128_0_1) (VR m c (Proc.devRef .tc main_v16)) :=
  read_unary ops_wr _ 17 rfl
theorem step_v18 :
    VR m c (Proc.devRef .tc main_v18) = addf (VR m c (Proc.devRef .tc main_v15)) (VR m c (Proc.devRef .tc main_v17)) :=
  read_binary ops_wr _ 18 rfl
theorem step_c :
    VR m c (Proc.devRef .tc main_c) = (constantI S_ 32 0#32) :=
  read_nullary ops_wr _ 19 rfl
theorem step_v19 :
    VR m c (Proc.devRef .tc main_v19) = (broadcastInDim S640000 ![] bcast_S_S640000) (VR m c (Proc.devRef .tc main_c)) :=
  read_unary ops_wr _ 20 rfl
theorem step_v20 :
    VR m c (Proc.devRef .tc main_v20) = (cmpi .slt) (VR m c (Proc.devRef .tc main_v1)) (VR m c (Proc.devRef .tc main_v19)) :=
  read_binary ops_wr _ 21 rfl
theorem step_c_0 :
    VR m c (Proc.devRef .tc main_c_0) = (constantI S_ 32 50000#32) :=
  read_nullary ops_wr _ 22 rfl
theorem step_v21 :
    VR m c (Proc.devRef .tc main_v21) = (broadcastInDim S640000 ![] bcast_S_S640000) (VR m c (Proc.devRef .tc main_c_0)) :=
  read_unary ops_wr _ 23 rfl
theorem step_v22 :
    VR m c (Proc.devRef .tc main_v22) = addi (VR m c (Proc.devRef .tc main_v1)) (VR m c (Proc.devRef .tc main_v21)) :=
  read_binary ops_wr _ 24 rfl
theorem step_v23 :
    VR m c (Proc.devRef .tc main_v23) = select (VR m c (Proc.devRef .tc main_v20)) (VR m c (Proc.devRef .tc main_v22)) (VR m c (Proc.devRef .tc main_v1)) :=
  read_ternary ops_wr _ 25 rfl
theorem step_v24 :
    VR m c (Proc.devRef .tc main_v24) = (broadcastInDim S640000x1 ![0] bcast_S640000_S640000x1_0) (VR m c (Proc.devRef .tc main_v23)) :=
  read_unary ops_wr _ 26 rfl
theorem step_v25 :
    VR m c (Proc.devRef .tc main_v25) = (Host.gather gather_S50000x128_S640000x1_S640000x128_1_0_n_n_0_1_1128 (VR m c (Proc.devRef .tc main_v8)) (VR m c (Proc.devRef .tc main_v24))) :=
  read_binary ops_wr _ 27 rfl
theorem step_v26 :
    VR m c (Proc.devRef .tc main_v26) = addf (VR m c (Proc.devRef .tc main_v18)) (VR m c (Proc.devRef .tc main_v25)) :=
  read_binary ops_wr _ 28 rfl
theorem step_c_1 :
    VR m c (Proc.devRef .tc main_c_1) = (constantI S_ 32 0#32) :=
  read_nullary ops_wr _ 29 rfl
theorem step_v27 :
    VR m c (Proc.devRef .tc main_v27) = (broadcastInDim S640000 ![] bcast_S_S640000) (VR m c (Proc.devRef .tc main_c_1)) :=
  read_unary ops_wr _ 30 rfl
theorem step_v28 :
    VR m c (Proc.devRef .tc main_v28) = (cmpi .slt) (VR m c (Proc.devRef .tc main_v3)) (VR m c (Proc.devRef .tc main_v27)) :=
  read_binary ops_wr _ 31 rfl
theorem step_c_2 :
    VR m c (Proc.devRef .tc main_c_2) = (constantI S_ 32 50000#32) :=
  read_nullary ops_wr _ 32 rfl
theorem step_v29 :
    VR m c (Proc.devRef .tc main_v29) = (broadcastInDim S640000 ![] bcast_S_S640000) (VR m c (Proc.devRef .tc main_c_2)) :=
  read_unary ops_wr _ 33 rfl
theorem step_v30 :
    VR m c (Proc.devRef .tc main_v30) = addi (VR m c (Proc.devRef .tc main_v3)) (VR m c (Proc.devRef .tc main_v29)) :=
  read_binary ops_wr _ 34 rfl
theorem step_v31 :
    VR m c (Proc.devRef .tc main_v31) = select (VR m c (Proc.devRef .tc main_v28)) (VR m c (Proc.devRef .tc main_v30)) (VR m c (Proc.devRef .tc main_v3)) :=
  read_ternary ops_wr _ 35 rfl
theorem step_v32 :
    VR m c (Proc.devRef .tc main_v32) = (broadcastInDim S640000x1 ![0] bcast_S640000_S640000x1_0) (VR m c (Proc.devRef .tc main_v31)) :=
  read_unary ops_wr _ 36 rfl
theorem step_v33 :
    VR m c (Proc.devRef .tc main_v33) = (Host.gather gather_S50000x128_S640000x1_S640000x128_1_0_n_n_0_1_1128 (VR m c (Proc.devRef .tc main_v13)) (VR m c (Proc.devRef .tc main_v32))) :=
  read_binary ops_wr _ 37 rfl
theorem step_v34 :
    VR m c (Proc.devRef .tc main_v34) = addf (VR m c (Proc.devRef .tc main_v26)) (VR m c (Proc.devRef .tc main_v33)) :=
  read_binary ops_wr _ 38 rfl
theorem step_cst :
    VR m c (Proc.devRef .tc main_cst) = (constant S_ .f32 0x00000000#32) :=
  read_nullary ops_wr _ 39 rfl
theorem step_v35 :
    VR m c (Proc.devRef .tc main_v35) = (Host.reduceAdd (VR m c (Proc.devRef .tc main_v34)) (VR m c (Proc.devRef .tc main_cst)) reducesTo_S640000x128_S128_d0 h_S_) :=
  read_binary ops_wr _ 40 rfl
theorem step_cst_3 :
    VR m c (Proc.devRef .tc main_cst_3) = (constant S_ .f32 0x491C4000#32) :=
  read_nullary ops_wr _ 41 rfl
theorem step_v36 :
    VR m c (Proc.devRef .tc main_v36) = (broadcastInDim S128 ![] bcast_S_S128) (VR m c (Proc.devRef .tc main_cst_3)) :=
  read_unary ops_wr _ 42 rfl
theorem step_v37 :
    VR m c (Proc.devRef .tc main_v37) = Host.divf (VR m c (Proc.devRef .tc main_v35)) (VR m c (Proc.devRef .tc main_v36)) :=
  read_binary ops_wr _ 43 rfl
theorem step_c_4 :
    VR m c (Proc.devRef .tc main_c_4) = (constantI S_ 32 0#32) :=
  read_nullary ops_wr _ 44 rfl
theorem step_call0_cst :
    VR m c (Proc.devRef .tc main_call0_cst) = (constant S_ .f32 0x00000000#32) :=
  read_nullary ops_wr _ 45 rfl
theorem step_call0_v0 :
    VR m c (Proc.devRef .tc main_call0_v0) = (Host.reduceAdd (VR m c (Proc.devRef .tc main_v34)) (VR m c (Proc.devRef .tc main_call0_cst)) reducesTo_S640000x128_S128_d0 h_S_) :=
  read_binary ops_wr _ 46 rfl
theorem step_call0_v1 :
    VR m c (Proc.devRef .tc main_call0_v1) = (broadcastInDim S1x128 ![1] bcast_S128_S1x128_1) (VR m c (Proc.devRef .tc main_call0_v0)) :=
  read_unary ops_wr _ 47 rfl
theorem step_call0_cst_0 :
    VR m c (Proc.devRef .tc main_call0_cst_0) = (constant S_ .f32 0x491C4000#32) :=
  read_nullary ops_wr _ 48 rfl
theorem step_call0_v2 :
    VR m c (Proc.devRef .tc main_call0_v2) = (broadcastInDim S1x128 ![] bcast_S_S1x128) (VR m c (Proc.devRef .tc main_call0_cst_0)) :=
  read_unary ops_wr _ 49 rfl
theorem step_call0_v3 :
    VR m c (Proc.devRef .tc main_call0_v3) = Host.divf (VR m c (Proc.devRef .tc main_call0_v1)) (VR m c (Proc.devRef .tc main_call0_v2)) :=
  read_binary ops_wr _ 50 rfl
theorem step_call0_v4 :
    VR m c (Proc.devRef .tc main_call0_v4) = (broadcastInDim S640000x128 ![0, 1] bcast_S1x128_S640000x128_0_1) (VR m c (Proc.devRef .tc main_call0_v3)) :=
  read_unary ops_wr _ 51 rfl
theorem step_call0_v5 :
    VR m c (Proc.devRef .tc main_call0_v5) = subf (VR m c (Proc.devRef .tc main_v34)) (VR m c (Proc.devRef .tc main_call0_v4)) :=
  read_binary ops_wr _ 52 rfl
theorem step_call0_v6 :
    VR m c (Proc.devRef .tc main_call0_v6) = mulf (VR m c (Proc.devRef .tc main_call0_v5)) (VR m c (Proc.devRef .tc main_call0_v5)) :=
  read_binary ops_wr _ 53 rfl
theorem step_call0_v7 :
    VR m c (Proc.devRef .tc main_call0_v7) = (sitofp .f32) (VR m c (Proc.devRef .tc main_c_4)) :=
  read_unary ops_wr _ 54 rfl
theorem step_call0_cst_1 :
    VR m c (Proc.devRef .tc main_call0_cst_1) = (constant S_ .f32 0x491C4000#32) :=
  read_nullary ops_wr _ 55 rfl
theorem step_call0_v8 :
    VR m c (Proc.devRef .tc main_call0_v8) = subf (VR m c (Proc.devRef .tc main_call0_cst_1)) (VR m c (Proc.devRef .tc main_call0_v7)) :=
  read_binary ops_wr _ 56 rfl
theorem step_call0_cst_2 :
    VR m c (Proc.devRef .tc main_call0_cst_2) = (constant S_ .f32 0x00000000#32) :=
  read_nullary ops_wr _ 57 rfl
theorem step_call0_v9 :
    VR m c (Proc.devRef .tc main_call0_v9) = (Host.reduceAdd (VR m c (Proc.devRef .tc main_call0_v6)) (VR m c (Proc.devRef .tc main_call0_cst_2)) reducesTo_S640000x128_S128_d0 h_S_) :=
  read_binary ops_wr _ 58 rfl
theorem step_call0_v10 :
    VR m c (Proc.devRef .tc main_call0_v10) = (broadcastInDim S128 ![] bcast_S_S128) (VR m c (Proc.devRef .tc main_call0_v8)) :=
  read_unary ops_wr _ 59 rfl
theorem step_call0_v11 :
    VR m c (Proc.devRef .tc main_call0_v11) = Host.divf (VR m c (Proc.devRef .tc main_call0_v9)) (VR m c (Proc.devRef .tc main_call0_v10)) :=
  read_binary ops_wr _ 60 rfl
theorem step_call0_cst_3 :
    VR m c (Proc.devRef .tc main_call0_cst_3) = (constant S_ .f32 0x00000000#32) :=
  read_nullary ops_wr _ 61 rfl
theorem step_call0_v12 :
    VR m c (Proc.devRef .tc main_call0_v12) = (cmpf .ogt) (VR m c (Proc.devRef .tc main_call0_v8)) (VR m c (Proc.devRef .tc main_call0_cst_3)) :=
  read_binary ops_wr _ 62 rfl
theorem step_call0_cst_4 :
    VR m c (Proc.devRef .tc main_call0_cst_4) = (constant S_ .f32 0x7FC00000#32) :=
  read_nullary ops_wr _ 63 rfl
theorem step_call0_call0_v0 :
    VR m c (Proc.devRef .tc main_call0_call0_v0) = (VR m c (Proc.devRef .tc main_call0_cst_4)) :=
  read_unary ops_wr _ 64 (x := main_call0_cst_4) (y := main_call0_call0_v0) (f := (id : (⟨S_, .f32⟩ : BufTy).Contents (Elt F) → (⟨S_, .f32⟩ : BufTy).Contents (Elt F))) rfl
theorem step_call0_call0_v1 :
    VR m c (Proc.devRef .tc main_call0_call0_v1) = (broadcastInDim S128 ![] bcast_S_S128) (VR m c (Proc.devRef .tc main_call0_call0_v0)) :=
  read_unary ops_wr _ 65 rfl
theorem step_v38 :
    VR m c (Proc.devRef .tc main_v38) = (select (broadcastInDim S128 ![] bcast_S_S128 (VR m c (Proc.devRef .tc main_call0_v12))) (VR m c (Proc.devRef .tc main_call0_v11)) (VR m c (Proc.devRef .tc main_call0_call0_v1))) :=
  read_ternary ops_wr _ 66 rfl
theorem step_v39 :
    VR m c (Proc.devRef .tc main_v39) = (broadcastInDim S1x128 ![1] bcast_S128_S1x128_1) (VR m c (Proc.devRef .tc main_v37)) :=
  read_unary ops_wr _ 67 rfl
theorem step_v40 :
    VR m c (Proc.devRef .tc main_v40) = (broadcastInDim S640000x128 ![0, 1] bcast_S1x128_S640000x128_0_1) (VR m c (Proc.devRef .tc main_v39)) :=
  read_unary ops_wr _ 68 rfl
theorem step_v41 :
    VR m c (Proc.devRef .tc main_v41) = subf (VR m c (Proc.devRef .tc main_v34)) (VR m c (Proc.devRef .tc main_v40)) :=
  read_binary ops_wr _ 69 rfl
theorem step_v42 :
    VR m c (Proc.devRef .tc main_v42) = (broadcastInDim S1x128 ![1] bcast_S128_S1x128_1) (VR m c (Proc.devRef .tc main_arg15)) :=
  read_unary ops_wr _ 70 rfl
theorem step_v43 :
    VR m c (Proc.devRef .tc main_v43) = (broadcastInDim S640000x128 ![0, 1] bcast_S1x128_S640000x128_0_1) (VR m c (Proc.devRef .tc main_v42)) :=
  read_unary ops_wr _ 71 rfl
theorem step_v44 :
    VR m c (Proc.devRef .tc main_v44) = mulf (VR m c (Proc.devRef .tc main_v43)) (VR m c (Proc.devRef .tc main_v41)) :=
  read_binary ops_wr _ 72 rfl
theorem step_cst_5 :
    VR m c (Proc.devRef .tc main_cst_5) = (constant S_ .f32 0x3727C5AC#32) :=
  read_nullary ops_wr _ 73 rfl
theorem step_v45 :
    VR m c (Proc.devRef .tc main_v45) = (broadcastInDim S128 ![] bcast_S_S128) (VR m c (Proc.devRef .tc main_cst_5)) :=
  read_unary ops_wr _ 74 rfl
theorem step_v46 :
    VR m c (Proc.devRef .tc main_v46) = addf (VR m c (Proc.devRef .tc main_v38)) (VR m c (Proc.devRef .tc main_v45)) :=
  read_binary ops_wr _ 75 rfl
theorem step_v47 :
    VR m c (Proc.devRef .tc main_v47) = Host.rsqrt (VR m c (Proc.devRef .tc main_v46)) :=
  read_unary ops_wr _ 76 rfl
theorem step_v48 :
    VR m c (Proc.devRef .tc main_v48) = (broadcastInDim S1x128 ![1] bcast_S128_S1x128_1) (VR m c (Proc.devRef .tc main_v47)) :=
  read_unary ops_wr _ 77 rfl
theorem step_v49 :
    VR m c (Proc.devRef .tc main_v49) = (broadcastInDim S640000x128 ![0, 1] bcast_S1x128_S640000x128_0_1) (VR m c (Proc.devRef .tc main_v48)) :=
  read_unary ops_wr _ 78 rfl
theorem step_v50 :
    VR m c (Proc.devRef .tc main_v50) = mulf (VR m c (Proc.devRef .tc main_v44)) (VR m c (Proc.devRef .tc main_v49)) :=
  read_binary ops_wr _ 79 rfl
theorem step_v51 :
    VR m c (Proc.devRef .tc main_v51) = (broadcastInDim S1x128 ![1] bcast_S128_S1x128_1) (VR m c (Proc.devRef .tc main_arg16)) :=
  read_unary ops_wr _ 80 rfl
theorem step_v52 :
    VR m c (Proc.devRef .tc main_v52) = (broadcastInDim S640000x128 ![0, 1] bcast_S1x128_S640000x128_0_1) (VR m c (Proc.devRef .tc main_v51)) :=
  read_unary ops_wr _ 81 rfl
theorem step_v53 :
    VR m c (Proc.devRef .tc main_v53) = addf (VR m c (Proc.devRef .tc main_v50)) (VR m c (Proc.devRef .tc main_v52)) :=
  read_binary ops_wr _ 82 rfl
theorem step_call1_cst :
    VR m c (Proc.devRef .tc main_call1_cst) = (constant S_ .f32 0x00000000#32) :=
  read_nullary ops_wr _ 83 rfl
theorem step_call1_v0 :
    VR m c (Proc.devRef .tc main_call1_v0) = (broadcastInDim S640000x128 ![] bcast_S_S640000x128) (VR m c (Proc.devRef .tc main_call1_cst)) :=
  read_unary ops_wr _ 84 rfl
theorem step_v54 :
    VR m c (Proc.devRef .tc main_v54) = maximumf (VR m c (Proc.devRef .tc main_v53)) (VR m c (Proc.devRef .tc main_call1_v0)) :=
  read_binary ops_wr _ 85 rfl
theorem step_v55 :
    VR m c (Proc.devRef .tc main_v55) = addf (VR m c (Proc.devRef .tc main_arg2)) (VR m c (Proc.devRef .tc main_v54)) :=
  read_binary ops_wr _ 86 rfl
theorem step_v56 :
    VR m c (Proc.devRef .tc main_v56) = Host.negf (VR m c (Proc.devRef .tc main_v55)) :=
  read_unary ops_wr _ 87 rfl
theorem step_v57 :
    VR m c (Proc.devRef .tc main_v57) = Host.exp (VR m c (Proc.devRef .tc main_v56)) :=
  read_unary ops_wr _ 88 rfl
theorem step_cst_6 :
    VR m c (Proc.devRef .tc main_cst_6) = (constant S_ .f32 0x3F800000#32) :=
  read_nullary ops_wr _ 89 rfl
theorem step_v58 :
    VR m c (Proc.devRef .tc main_v58) = (broadcastInDim S640000x128 ![] bcast_S_S640000x128) (VR m c (Proc.devRef .tc main_cst_6)) :=
  read_unary ops_wr _ 90 rfl
theorem step_v59 :
    VR m c (Proc.devRef .tc main_v59) = addf (VR m c (Proc.devRef .tc main_v58)) (VR m c (Proc.devRef .tc main_v57)) :=
  read_binary ops_wr _ 91 rfl
theorem step_cst_7 :
    VR m c (Proc.devRef .tc main_cst_7) = (constant S_ .f32 0x3F800000#32) :=
  read_nullary ops_wr _ 92 rfl
theorem step_v60 :
    VR m c (Proc.devRef .tc main_v60) = (broadcastInDim S640000x128 ![] bcast_S_S640000x128) (VR m c (Proc.devRef .tc main_cst_7)) :=
  read_unary ops_wr _ 93 rfl
theorem step_v61 :
    VR m c (Proc.devRef .tc main_v61) = Host.divf (VR m c (Proc.devRef .tc main_v60)) (VR m c (Proc.devRef .tc main_v59)) :=
  read_binary ops_wr _ 94 rfl
theorem step_v62 :
    VR m c (Proc.devRef .tc main_v62) = (transpose S128x128 [1, 0] (VR m c (Proc.devRef .tc main_arg5)) transposes_S128x128_S128x128_1_0) :=
  read_unary ops_wr _ 95 rfl
theorem step_v63 :
    VR m c (Proc.devRef .tc main_v63) = (Host.dotGeneral dot_S50000x128_S128x128_S50000x128_1_0_0_1_n_n none (VR m c (Proc.devRef .tc main_arg0)) (VR m c (Proc.devRef .tc main_v62))) :=
  read_binary ops_wr _ 96 rfl
theorem step_v64 :
    VR m c (Proc.devRef .tc main_v64) = (broadcastInDim S1x128 ![1] bcast_S128_S1x128_1) (VR m c (Proc.devRef .tc main_arg6)) :=
  read_unary ops_wr _ 97 rfl
theorem step_v65 :
    VR m c (Proc.devRef .tc main_v65) = (broadcastInDim S50000x128 ![0, 1] bcast_S1x128_S50000x128_0_1) (VR m c (Proc.devRef .tc main_v64)) :=
  read_unary ops_wr _ 98 rfl
theorem step_v66 :
    VR m c (Proc.devRef .tc main_v66) = addf (VR m c (Proc.devRef .tc main_v63)) (VR m c (Proc.devRef .tc main_v65)) :=
  read_binary ops_wr _ 99 rfl
theorem step_c_8 :
    VR m c (Proc.devRef .tc main_c_8) = (constantI S_ 32 0#32) :=
  read_nullary ops_wr _ 100 rfl
theorem step_v67 :
    VR m c (Proc.devRef .tc main_v67) = (broadcastInDim S640000 ![] bcast_S_S640000) (VR m c (Proc.devRef .tc main_c_8)) :=
  read_unary ops_wr _ 101 rfl
theorem step_v68 :
    VR m c (Proc.devRef .tc main_v68) = (cmpi .slt) (VR m c (Proc.devRef .tc main_v3)) (VR m c (Proc.devRef .tc main_v67)) :=
  read_binary ops_wr _ 102 rfl
theorem step_c_9 :
    VR m c (Proc.devRef .tc main_c_9) = (constantI S_ 32 50000#32) :=
  read_nullary ops_wr _ 103 rfl
theorem step_v69 :
    VR m c (Proc.devRef .tc main_v69) = (broadcastInDim S640000 ![] bcast_S_S640000) (VR m c (Proc.devRef .tc main_c_9)) :=
  read_unary ops_wr _ 104 rfl
theorem step_v70 :
    VR m c (Proc.devRef .tc main_v70) = addi (VR m c (Proc.devRef .tc main_v3)) (VR m c (Proc.devRef .tc main_v69)) :=
  read_binary ops_wr _ 105 rfl
theorem step_v71 :
    VR m c (Proc.devRef .tc main_v71) = select (VR m c (Proc.devRef .tc main_v68)) (VR m c (Proc.devRef .tc main_v70)) (VR m c (Proc.devRef .tc main_v3)) :=
  read_ternary ops_wr _ 106 rfl
theorem step_v72 :
    VR m c (Proc.devRef .tc main_v72) = (broadcastInDim S640000x1 ![0] bcast_S640000_S640000x1_0) (VR m c (Proc.devRef .tc main_v71)) :=
  read_unary ops_wr _ 107 rfl
theorem step_v73 :
    VR m c (Proc.devRef .tc main_v73) = (Host.gather gather_S50000x128_S640000x1_S640000x128_1_0_n_n_0_1_1128 (VR m c (Proc.devRef .tc main_v66)) (VR m c (Proc.devRef .tc main_v72))) :=
  read_binary ops_wr _ 108 rfl
theorem step_v74 :
    VR m c (Proc.devRef .tc main_v74) = mulf (VR m c (Proc.devRef .tc main_v61)) (VR m c (Proc.devRef .tc main_v73)) :=
  read_binary ops_wr _ 109 rfl
theorem step_cst_10 :
    VR m c (Proc.devRef .tc main_cst_10) = (constant S_ .f32 0x00000000#32) :=
  read_nullary ops_wr _ 110 rfl
theorem step_v75 :
    VR m c (Proc.devRef .tc main_v75) = (broadcastInDim S50000x128 ![] bcast_S_S50000x128) (VR m c (Proc.devRef .tc main_cst_10)) :=
  read_unary ops_wr _ 111 rfl
theorem step_v76 :
    VR m c (Proc.devRef .tc main_v76) = (broadcastInDim S640000x1 ![0] bcast_S640000_S640000x1_0) (VR m c (Proc.devRef .tc main_v1)) :=
  read_unary ops_wr _ 112 rfl
theorem step_v77 :
    VR m c (Proc.devRef .tc main_v77) = (Host.scatterAdd scatter_S50000x128_S640000x1_S640000x128_1_0_0_1 (VR m c (Proc.devRef .tc main_v75)) (VR m c (Proc.devRef .tc main_v76)) (VR m c (Proc.devRef .tc main_v74))) :=
  read_ternary ops_wr _ 113 rfl
theorem step_v78 :
    VR m c (Proc.devRef .tc main_v78) = (transpose S128x128 [1, 0] (VR m c (Proc.devRef .tc main_arg3)) transposes_S128x128_S128x128_1_0) :=
  read_unary ops_wr _ 114 rfl
theorem step_v79 :
    VR m c (Proc.devRef .tc main_v79) = (Host.dotGeneral dot_S50000x128_S128x128_S50000x128_1_0_0_1_n_n none (VR m c (Proc.devRef .tc main_arg0)) (VR m c (Proc.devRef .tc main_v78))) :=
  read_binary ops_wr _ 115 rfl
theorem step_v80 :
    VR m c (Proc.devRef .tc main_v80) = (broadcastInDim S1x128 ![1] bcast_S128_S1x128_1) (VR m c (Proc.devRef .tc main_arg4)) :=
  read_unary ops_wr _ 116 rfl
theorem step_v81 :
    VR m c (Proc.devRef .tc main_v81) = (broadcastInDim S50000x128 ![0, 1] bcast_S1x128_S50000x128_0_1) (VR m c (Proc.devRef .tc main_v80)) :=
  read_unary ops_wr _ 117 rfl
theorem step_v82 :
    VR m c (Proc.devRef .tc main_v82) = addf (VR m c (Proc.devRef .tc main_v79)) (VR m c (Proc.devRef .tc main_v81)) :=
  read_binary ops_wr _ 118 rfl
theorem step_v83 :
    VR m c (Proc.devRef .tc main_v83) = addf (VR m c (Proc.devRef .tc main_v82)) (VR m c (Proc.devRef .tc main_v77)) :=
  read_binary ops_wr _ 119 rfl
theorem step_cst_11 :
    VR m c (Proc.devRef .tc main_cst_11) = (constant S_ .f32 0x00000000#32) :=
  read_nullary ops_wr _ 120 rfl
theorem step_v84 :
    VR m c (Proc.devRef .tc main_v84) = (Host.reduceAdd (VR m c (Proc.devRef .tc main_v83)) (VR m c (Proc.devRef .tc main_cst_11)) reducesTo_S50000x128_S128_d0 h_S_) :=
  read_binary ops_wr _ 121 rfl
theorem step_cst_12 :
    VR m c (Proc.devRef .tc main_cst_12) = (constant S_ .f32 0x47435000#32) :=
  read_nullary ops_wr _ 122 rfl
theorem step_v85 :
    VR m c (Proc.devRef .tc main_v85) = (broadcastInDim S128 ![] bcast_S_S128) (VR m c (Proc.devRef .tc main_cst_12)) :=
  read_unary ops_wr _ 123 rfl
theorem step_v86 :
    VR m c (Proc.devRef .tc main_v86) = Host.divf (VR m c (Proc.devRef .tc main_v84)) (VR m c (Proc.devRef .tc main_v85)) :=
  read_binary ops_wr _ 124 rfl
theorem step_c_13 :
    VR m c (Proc.devRef .tc main_c_13) = (constantI S_ 32 0#32) :=
  read_nullary ops_wr _ 125 rfl
theorem step_call2_cst :
    VR m c (Proc.devRef .tc main_call2_cst) = (constant S_ .f32 0x00000000#32) :=
  read_nullary ops_wr _ 126 rfl
theorem step_call2_v0 :
    VR m c (Proc.devRef .tc main_call2_v0) = (Host.reduceAdd (VR m c (Proc.devRef .tc main_v83)) (VR m c (Proc.devRef .tc main_call2_cst)) reducesTo_S50000x128_S128_d0 h_S_) :=
  read_binary ops_wr _ 127 rfl
theorem step_call2_v1 :
    VR m c (Proc.devRef .tc main_call2_v1) = (broadcastInDim S1x128 ![1] bcast_S128_S1x128_1) (VR m c (Proc.devRef .tc main_call2_v0)) :=
  read_unary ops_wr _ 128 rfl
theorem step_call2_cst_0 :
    VR m c (Proc.devRef .tc main_call2_cst_0) = (constant S_ .f32 0x47435000#32) :=
  read_nullary ops_wr _ 129 rfl
theorem step_call2_v2 :
    VR m c (Proc.devRef .tc main_call2_v2) = (broadcastInDim S1x128 ![] bcast_S_S1x128) (VR m c (Proc.devRef .tc main_call2_cst_0)) :=
  read_unary ops_wr _ 130 rfl
theorem step_call2_v3 :
    VR m c (Proc.devRef .tc main_call2_v3) = Host.divf (VR m c (Proc.devRef .tc main_call2_v1)) (VR m c (Proc.devRef .tc main_call2_v2)) :=
  read_binary ops_wr _ 131 rfl
theorem step_call2_v4 :
    VR m c (Proc.devRef .tc main_call2_v4) = (broadcastInDim S50000x128 ![0, 1] bcast_S1x128_S50000x128_0_1) (VR m c (Proc.devRef .tc main_call2_v3)) :=
  read_unary ops_wr _ 132 rfl
theorem step_call2_v5 :
    VR m c (Proc.devRef .tc main_call2_v5) = subf (VR m c (Proc.devRef .tc main_v83)) (VR m c (Proc.devRef .tc main_call2_v4)) :=
  read_binary ops_wr _ 133 rfl
theorem step_call2_v6 :
    VR m c (Proc.devRef .tc main_call2_v6) = mulf (VR m c (Proc.devRef .tc main_call2_v5)) (VR m c (Proc.devRef .tc main_call2_v5)) :=
  read_binary ops_wr _ 134 rfl
theorem step_call2_v7 :
    VR m c (Proc.devRef .tc main_call2_v7) = (sitofp .f32) (VR m c (Proc.devRef .tc main_c_13)) :=
  read_unary ops_wr _ 135 rfl
theorem step_call2_cst_1 :
    VR m c (Proc.devRef .tc main_call2_cst_1) = (constant S_ .f32 0x47435000#32) :=
  read_nullary ops_wr _ 136 rfl
theorem step_call2_v8 :
    VR m c (Proc.devRef .tc main_call2_v8) = subf (VR m c (Proc.devRef .tc main_call2_cst_1)) (VR m c (Proc.devRef .tc main_call2_v7)) :=
  read_binary ops_wr _ 137 rfl
theorem step_call2_cst_2 :
    VR m c (Proc.devRef .tc main_call2_cst_2) = (constant S_ .f32 0x00000000#32) :=
  read_nullary ops_wr _ 138 rfl
theorem step_call2_v9 :
    VR m c (Proc.devRef .tc main_call2_v9) = (Host.reduceAdd (VR m c (Proc.devRef .tc main_call2_v6)) (VR m c (Proc.devRef .tc main_call2_cst_2)) reducesTo_S50000x128_S128_d0 h_S_) :=
  read_binary ops_wr _ 139 rfl
theorem step_call2_v10 :
    VR m c (Proc.devRef .tc main_call2_v10) = (broadcastInDim S128 ![] bcast_S_S128) (VR m c (Proc.devRef .tc main_call2_v8)) :=
  read_unary ops_wr _ 140 rfl
theorem step_call2_v11 :
    VR m c (Proc.devRef .tc main_call2_v11) = Host.divf (VR m c (Proc.devRef .tc main_call2_v9)) (VR m c (Proc.devRef .tc main_call2_v10)) :=
  read_binary ops_wr _ 141 rfl
theorem step_call2_cst_3 :
    VR m c (Proc.devRef .tc main_call2_cst_3) = (constant S_ .f32 0x00000000#32) :=
  read_nullary ops_wr _ 142 rfl
theorem step_call2_v12 :
    VR m c (Proc.devRef .tc main_call2_v12) = (cmpf .ogt) (VR m c (Proc.devRef .tc main_call2_v8)) (VR m c (Proc.devRef .tc main_call2_cst_3)) :=
  read_binary ops_wr _ 143 rfl
theorem step_call2_cst_4 :
    VR m c (Proc.devRef .tc main_call2_cst_4) = (constant S_ .f32 0x7FC00000#32) :=
  read_nullary ops_wr _ 144 rfl
theorem step_call2_call0_v0 :
    VR m c (Proc.devRef .tc main_call2_call0_v0) = (VR m c (Proc.devRef .tc main_call2_cst_4)) :=
  read_unary ops_wr _ 145 (x := main_call2_cst_4) (y := main_call2_call0_v0) (f := (id : (⟨S_, .f32⟩ : BufTy).Contents (Elt F) → (⟨S_, .f32⟩ : BufTy).Contents (Elt F))) rfl
theorem step_call2_call0_v1 :
    VR m c (Proc.devRef .tc main_call2_call0_v1) = (broadcastInDim S128 ![] bcast_S_S128) (VR m c (Proc.devRef .tc main_call2_call0_v0)) :=
  read_unary ops_wr _ 146 rfl
theorem step_v87 :
    VR m c (Proc.devRef .tc main_v87) = (select (broadcastInDim S128 ![] bcast_S_S128 (VR m c (Proc.devRef .tc main_call2_v12))) (VR m c (Proc.devRef .tc main_call2_v11)) (VR m c (Proc.devRef .tc main_call2_call0_v1))) :=
  read_ternary ops_wr _ 147 rfl
theorem step_v88 :
    VR m c (Proc.devRef .tc main_v88) = (broadcastInDim S1x128 ![1] bcast_S128_S1x128_1) (VR m c (Proc.devRef .tc main_v86)) :=
  read_unary ops_wr _ 148 rfl
theorem step_v89 :
    VR m c (Proc.devRef .tc main_v89) = (broadcastInDim S50000x128 ![0, 1] bcast_S1x128_S50000x128_0_1) (VR m c (Proc.devRef .tc main_v88)) :=
  read_unary ops_wr _ 149 rfl
theorem step_v90 :
    VR m c (Proc.devRef .tc main_v90) = subf (VR m c (Proc.devRef .tc main_v83)) (VR m c (Proc.devRef .tc main_v89)) :=
  read_binary ops_wr _ 150 rfl
theorem step_v91 :
    VR m c (Proc.devRef .tc main_v91) = (broadcastInDim S1x128 ![1] bcast_S128_S1x128_1) (VR m c (Proc.devRef .tc main_arg13)) :=
  read_unary ops_wr _ 151 rfl
theorem step_v92 :
    VR m c (Proc.devRef .tc main_v92) = (broadcastInDim S50000x128 ![0, 1] bcast_S1x128_S50000x128_0_1) (VR m c (Proc.devRef .tc main_v91)) :=
  read_unary ops_wr _ 152 rfl
theorem step_v93 :
    VR m c (Proc.devRef .tc main_v93) = mulf (VR m c (Proc.devRef .tc main_v92)) (VR m c (Proc.devRef .tc main_v90)) :=
  read_binary ops_wr _ 153 rfl
theorem step_cst_14 :
    VR m c (Proc.devRef .tc main_cst_14) = (constant S_ .f32 0x3727C5AC#32) :=
  read_nullary ops_wr _ 154 rfl
theorem step_v94 :
    VR m c (Proc.devRef .tc main_v94) = (broadcastInDim S128 ![] bcast_S_S128) (VR m c (Proc.devRef .tc main_cst_14)) :=
  read_unary ops_wr _ 155 rfl
theorem step_v95 :
    VR m c (Proc.devRef .tc main_v95) = addf (VR m c (Proc.devRef .tc main_v87)) (VR m c (Proc.devRef .tc main_v94)) :=
  read_binary ops_wr _ 156 rfl
theorem step_v96 :
    VR m c (Proc.devRef .tc main_v96) = Host.rsqrt (VR m c (Proc.devRef .tc main_v95)) :=
  read_unary ops_wr _ 157 rfl
theorem step_v97 :
    VR m c (Proc.devRef .tc main_v97) = (broadcastInDim S1x128 ![1] bcast_S128_S1x128_1) (VR m c (Proc.devRef .tc main_v96)) :=
  read_unary ops_wr _ 158 rfl
theorem step_v98 :
    VR m c (Proc.devRef .tc main_v98) = (broadcastInDim S50000x128 ![0, 1] bcast_S1x128_S50000x128_0_1) (VR m c (Proc.devRef .tc main_v97)) :=
  read_unary ops_wr _ 159 rfl
theorem step_v99 :
    VR m c (Proc.devRef .tc main_v99) = mulf (VR m c (Proc.devRef .tc main_v93)) (VR m c (Proc.devRef .tc main_v98)) :=
  read_binary ops_wr _ 160 rfl
theorem step_v100 :
    VR m c (Proc.devRef .tc main_v100) = (broadcastInDim S1x128 ![1] bcast_S128_S1x128_1) (VR m c (Proc.devRef .tc main_arg14)) :=
  read_unary ops_wr _ 161 rfl
theorem step_v101 :
    VR m c (Proc.devRef .tc main_v101) = (broadcastInDim S50000x128 ![0, 1] bcast_S1x128_S50000x128_0_1) (VR m c (Proc.devRef .tc main_v100)) :=
  read_unary ops_wr _ 162 rfl
theorem step_v102 :
    VR m c (Proc.devRef .tc main_v102) = addf (VR m c (Proc.devRef .tc main_v99)) (VR m c (Proc.devRef .tc main_v101)) :=
  read_binary ops_wr _ 163 rfl
theorem step_call3_cst :
    VR m c (Proc.devRef .tc main_call3_cst) = (constant S_ .f32 0x00000000#32) :=
  read_nullary ops_wr _ 164 rfl
theorem step_call3_v0 :
    VR m c (Proc.devRef .tc main_call3_v0) = (broadcastInDim S50000x128 ![] bcast_S_S50000x128) (VR m c (Proc.devRef .tc main_call3_cst)) :=
  read_unary ops_wr _ 165 rfl
theorem step_v103 :
    VR m c (Proc.devRef .tc main_v103) = maximumf (VR m c (Proc.devRef .tc main_v102)) (VR m c (Proc.devRef .tc main_call3_v0)) :=
  read_binary ops_wr _ 166 rfl
theorem step_v104 :
    VR m c (Proc.devRef .tc main_v104) = addf (VR m c (Proc.devRef .tc main_arg0)) (VR m c (Proc.devRef .tc main_v103)) :=
  read_binary ops_wr _ 167 rfl

end Cert.ReferenceIdeal.Hand

end
-- ==== Proof.Ref.Take.lean ====
import proofs.«408522_j36180804502137_3_alg».proof.ReferenceIdeal
import proofs.«408522_j36180804502137_3_alg».proof.Proof.Spec
import proofs.«408522_j36180804502137_3_alg».proof.Proof.LibGatherRow
import Idealize.ShloMosaic.Lib.ValueIdx
import Idealize.ShloMosaic.Lib.Pipeline.Value

noncomputable section

namespace Cert.ReferenceIdeal.Hand

open Cert.ReferenceIdeal Idealize.ShloMosaic Idealize.ShloMosaic.ValueIdx

variable [Cert.ReferenceIdeal.Facts]
open Facts₀ Facts

variable {ix : Fin 640000 → Fin 50000}

-- A word that reads as a row number is not negative: the select keeps the word itself, and the column reads it back.
theorem wrap_apply {I : IVec S640000 32} (hI : ∀ e : Fin 640000, (I (ix1 e)).toInt = ((ix e).val : ℤ)) (e : Fin 640000) :
    ((broadcastInDim S640000x1 ![0] bcast_S640000_S640000x1_0
      (select (cmpi .slt I (broadcastInDim S640000 ![] bcast_S_S640000 (constantI S_ 32 0#32)))
        (addi I (broadcastInDim S640000 ![] bcast_S_S640000 (constantI S_ 32 50000#32))) I)) (ix2 e (0 : Fin 1))).toInt
      = ((ix e).val : ℤ) := by
  rw [broadcastInDim_apply (![0] : Fin 1 → Fin 2) bcast_S640000_S640000x1_0 _ (ix2 e (0 : Fin 1)) (ix1 e)
    (fun a => by obtain rfl : a = 0 := Subsingleton.elim _ _; rfl), select_apply]
  have hc : cmpi .slt I (broadcastInDim S640000 ![] bcast_S_S640000 (constantI S_ 32 0#32)) (ix1 e) = 0#1 := by
    show BitVec.ofBool ((I (ix1 e)).slt 0#32) = 0#1
    have : (I (ix1 e)).slt 0#32 = false := by rw [BitVec.slt, hI e]; simp
    rw [this]; rfl
  rw [hc, select_zero, hI e]

-- A gather of whole rows whose start words read as row numbers of the table takes those rows.
theorem take_rows {T : FVec Ideal S50000x128 .f32} {S : IVec S640000x1 32} {tb : Fin 50000 → Fin 128 → ℝ}
    (hT : GG.IsR2 T tb) (hS : ∀ e : Fin 640000, (S (ix2 e (0 : Fin 1))).toInt = ((ix e).val : ℤ)) :
    GG.IsR2 (Host.gather gather_S50000x128_S640000x1_S640000x128_1_0_n_n_0_1_1128 T S) (GG.rows tb ix) := fun e j => by
  have hS' := hS e
  have hlt := (ix e).isLt
  rw [Idealize.ShloMosaic.GatherRow.gather_rowTake_apply_of_lt _ rfl rfl rfl rfl rfl rfl rfl T S e j (by omega) (by omega)]
  have hrow : (⟨(S (ix2 e (0 : Fin 1))).toInt.toNat, by omega⟩ : Fin 50000) = ix e := Fin.ext (by show (_ : ℤ).toNat = _; omega)
  rw [hrow]
  exact hT (ix e) j

end Cert.ReferenceIdeal.Hand

end
-- ==== Proof.Ref.Lin.lean ====
import proofs.«408522_j36180804502137_3_alg».proof.ReferenceIdeal
import proofs.«408522_j36180804502137_3_alg».proof.Proof.Spec
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

open scoped BigOperators

namespace Cert.ReferenceIdeal.Hand

open Cert.ReferenceIdeal Idealize.ShloMosaic Idealize.ShloMosaic.ValueIdx

variable {n : ℕ} {α : Type} {b1 : S128.BroadcastsInDim S1x128 ![1]}
  {b3 : S1x128.BroadcastsInDim (⟨2, ![n, 128]⟩ : Shape) ![0, 1]}

-- A vector laid as one row reads its entry `j` at `(0, j)`.
theorem row1_apply (V : S128.Idx → α) (j : Fin 128) :
    broadcastInDim S1x128 ![1] b1 V (ix2 (0 : Fin 1) j) = V (ix1 j) :=
  broadcastInDim_apply (![1] : Fin 1 → Fin 2) b1 V (ix2 (0 : Fin 1) j) (ix1 j)
    fun a => by obtain rfl : a = 0 := Subsingleton.elim _ _; rfl

-- That row repeated down `n` rows reads the entry `j` at every `(r, j)`.
theorem bcastRows_apply (V : S128.Idx → α) (r : Fin n) (j : Fin 128) :
    broadcastInDim (⟨2, ![n, 128]⟩ : Shape) ![0, 1] b3 (broadcastInDim S1x128 ![1] b1 V) (ix2 r j) = V (ix1 j) :=
  (broadcastInDim_oneRow_apply b3 _ r j).trans (row1_apply V j)

-- The affine map `A · Wᵀ + B` on real entries: the contraction is a real sum of real products, the bias row is added.
theorem lin_isR2 {A : FVec Ideal ⟨2, ![n, 128]⟩ .f32} {W : FVec Ideal S128x128 .f32} {B : FVec Ideal S128 .f32}
    {a : Fin n → Fin 128 → ℝ} {w : Fin 128 → Fin 128 → ℝ} {b : Fin 128 → ℝ} {ht : S128x128.Transposes [1, 0] S128x128}
    (hA : GG.IsR2 A a) (hW : GG.IsR2 W w) (hB : GG.IsR1 B b) :
    GG.IsR2 (addf (Host.dotGeneral (DotDims.plain n 128 128) none A (transpose S128x128 [1, 0] W ht))
      (broadcastInDim (⟨2, ![n, 128]⟩ : Shape) ![0, 1] b3 (broadcastInDim S1x128 ![1] b1 B))) (GG.lin a w b) := fun r j => by
  have hs : (∑ c : Fin 128, A (ix2 r c) * transpose S128x128 [1, 0] W ht (ix2 c j)) = ((∑ k, a r k * w j k : ℝ) : EReal) := by
    rw [← GG.coe_sum]
    exact Finset.sum_congr rfl fun c _ => by rw [transpose_ix2_apply, hA r c, hW j c, EReal.coe_mul]
  rw [addf_apply, StackMember.dotGeneral_plain_apply, bcastRows_apply, hs, hB j, ← EReal.coe_add]
  rfl

end Cert.ReferenceIdeal.Hand

end
-- ==== Proof.Ref.Norm.lean ====
import proofs.«408522_j36180804502137_3_alg».proof.Proof.Ref.Lin
import Idealize.ShloMosaic.Lib.IdealHost
import Idealize.ShloMosaic.Lib.Pipeline.Value

noncomputable section

open scoped BigOperators

namespace Cert.ReferenceIdeal.Hand

open Cert.ReferenceIdeal Idealize.ShloMosaic Idealize.ShloMosaic.ValueIdx

variable {n : ℕ} {h' : (⟨2, ![n, 128]⟩ : Shape).ReducesTo [0] S128} {hu : 0 < S_.numel}
  {hb : S_.BroadcastsInDim S128 ![]} {hb1 : S_.BroadcastsInDim S1x128 ![]}
  {hbn : S_.BroadcastsInDim (⟨2, ![n, 128]⟩ : Shape) ![]} {b1 : S128.BroadcastsInDim S1x128 ![1]}
  {b3 : S1x128.BroadcastsInDim (⟨2, ![n, 128]⟩ : Shape) ![0, 1]}
  {X Y : FVec Ideal ⟨2, ![n, 128]⟩ .f32} {x y : Fin n → Fin 128 → ℝ} {w : BitVec 32}

theorem add_res (hX : GG.IsR2 X x) (hY : GG.IsR2 Y y) : GG.IsR2 (addf X Y) (fun r j => x r j + y r j) := fun r j => by
  rw [addf_apply, hX, hY, ← EReal.coe_add]

theorem mul_res (hX : GG.IsR2 X x) (hY : GG.IsR2 Y y) : GG.IsR2 (mulf X Y) (fun r j => x r j * y r j) := fun r j => by
  rw [mulf_apply, hX, hY, ← EReal.coe_mul]

-- The sum over the rows from zero, at column `j`, is the real sum of the column's entries.
theorem colsum_apply (hX : GG.IsR2 X x) (j : Fin 128) (hr : (⟨2, ![n, 128]⟩ : Shape).Reduces [0] S128 := by decide) :
    Host.reduceAdd X (constant (F := Ideal) S_ .f32 0x00000000#32) h' hu (ix1 j) = ((∑ r, x r j : ℝ) : EReal) := by
  rw [hostReduceAdd_apply, Ideal.hostReduceAdd_single h' hr, constant_apply, Ideal.ofBits_zero_f32, zero_add]
  show ∑ k : Fin n, X (hr.lift (ix1 j) k) = _
  rw [← GG.coe_sum]
  refine Finset.sum_congr rfl fun k _ => ?_
  have hk : hr.lift (ix1 j) k = ix2 k j := by
    funext c
    match c with
    | ⟨0, _⟩ => rfl
    | ⟨1, _⟩ => rfl
  rw [hk, hX]

section Count
variable (hN : Ideal.ofBits .f32 w = ((n : ℝ) : EReal))
include hN

-- A column's mean: the column sum divided by the count.
theorem mean_apply (hX : GG.IsR2 X x) (hr : (⟨2, ![n, 128]⟩ : Shape).Reduces [0] S128 := by decide)
    (hn : 0 < n := by norm_num) :
    GG.IsR1 (Host.divf (Host.reduceAdd X (constant (F := Ideal) S_ .f32 0x00000000#32) h' hu)
      (broadcastInDim S128 ![] hb (constant (F := Ideal) S_ .f32 w))) (GG.mean x) := fun j => by
  rw [hostDivf_apply, colsum_apply hX j hr, broadcastInDim_scalar_apply, constant_apply, hN,
    GG.div_coe_coe _ (Nat.cast_ne_zero.2 hn.ne')]
  rfl

-- The deviations from the column means, the mean taken through one-row arrays.
theorem dev_apply (hX : GG.IsR2 X x) (hr : (⟨2, ![n, 128]⟩ : Shape).Reduces [0] S128 := by decide)
    (hn : 0 < n := by norm_num) :
    GG.IsR2 (subf X (broadcastInDim (⟨2, ![n, 128]⟩ : Shape) ![0, 1] b3
      (Host.divf (broadcastInDim S1x128 ![1] b1 (Host.reduceAdd X (constant (F := Ideal) S_ .f32 0x00000000#32) h' hu))
        (broadcastInDim S1x128 ![] hb1 (constant (F := Ideal) S_ .f32 w)))))
      (fun r j => x r j - GG.mean x j) := fun r j => by
  rw [subf_apply, broadcastInDim_oneRow_apply, hostDivf_apply, row1_apply, colsum_apply hX j hr,
    broadcastInDim_scalar_apply, constant_apply, hN, GG.div_coe_coe _ (Nat.cast_ne_zero.2 hn.ne'), hX, ← EReal.coe_sub]
  rfl

-- The count less the converted integer zero is the count.
theorem cnt_apply :
    subf (constant (F := Ideal) S_ .f32 w) (sitofp (F := Ideal) .f32 (constantI S_ 32 0#32)) ix0 = ((n : ℝ) : EReal) := by
  rw [subf_apply, constant_apply, hN, sitofp_apply]
  show ((n : ℝ) : EReal) - (((0 : ℤ) : ℝ) : EReal) = _
  rw [Int.cast_zero, EReal.coe_zero, sub_zero]

end Count

-- The variance: the column sums of the squared deviations over the count; the guard "the count is positive" holds.
theorem var_apply {D : FVec Ideal ⟨2, ![n, 128]⟩ .f32} {Nn : FVec Ideal S_ .f32} {Z : S128.Idx → EReal}
    (hD : GG.IsR2 D fun r j => x r j - GG.mean x j) (hNn : Nn ix0 = ((n : ℝ) : EReal))
    (hr : (⟨2, ![n, 128]⟩ : Shape).Reduces [0] S128 := by decide) (hn : 0 < n := by norm_num) :
    GG.IsR1 (select (broadcastInDim S128 ![] hb (cmpf .ogt Nn (constant (F := Ideal) S_ .f32 0x00000000#32)))
      (Host.divf (Host.reduceAdd (mulf D D) (constant (F := Ideal) S_ .f32 0x00000000#32) h' hu)
        (broadcastInDim S128 ![] hb Nn)) Z) (GG.var x) := fun j => by
  have hc : cmpf .ogt Nn (constant (F := Ideal) S_ .f32 0x00000000#32) ix0 = 1#1 := by
    rw [cmpf_apply, hNn, constant_apply, Ideal.ofBits_zero_f32]
    show BitVec.ofBool (decide ((0 : EReal) < ((n : ℝ) : EReal))) = 1#1
    have : (0 : EReal) < ((n : ℝ) : EReal) := by exact_mod_cast hn
    rw [decide_eq_true this]; rfl
  rw [select_apply, broadcastInDim_scalar_apply, hc, select_one, hostDivf_apply, colsum_apply (mul_res hD hD) j hr,
    broadcastInDim_scalar_apply, hNn, GG.div_coe_coe _ (Nat.cast_ne_zero.2 hn.ne')]
  rfl

-- Normalise, scale, shift, cut below at zero; the root's argument is positive, a variance being a mean of squares.
theorem norm_apply {wε : BitVec 32} {ε : ℝ} (hε : Ideal.ofBits .f32 wε = ((ε : ℝ) : EReal)) (hε0 : 0 < ε)
    (hX : GG.IsR2 X x) {G Bt M Vr : FVec Ideal S128 .f32} {γ β : Fin 128 → ℝ} (hG : GG.IsR1 G γ) (hB : GG.IsR1 Bt β)
    (hM : GG.IsR1 M (GG.mean x)) (hV : GG.IsR1 Vr (GG.var x)) :
    GG.IsR2
      (maximumf
        (addf
          (mulf
            (mulf (broadcastInDim (⟨2, ![n, 128]⟩ : Shape) ![0, 1] b3 (broadcastInDim S1x128 ![1] b1 G))
              (subf X (broadcastInDim (⟨2, ![n, 128]⟩ : Shape) ![0, 1] b3 (broadcastInDim S1x128 ![1] b1 M))))
            (broadcastInDim (⟨2, ![n, 128]⟩ : Shape) ![0, 1] b3 (broadcastInDim S1x128 ![1] b1
              (Host.rsqrt (addf Vr (broadcastInDim S128 ![] hb (constant (F := Ideal) S_ .f32 wε)))))))
          (broadcastInDim (⟨2, ![n, 128]⟩ : Shape) ![0, 1] b3 (broadcastInDim S1x128 ![1] b1 Bt)))
        (broadcastInDim (⟨2, ![n, 128]⟩ : Shape) ![] hbn (constant (F := Ideal) S_ .f32 0x00000000#32)))
      (GG.normRelu ε x γ β) := fun r j => by
  have hrs : Host.rsqrt (addf Vr (broadcastInDim S128 ![] hb (constant (F := Ideal) S_ .f32 wε))) (ix1 j)
      = (((Real.sqrt (GG.var x j + ε))⁻¹ : ℝ) : EReal) := by
    show Ideal.rsqrt (addf Vr (broadcastInDim S128 ![] hb (constant (F := Ideal) S_ .f32 wε)) (ix1 j)) = _
    rw [addf_apply, hV, broadcastInDim_scalar_apply, constant_apply, hε, ← EReal.coe_add,
      GG.rsqrt_coe_pos (add_pos_of_nonneg_of_pos (GG.var_nonneg x j) hε0)]
  rw [maximumf_apply, addf_apply, mulf_apply, mulf_apply, subf_apply, bcastRows_apply, bcastRows_apply,
    bcastRows_apply, bcastRows_apply, broadcastInDim_scalar_apply, constant_apply, Ideal.ofBits_zero_f32,
    hG, hX, hM, hrs, hB, ← EReal.coe_sub, ← EReal.coe_mul, ← EReal.coe_mul, ← EReal.coe_add, ← EReal.coe_zero,
    GG.max_coe]
  rfl

-- The logistic: one over one plus the exponential of the negated entry.
theorem sigm_apply (hX : GG.IsR2 X x) :
    GG.IsR2
      (Host.divf (broadcastInDim (⟨2, ![n, 128]⟩ : Shape) ![] hbn (constant (F := Ideal) S_ .f32 0x3F800000#32))
        (addf (broadcastInDim (⟨2, ![n, 128]⟩ : Shape) ![] hbn (constant (F := Ideal) S_ .f32 0x3F800000#32))
          (Host.exp (Host.negf X))))
      (fun r j => GG.sigm (x r j)) := fun r j => by
  have hex : Host.exp (Host.negf X) (ix2 r j) = ((Real.exp (-(x r j)) : ℝ) : EReal) := by
    show Ideal.exp (-(X (ix2 r j))) = _
    rw [hX, ← EReal.coe_neg, GG.exp_coe]
  have hne : (1 + Real.exp (-(x r j)) : ℝ) ≠ 0 := (add_pos zero_lt_one (Real.exp_pos _)).ne'
  rw [hostDivf_apply, addf_apply, broadcastInDim_scalar_apply, constant_apply, Ideal.ofBits_one_f32, hex,
    ← EReal.coe_one, ← EReal.coe_add, GG.div_coe_coe _ hne]
  rfl

end Cert.ReferenceIdeal.Hand

end
-- ==== Proof.Ref.Chain.lean ====
import proofs.«408522_j36180804502137_3_alg».proof.Proof.Ref.Steps
import proofs.«408522_j36180804502137_3_alg».proof.Proof.Layer
import proofs.«408522_j36180804502137_3_alg».proof.Proof.Consts
import proofs.«408522_j36180804502137_3_alg».proof.Proof.Ref.Take
import proofs.«408522_j36180804502137_3_alg».proof.Proof.Ref.Norm
import proofs.«408522_j36180804502137_3_alg».proof.Proof.KI.Host3

noncomputable section

open scoped BigOperators
open Classical

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

-- The input arrays hold the real entries `P` names, and the endpoint words read as the node numbers `P.row`, `P.col`.
structure RefInputs (m' : (ℓ : Loc nD τ sig) → Buf (Elt Ideal) ℓ) (c : Dev nD) (P : GG.Params) : Prop where
  h0 : GG.IsR2 (m' ((c.tc : Thread nD τ).loc main_arg0)) P.x
  h2 : GG.IsR2 (m' ((c.tc : Thread nD τ).loc main_arg2)) P.ea
  h3 : GG.IsR2 (m' ((c.tc : Thread nD τ).loc main_arg3)) P.Wu
  h4 : GG.IsR1 (m' ((c.tc : Thread nD τ).loc main_arg4)) P.bu
  h5 : GG.IsR2 (m' ((c.tc : Thread nD τ).loc main_arg5)) P.Wv
  h6 : GG.IsR1 (m' ((c.tc : Thread nD τ).loc main_arg6)) P.bv
  h7 : GG.IsR2 (m' ((c.tc : Thread nD τ).loc main_arg7)) P.WA
  h8 : GG.IsR1 (m' ((c.tc : Thread nD τ).loc main_arg8)) P.bA
  h9 : GG.IsR2 (m' ((c.tc : Thread nD τ).loc main_arg9)) P.WB
  h10 : GG.IsR1 (m' ((c.tc : Thread nD τ).loc main_arg10)) P.bB
  h11 : GG.IsR2 (m' ((c.tc : Thread nD τ).loc main_arg11)) P.WC
  h12 : GG.IsR1 (m' ((c.tc : Thread nD τ).loc main_arg12)) P.bC
  h13 : GG.IsR1 (m' ((c.tc : Thread nD τ).loc main_arg13)) P.gn
  h14 : GG.IsR1 (m' ((c.tc : Thread nD τ).loc main_arg14)) P.bn
  h15 : GG.IsR1 (m' ((c.tc : Thread nD τ).loc main_arg15)) P.ge
  h16 : GG.IsR1 (m' ((c.tc : Thread nD τ).loc main_arg16)) P.be
  hrow : ∀ e : Fin 640000, ((m' ((c.tc : Thread nD τ).loc main_arg1)) (ix2 (0 : Fin 2) e)).toInt = ((P.row e).val : ℤ)
  hcol : ∀ e : Fin 640000, ((m' ((c.tc : Thread nD τ).loc main_arg1)) (ix2 (1 : Fin 2) e)).toInt = ((P.col e).val : ℤ)

variable {m' : (ℓ : Loc nD τ sig) → Buf (Elt Ideal) ℓ} {c : Dev nD} {P : GG.Params}

-- Update entry `j` lands on table entry `i`, read through the reference's own index column.
abbrev hitR (m' : (ℓ : Loc nD τ sig) → Buf (Elt Ideal) ℓ) (c : Dev nD) :
    (⟨2, ![640000, 128]⟩ : Shape).Idx → (⟨2, ![50000, 128]⟩ : Shape).Idx → Prop :=
  fun j i => scatter_S50000x128_S640000x1_S640000x128_1_0_0_1.resultIdx? j (VR m' c (Proc.devRef .tc main_v76)) = some i

theorem r_v1 (e : Fin 640000) : (VR m' c (Proc.devRef .tc main_v1)) (ix1 e) = (m' ((c.tc : Thread nD τ).loc main_arg1)) (ix2 (0 : Fin 2) e) := by
  rw [step_v1, step_v0, VR_main_arg1, shapeCast_1a_a_apply]
  exact slice2_axis0_apply 0 _ _ 0 e 0 rfl

theorem r_v3 (e : Fin 640000) : (VR m' c (Proc.devRef .tc main_v3)) (ix1 e) = (m' ((c.tc : Thread nD τ).loc main_arg1)) (ix2 (1 : Fin 2) e) := by
  rw [step_v3, step_v2, VR_main_arg1, shapeCast_1a_a_apply]
  exact slice2_axis0_apply 1 _ _ 0 e 1 rfl

theorem r_v76_eq (e : Fin 640000) : (VR m' c (Proc.devRef .tc main_v76)) (ix2 e (0 : Fin 1)) = (m' ((c.tc : Thread nD τ).loc main_arg1)) (ix2 (0 : Fin 2) e) := by
  rw [step_v76]
  refine (broadcastInDim_apply (![0] : Fin 1 → Fin 2) bcast_S640000_S640000x1_0 _ (ix2 e (0 : Fin 1)) (ix1 e)
    (fun a => by obtain rfl : a = 0 := Subsingleton.elim _ _; rfl)).trans ?_
  exact r_v1 e

theorem hN640 : Ideal.ofBits .f32 0x491C4000#32 = (((640000 : ℕ) : ℝ) : EReal) := by
  rw [Cert.Consts.ofBits_640000, Nat.cast_ofNat]
theorem hN50 : Ideal.ofBits .f32 0x47435000#32 = (((50000 : ℕ) : ℝ) : EReal) := by
  rw [Cert.Consts.ofBits_50000, Nat.cast_ofNat]

variable (hI : RefInputs m' c P)
include hI

theorem r_v1_row (e : Fin 640000) : ((VR m' c (Proc.devRef .tc main_v1)) (ix1 e)).toInt = ((P.row e).val : ℤ) := by
  rw [r_v1 e]; exact hI.hrow e
theorem r_v3_col (e : Fin 640000) : ((VR m' c (Proc.devRef .tc main_v3)) (ix1 e)).toInt = ((P.col e).val : ℤ) := by
  rw [r_v3 e]; exact hI.hcol e

theorem r_v18 : GG.IsR2 (VR m' c (Proc.devRef .tc main_v18)) (GG.lin P.ea P.WA P.bA) := by
  rw [step_v18, step_v17, step_v16, step_v15, step_v14, VR_main_arg2, VR_main_arg7, VR_main_arg8]
  exact lin_isR2 hI.h2 hI.h7 hI.h8

theorem r_v25 : GG.IsR2 (VR m' c (Proc.devRef .tc main_v25)) (GG.rows (GG.lin P.x P.WB P.bB) P.row) := by
  rw [step_v25, step_v24, step_v23, step_v22, step_v21, step_c_0, step_v20, step_v19, step_c, step_v8, step_v7, step_v6, step_v5, step_v4, VR_main_arg0, VR_main_arg10, VR_main_arg9]
  exact take_rows (lin_isR2 hI.h0 hI.h9 hI.h10) (wrap_apply (r_v1_row hI))

theorem r_v33 : GG.IsR2 (VR m' c (Proc.devRef .tc main_v33)) (GG.rows (GG.lin P.x P.WC P.bC) P.col) := by
  rw [step_v33, step_v32, step_v31, step_v30, step_v29, step_c_2, step_v28, step_v27, step_c_1, step_v13, step_v12, step_v11, step_v10, step_v9, VR_main_arg0, VR_main_arg11, VR_main_arg12]
  exact take_rows (lin_isR2 hI.h0 hI.h11 hI.h12) (wrap_apply (r_v3_col hI))

theorem r_v73 : GG.IsR2 (VR m' c (Proc.devRef .tc main_v73)) (GG.rows P.nv P.col) := by
  rw [step_v73, step_v72, step_v71, step_v70, step_v69, step_c_9, step_v68, step_v67, step_c_8, step_v66, step_v65, step_v64, step_v63, step_v62, VR_main_arg0, VR_main_arg5, VR_main_arg6]
  exact take_rows (lin_isR2 hI.h0 hI.h5 hI.h6) (wrap_apply (r_v3_col hI))

-- The edge pre-activation: the edge's own image plus its two endpoints' images, added in this order.
theorem r_v34 : GG.IsR2 (VR m' c (Proc.devRef .tc main_v34)) P.ein := by
  intro e j
  rw [step_v34, step_v26, addf_apply, addf_apply, r_v18 hI e j, r_v25 hI e j, r_v33 hI e j, ← EReal.coe_add, ← EReal.coe_add]
  rfl

theorem r_v37 : GG.IsR1 (VR m' c (Proc.devRef .tc main_v37)) (GG.mean P.ein) := by
  rw [step_v37, step_v36, step_cst_3, step_v35, step_cst]
  exact mean_apply hN640 (r_v34 hI)

theorem r_v38 : GG.IsR1 (VR m' c (Proc.devRef .tc main_v38)) (GG.var P.ein) := by
  rw [step_v38, step_call0_call0_v1, step_call0_call0_v0, step_call0_cst_4, step_call0_v12, step_call0_cst_3, step_call0_v11, step_call0_v10, step_call0_v9, step_call0_cst_2, step_call0_v8, step_call0_cst_1, step_call0_v7, step_call0_v6, step_call0_v5, step_call0_v4, step_call0_v3, step_call0_v2, step_call0_cst_0, step_call0_v1, step_call0_v0, step_call0_cst, step_c_4]
  exact var_apply (dev_apply hN640 (r_v34 hI)) (cnt_apply hN640)

theorem r_v54 :
    GG.IsR2 (VR m' c (Proc.devRef .tc main_v54)) (GG.normRelu Cert.Consts.epsR P.ein P.ge P.be) := by
  rw [step_v54, step_call1_v0, step_call1_cst, step_v53, step_v52, step_v51, step_v50, step_v49, step_v48, step_v47, step_v46, step_v45, step_cst_5, step_v44, step_v43, step_v42, step_v41, step_v40, step_v39, VR_main_arg15, VR_main_arg16]
  exact norm_apply Cert.Consts.ofBits_eps Cert.Consts.epsR_pos (r_v34 hI) hI.h15 hI.h16 (r_v37 hI) (r_v38 hI)

-- The edge output, the second result.
theorem r_v55 : GG.IsR2 (VR m' c (Proc.devRef .tc main_v55)) (P.eout Cert.Consts.epsR) := by
  rw [step_v55, VR_main_arg2]
  exact add_res hI.h2 (r_v54 hI)

theorem r_v61 :
    GG.IsR2 (VR m' c (Proc.devRef .tc main_v61)) (fun e j => GG.sigm (P.eout Cert.Consts.epsR e j)) := by
  rw [step_v61, step_v60, step_cst_7, step_v59, step_v58, step_cst_6, step_v57, step_v56]
  exact sigm_apply (r_v55 hI)

theorem r_v74 : GG.IsR2 (VR m' c (Proc.devRef .tc main_v74)) (P.msgs Cert.Consts.epsR) := by
  rw [step_v74]
  exact mul_res (r_v61 hI) (r_v73 hI)

-- The gated messages accumulated at their first endpoints, into a table of zeros.
theorem r_v77 : GG.IsR2 (VR m' c (Proc.devRef .tc main_v77)) (GG.scat (hitR m' c) (P.msgs Cert.Consts.epsR)) := by
  rw [step_v77, step_v75, step_cst_10]
  refine Cert.KernelIdeal.Hand.scatterAdd_isR2 _ _ _ _ (fun i => ?_) (r_v74 hI)
  rw [broadcastInDim_scalar_apply, constant_apply, Ideal.ofBits_zero_f32]

theorem r_v83 : GG.IsR2 (VR m' c (Proc.devRef .tc main_v83)) (P.nin Cert.Consts.epsR (hitR m' c)) := by
  rw [step_v83, step_v82, step_v81, step_v80, step_v79, step_v78, VR_main_arg0, VR_main_arg3, VR_main_arg4]
  exact add_res (lin_isR2 hI.h0 hI.h3 hI.h4) (r_v77 hI)

theorem r_v86 : GG.IsR1 (VR m' c (Proc.devRef .tc main_v86)) (GG.mean (P.nin Cert.Consts.epsR (hitR m' c))) := by
  rw [step_v86, step_v85, step_cst_12, step_v84, step_cst_11]
  exact mean_apply hN50 (r_v83 hI)

theorem r_v87 : GG.IsR1 (VR m' c (Proc.devRef .tc main_v87)) (GG.var (P.nin Cert.Consts.epsR (hitR m' c))) := by
  rw [step_v87, step_call2_call0_v1, step_call2_call0_v0, step_call2_cst_4, step_call2_v12, step_call2_cst_3, step_call2_v11, step_call2_v10, step_call2_v9, step_call2_cst_2, step_call2_v8, step_call2_cst_1, step_call2_v7, step_call2_v6, step_call2_v5, step_call2_v4, step_call2_v3, step_call2_v2, step_call2_cst_0, step_call2_v1, step_call2_v0, step_call2_cst, step_c_13]
  exact var_apply (dev_apply hN50 (r_v83 hI)) (cnt_apply hN50)

theorem r_v103 :
    GG.IsR2 (VR m' c (Proc.devRef .tc main_v103)) (GG.normRelu Cert.Consts.epsR (P.nin Cert.Consts.epsR (hitR m' c)) P.gn P.bn) := by
  rw [step_v103, step_call3_v0, step_call3_cst, step_v102, step_v101, step_v100, step_v99, step_v98, step_v97, step_v96, step_v95, step_v94, step_cst_14, step_v93, step_v92, step_v91, step_v90, step_v89, step_v88, VR_main_arg13, VR_main_arg14]
  exact norm_apply Cert.Consts.ofBits_eps Cert.Consts.epsR_pos (r_v83 hI) hI.h13 hI.h14 (r_v86 hI) (r_v87 hI)

-- The node output, the first result.
theorem r_v104 : GG.IsR2 (VR m' c (Proc.devRef .tc main_v104)) (P.xout Cert.Consts.epsR (hitR m' c)) := by
  rw [step_v104, VR_main_arg0]
  exact add_res hI.h0 (r_v103 hI)

end Cert.ReferenceIdeal.Hand

end
-- ==== Proof.Ref.Scatter.lean ====
import proofs.«408522_j36180804502137_3_alg».proof.Proof.KI.Host3
import proofs.«408522_j36180804502137_3_alg».proof.ReferenceIdeal
import proofs.«408522_j36180804502137_3_alg».proof.Proof.Layer
import Idealize.ShloMosaic.Lib.Pipeline.Value

noncomputable section

namespace Cert.ReferenceIdeal.Hand

open Idealize.ShloMosaic Idealize.ShloMosaic.TcCoe Idealize.ShloMosaic.ValueIdx

variable (ε : ℝ) (P : GG.Params)

-- The node output depends on the hit relation only through the pairs it holds of.
theorem xout_congr
    {hit hit' : (⟨2, ![640000, 128]⟩ : Shape).Idx → (⟨2, ![50000, 128]⟩ : Shape).Idx → Prop}
    [∀ j i, Decidable (hit j i)] [∀ j i, Decidable (hit' j i)] (h : hit = hit') : P.xout ε hit = P.xout ε hit' := by
  subst h
  exact congrArg (@GG.Params.xout ε P hit) (funext fun _ => funext fun _ => Subsingleton.elim _ _)

variable (Win : Valuation Cert.KernelIdeal.τ Cert.KernelIdeal.sig (Elt Ideal)) (I : IVec Cert.ReferenceIdeal.S640000x1 32)
  (h : ∀ e : Fin 640000, I (ix2 e (0 : Fin 1)) = Win (Proc.devRef .tc Cert.KernelIdeal.main_v1) (ix1 e))
include h

-- An index column whose entry `(e, 0)` is entry `e` of the first-endpoint row is that row laid along a new unit axis.
theorem col_eq_bcast :
    I = broadcastInDim Cert.KernelIdeal.S640000x1 ![0] Cert.KernelIdeal.Gen.bcast_S640000_S640000x1_0
          (Win (Proc.devRef .tc Cert.KernelIdeal.main_v1)) := by
  funext i
  obtain ⟨e, q, rfl⟩ : ∃ (e : Fin 640000) (q : Fin 1), i = ix2 e q := ⟨i 0, i 1, eq_ix2 i⟩
  obtain rfl : q = 0 := Subsingleton.elim _ _
  rw [h e]
  exact (broadcastInDim_apply ![0] _ _ (ix2 e (0 : Fin 1)) (ix1 e) fun a => match a with | ⟨0, _⟩ => rfl).symm

variable [Cert.ReferenceIdeal.Facts₀]

-- Both programs have the same scatter; with equal index columns it hits the same entries, so the node outputs agree.
theorem xout_hit_eq :
    P.xout ε (fun j i => Cert.ReferenceIdeal.scatter_S50000x128_S640000x1_S640000x128_1_0_0_1.resultIdx? j I = some i)
      = P.xout ε (Cert.KernelIdeal.Hand.hitK Win) :=
  xout_congr ε P (by rw [col_eq_bcast Win I h]; rfl)

end Cert.ReferenceIdeal.Hand

end
-- ==== Proof.lean ====
import proofs.«408522_j36180804502137_3_alg».proof.Defs
import proofs.«408522_j36180804502137_3_alg».proof.Proof.Gen.Kernel
import proofs.«408522_j36180804502137_3_alg».proof.Proof.Gen.KernelIdeal
import proofs.«408522_j36180804502137_3_alg».proof.Proof.Gen.ReferenceIdeal
import proofs.«408522_j36180804502137_3_alg».proof.Proof.Gen.Pre_finite_inputs
import proofs.«408522_j36180804502137_3_alg».proof.Proof.K.Run
import proofs.«408522_j36180804502137_3_alg».proof.Proof.KI.Run
import proofs.«408522_j36180804502137_3_alg».proof.Proof.KI.Chain
import proofs.«408522_j36180804502137_3_alg».proof.Proof.KI.PreInputs
import proofs.«408522_j36180804502137_3_alg».proof.Proof.Ref.Run
import proofs.«408522_j36180804502137_3_alg».proof.Proof.Ref.Chain
import proofs.«408522_j36180804502137_3_alg».proof.Proof.Ref.Scatter

noncomputable section

namespace Cert.Proof

open Idealize.ShloMosaic Idealize.ShloMosaic.TcCoe Idealize.ShloMosaic.ValueIdx Idealize.SL.Sem

theorem frame_k : Cert.frame_Kernel := fun m ρ _ =>
  (θ_run Cert.Kernel.defs _ _).mono (fun r h c => by and_intros <;> exact h c _ (by decide)) (Cert.Kernel.Hand.frame m ρ)

theorem frame_ki : Cert.frame_KernelIdeal := fun m ρ _ =>
  (θ_run Cert.KernelIdeal.defs _ _).mono (fun r h c => by and_intros <;> exact h c _ (by decide)) (Cert.KernelIdeal.Hand.frame m ρ)

/-- No operation of the reference writes an argument. -/
theorem frame_ri : Cert.frame_ReferenceIdeal := fun m ρ _ =>
  (θ_run Cert.ReferenceIdeal.defs _ _).mono (fun r h c => by
    and_intros <;> exact (h c _).trans (Cert.ReferenceIdeal.Hand.VR_of_not_written m c))
    (Cert.ReferenceIdeal.Hand.run (F := Ideal) m ρ)

open Cert.KernelIdeal.Hand Cert.ReferenceIdeal.Hand in
/-- The reference scatters at the column of first endpoints, which is the row the kernel program's scatter reads. -/
theorem idx_col (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e : Fin 640000) :
    VR m' c (Proc.devRef .tc Cert.ReferenceIdeal.main_v76) (ix2 e (0 : Fin 1)) = W8 m c (Proc.devRef .tc Cert.KernelIdeal.main_v1) (ix1 e) := by
  have hk : W8 m c (Proc.devRef .tc Cert.KernelIdeal.main_v1) = W1 m c (Proc.devRef .tc Cert.KernelIdeal.main_v1) :=
    (W8_keep m c Cert.KernelIdeal.main_v1 (by decide)).trans <| (W7_keep m c Cert.KernelIdeal.main_v1 (by decide)).trans <| (W6_keep m c Cert.KernelIdeal.main_v1 (by decide)).trans <| (W5_keep m c Cert.KernelIdeal.main_v1 (by decide)).trans <| (W4_keep m c Cert.KernelIdeal.main_v1 (by decide)).trans <| (W3_keep m c Cert.KernelIdeal.main_v1 (by decide)).trans <| (W2_keep m c Cert.KernelIdeal.main_v1 (by decide))
  rw [r_v76_eq (m' := m') (c := c) e, h1, hk]
  exact (kv1 m c e).symm

open Cert.KernelIdeal.Hand Cert.ReferenceIdeal.Hand in
open Classical in
/-- Both programs hold the same real arrays stage by stage; a column's variance is the one algebraic step. -/
theorem algebraic : Cert.algebraic_KernelIdeal_ReferenceIdeal := by
  intro m ρ m' ρ' hpre hagree
  have hP : ∀ c, ∃ P : GG.Params, KInputs m c P := fun c => inputs_of_pre m hpre c
  choose P hP using hP
  have hR : ∀ c, RefInputs m' c (P c) := fun c => by
    obtain ⟨a0, a1, a2, a3, a4, a5, a6, a7, a8, a9, a10, a11, a12, a13, a14, a15, a16⟩ := hagree c
    exact
    { h0 := a0 ▸ (hP c).h0, h2 := a2 ▸ (hP c).h2, h3 := a3 ▸ (hP c).h3, h4 := a4 ▸ (hP c).h4, h5 := a5 ▸ (hP c).h5,
      h6 := a6 ▸ (hP c).h6, h7 := a7 ▸ (hP c).h7, h8 := a8 ▸ (hP c).h8, h9 := a9 ▸ (hP c).h9, h10 := a10 ▸ (hP c).h10,
      h11 := a11 ▸ (hP c).h11, h12 := a12 ▸ (hP c).h12, h13 := a13 ▸ (hP c).h13, h14 := a14 ▸ (hP c).h14,
      h15 := a15 ▸ (hP c).h15, h16 := a16 ▸ (hP c).h16,
      hrow := fun e => a1 ▸ (hP c).hrow e, hcol := fun e => a1 ▸ (hP c).hcol e }
  refine ⟨fun c => W12 m c (Proc.devRef .tc Cert.KernelIdeal.main_v60), fun c => W12 m c (Proc.devRef .tc Cert.KernelIdeal.main_v36_0), ?_, ?_⟩
  · exact (θ_run Cert.KernelIdeal.defs _ _).mono (fun r h c => by
      refine ⟨h c _ (mem_uc Cert.KernelIdeal.main_v60 (by decide)), h c _ (mem_uc Cert.KernelIdeal.main_v36_0 (by decide)), ?_⟩
      and_intros <;> exact (h c _ (mem_uc _ (by decide))).trans (W12_arg m c))
      (Cert.KernelIdeal.Hand.run m ρ)
  · exact (θ_run Cert.ReferenceIdeal.defs _ _).mono (fun r h c => by
      refine
      ⟨(h c Cert.ReferenceIdeal.main_v104).trans (GG.IsR2.ext (r_v104 (hR c)) ((k_first m c (P c) (hP c)).congr (xout_hit_eq Cert.Consts.epsR (P c) (W8 m c) (VR m' c (Proc.devRef .tc Cert.ReferenceIdeal.main_v76)) (idx_col m m' c (hagree c).2.1)).symm)),
       (h c Cert.ReferenceIdeal.main_v55).trans (GG.IsR2.ext (r_v55 (hR c)) (k_second m c (P c) (hP c))), ?_⟩
      and_intros <;> exact (h c _).trans (VR_of_not_written m' c))
      (Cert.ReferenceIdeal.Hand.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
